-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1024x4002 : Shape := ⟨2, ![1024, 4002]⟩
abbrev S4002 : Shape := ⟨1, ![4002]⟩
abbrev S1024x1024 : Shape := ⟨2, ![1024, 1024]⟩
abbrev S1024x16000 : Shape := ⟨2, ![1024, 16000]⟩
abbrev S1024x256 : Shape := ⟨2, ![1024, 256]⟩
abbrev S256x30000 : Shape := ⟨2, ![256, 30000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4002 : S_.BroadcastsInDim S1024x4002 (![] : Fin 0 → Fin S1024x4002.rank)
  reducesTo_S1024x4002_S_d0_1 : S1024x4002.ReducesTo [0, 1] S_
  bcast_S_S4002 : S_.BroadcastsInDim S4002 (![] : Fin 0 → Fin S4002.rank)
  reducesTo_S4002_S_d0 : S4002.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x16000 : S_.BroadcastsInDim S1024x16000 (![] : Fin 0 → Fin S1024x16000.rank)
  reducesTo_S1024x16000_S_d0_1 : S1024x16000.ReducesTo [0, 1] S_
  bcast_S_S1024x256 : S_.BroadcastsInDim S1024x256 (![] : Fin 0 → Fin S1024x256.rank)
  reducesTo_S1024x256_S_d0_1 : S1024x256.ReducesTo [0, 1] S_
  bcast_S_S256x30000 : S_.BroadcastsInDim S256x30000 (![] : Fin 0 → Fin S256x30000.rank)
  reducesTo_S256x30000_S_d0_1 : S256x30000.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg1 : IVec S4096 32) (main_v33 : IVec S_ 1) : IVec S_ 1 :=
  let main_c_12 : IVec S_ 32 := constantI S_ 32 0#32
  let main_v34 : IVec S4096 32 := broadcastInDim S4096 ![] bcast_S_S4096 main_c_12
  let main_v35 : IVec S4096 1 := cmpi .sge main_arg1 main_v34
  let main_c_13 : IVec S_ 32 := constantI S_ 32 50000#32
  let main_v36 : IVec S4096 32 := broadcastInDim S4096 ![] bcast_S_S4096 main_c_13
  let main_v37 : IVec S4096 1 := cmpi .slt main_arg1 main_v36
  let main_v38 : IVec S4096 1 := andi main_v35 main_v37
  let main_c_14 : IVec S_ 1 := constantI S_ 1 1#1
  let main_v39 : IVec S_ 1 := (fun x v => Host.reduce IntOp.andi x v reducesTo_S4096_S_d0 h_S_) main_v38 main_c_14
  let main_v40 : IVec S_ 1 := andi main_v33 main_v39
  main_v40

def fn_part1 {F : FTy → Type} [FloatOps F] (main_arg1 : IVec S4096 32) (main_arg5 : FVec F S1024x16000 .f32) (main_arg6 : FVec F S1024x256 .f32) (main_arg7 : FVec F S256x30000 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x16000 .f32 := Host.absf main_arg5
  let main_cst_6 : FVec F S_ .f32 := constant S_ .f32 0x7F800000#32
  let main_v20 : FVec F S1024x16000 .f32 := broadcastInDim S1024x16000 ![] bcast_S_S1024x16000 main_cst_6
  let main_v21 : IVec S1024x16000 1 := cmpf .olt main_v19 main_v20
  let main_c_7 : IVec S_ 1 := constantI S_ 1 1#1
  let main_v22 : IVec S_ 1 := (fun x v => Host.reduce IntOp.andi x v reducesTo_S1024x16000_S_d0_1 h_S_) main_v21 main_c_7
  let main_v23 : IVec S_ 1 := andi main_v18 main_v22
  let main_v24 : FVec F S1024x256 .f32 := Host.absf main_arg6
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S256x30000 .f32 := Host.absf main_arg7
  let main_cst_10 : FVec F S_ .f32 := constant S_ .f32 0x7F800000#32
  let main_v30 : FVec F S256x30000 .f32 := broadcastInDim S256x30000 ![] bcast_S_S256x30000 main_cst_10
  let main_v31 : IVec S256x30000 1 := cmpf .olt main_v29 main_v30
  let main_c_11 : IVec S_ 1 := constantI S_ 1 1#1
  let main_v32 : IVec S_ 1 := (fun x v => Host.reduce IntOp.andi x v reducesTo_S256x30000_S_d0_1 h_S_) main_v31 main_c_11
  let main_v33 : IVec S_ 1 := andi main_v28 main_v32
  fn_part2 (F := F) main_arg1 main_v33

def fn {F : FTy → Type} [FloatOps F] (main_arg0 : FVec F S4096x1024 .f32) (main_arg1 : IVec S4096 32) (main_arg2 : FVec F S1024x4002 .f32) (main_arg3 : FVec F S4002 .f32) (main_arg4 : FVec F S1024x1024 .f32) (main_arg5 : FVec F S1024x16000 .f32) (main_arg6 : FVec F S1024x256 .f32) (main_arg7 : FVec F S256x30000 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4002 .f32 := Host.absf main_arg2
  let main_cst_0 : FVec F S_ .f32 := constant S_ .f32 0x7F800000#32
  let main_v5 : FVec F S1024x4002 .f32 := broadcastInDim S1024x4002 ![] bcast_S_S1024x4002 main_cst_0
  let main_v6 : IVec S1024x4002 1 := cmpf .olt main_v4 main_v5
  let main_c_1 : IVec S_ 1 := constantI S_ 1 1#1
  let main_v7 : IVec S_ 1 := (fun x v => Host.reduce IntOp.andi x v reducesTo_S1024x4002_S_d0_1 h_S_) main_v6 main_c_1
  let main_v8 : IVec S_ 1 := andi main_v3 main_v7
  let main_v9 : FVec F S4002 .f32 := Host.absf main_arg3
  let main_cst_2 : FVec F S_ .f32 := constant S_ .f32 0x7F800000#32
  let main_v10 : FVec F S4002 .f32 := broadcastInDim S4002 ![] bcast_S_S4002 main_cst_2
  let main_v11 : IVec S4002 1 := cmpf .olt main_v9 main_v10
  let main_c_3 : IVec S_ 1 := constantI S_ 1 1#1
  let main_v12 : IVec S_ 1 := (fun x v => Host.reduce IntOp.andi x v reducesTo_S4002_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg1 main_arg5 main_arg6 main_arg7 main_v13 main_v16
-- ==== Kernel.lean ====
abbrev S4096x1024 : Shape := ⟨2, ![4096, 1024]⟩
abbrev S4096 : Shape := ⟨1, ![4096]⟩
abbrev S1024x4002 : Shape := ⟨2, ![1024, 4002]⟩
abbrev S4002 : Shape := ⟨1, ![4002]⟩
abbrev S1024x1024 : Shape := ⟨2, ![1024, 1024]⟩
abbrev S1024x16000 : Shape := ⟨2, ![1024, 16000]⟩
abbrev S1024x256 : Shape := ⟨2, ![1024, 256]⟩
abbrev S256x30000 : Shape := ⟨2, ![256, 30000]⟩
abbrev S4096x1 : Shape := ⟨2, ![4096, 1]⟩
abbrev S_ : Shape := ⟨0, ![]⟩
abbrev S1024x16384 : Shape := ⟨2, ![1024, 16384]⟩
abbrev S2048x1024 : Shape := ⟨2, ![2048, 1024]⟩
abbrev S1024x512 : Shape := ⟨2, ![1024, 512]⟩
abbrev S2048x1 : Shape := ⟨2, ![2048, 1]⟩
abbrev S2048x512 : Shape := ⟨2, ![2048, 512]⟩
abbrev S2048 : Shape := ⟨1, ![2048]⟩
abbrev S256x30720 : Shape := ⟨2, ![256, 30720]⟩
abbrev S256x768 : Shape := ⟨2, ![256, 768]⟩
abbrev S2048x256 : Shape := ⟨2, ![2048, 256]⟩
abbrev S2048x768 : Shape := ⟨2, ![2048, 768]⟩
abbrev S1024x4096 : Shape := ⟨2, ![1024, 4096]⟩
abbrev S1x4096 : Shape := ⟨2, ![1, 4096]⟩
abbrev S256x1024 : Shape := ⟨2, ![256, 1024]⟩
abbrev S256x1 : Shape := ⟨2, ![256, 1]⟩
abbrev S256x4096 : Shape := ⟨2, ![256, 4096]⟩
abbrev S256 : Shape := ⟨1, ![256]⟩

abbrev nBuf : Space → Nat
  | .hbm => 41
  | .vmem => 37
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024x4002, .f32⟩
  | .hbm, ⟨3, _⟩ => ⟨S4002, .f32⟩
  | .hbm, ⟨4, _⟩ => ⟨S1024x1024, .f32⟩
  | .hbm, ⟨5, _⟩ => ⟨S1024x16000, .f32⟩
  | .hbm, ⟨6, _⟩ => ⟨S1024x256, .f32⟩
  | .hbm, ⟨7, _⟩ => ⟨S256x30000, .f32⟩
  | .hbm, ⟨8, _⟩ => ⟨S4096x1024, .bf16⟩
  | .hbm, ⟨9, _⟩ => ⟨S4096x1, .i32⟩
  | .hbm, ⟨10, _⟩ => ⟨S1024x1024, .bf16⟩
  | .hbm, ⟨11, _⟩ => ⟨S1024x16000, .bf16⟩
  | .hbm, ⟨12, _⟩ => ⟨S_, .i32⟩
  | .hbm, ⟨13, _⟩ => ⟨S_, .bf16⟩
  | .hbm, ⟨14, _⟩ => ⟨S1024x16384, .bf16⟩
  | .hbm, ⟨15, _⟩ => ⟨S4096x1, .f32⟩
  | .hbm, ⟨16, _⟩ => ⟨S1024x256, .bf16⟩
  | .hbm, ⟨17, _⟩ => ⟨S256x30000, .bf16⟩
  | .hbm, ⟨18, _⟩ => ⟨S_, .i32⟩
  | .hbm, ⟨19, _⟩ => ⟨S_, .bf16⟩
  | .hbm, ⟨20, _⟩ => ⟨S256x30720, .bf16⟩
  | .hbm, ⟨21, _⟩ => ⟨S4096x1, .f32⟩
  | .hbm, ⟨22, _⟩ => ⟨S1024x4002, .bf16⟩
  | .hbm, ⟨23, _⟩ => ⟨S_, .i32⟩
  | .hbm, ⟨24, _⟩ => ⟨S_, .bf16⟩
  | .hbm, ⟨25, _⟩ => ⟨S1024x4096, .bf16⟩
  | .hbm, ⟨26, _⟩ => ⟨S_, .i32⟩
  | .hbm, ⟨27, _⟩ => ⟨S_, .f32⟩
  | .hbm, ⟨28, _⟩ => ⟨S4096, .f32⟩
  | .hbm, ⟨29, _⟩ => ⟨S1x4096, .f32⟩
  | .hbm, ⟨30, _⟩ => ⟨S4096x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S2048x1, .i32⟩
  | .local _ .vmem, ⟨6, _⟩ => ⟨S2048x1, .i32⟩
  | .local _ .vmem, ⟨7, _⟩ => ⟨S2048x1, .f32⟩
  | .local _ .vmem, ⟨8, _⟩ => ⟨S2048x1, .f32⟩
  | .local _ .vmem, ⟨9, _⟩ => ⟨S2048x1024, .bf16⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1024, .bf16⟩
  | .local _ .vmem, ⟨14, _⟩ => ⟨S2048x1024, .bf16⟩
  | .local _ .vmem, ⟨15, _⟩ => ⟨S1024x256, .bf16⟩
  | .local _ .vmem, ⟨16, _⟩ => ⟨S256x768, .bf16⟩
  | .local _ .vmem, ⟨17, _⟩ => ⟨S256x768, .bf16⟩
  | .local _ .vmem, ⟨18, _⟩ => ⟨S2048x1, .i32⟩
  | .local _ .vmem, ⟨19, _⟩ => ⟨S2048x1, .i32⟩
  | .local _ .vmem, ⟨20, _⟩ => ⟨S2048x1, .f32⟩
  | .local _ .vmem, ⟨21, _⟩ => ⟨S2048x1, .f32⟩
  | .local _ .vmem, ⟨22, _⟩ => ⟨S2048x256, .bf16⟩
  | .local _ .vmem, ⟨23, _⟩ => ⟨S2048x1, .f32⟩
  | .local _ .vmem, ⟨24, _⟩ => ⟨S2048x1, .f32⟩
  | .local _ .vmem, ⟨25, _⟩ => ⟨S2048x1, .f32⟩
  | .local _ .vmem, ⟨26, _⟩ => ⟨S256x1024, .bf16⟩
  | .local _ .vmem, ⟨27, _⟩ => ⟨S256x1024, .bf16⟩
  | .local _ .vmem, ⟨28, _⟩ => ⟨S1024x4096, .bf16⟩
  | .local _ .vmem, ⟨29, _⟩ => ⟨S1x4096, .f32⟩
  | .local _ .vmem, ⟨30, _⟩ => ⟨S256x1, .i32⟩
  | .local _ .vmem, ⟨31, _⟩ => ⟨S256x1, .i32⟩
  | .local _ .vmem, ⟨32, _⟩ => ⟨S256x1, .f32⟩
  | .local _ .vmem, ⟨33, _⟩ => ⟨S256x1, .f32⟩
  | .local _ .vmem, ⟨34, _⟩ => ⟨S256x1, .f32⟩
  | .local _ .vmem, ⟨35, _⟩ => ⟨S256x1, .f32⟩
  | .local _ .vmem, ⟨36, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call2_v0 : Ref sig .tc := ⟨.hbm, 24, rfl⟩
abbrev main_v11 : Ref sig .tc := ⟨.hbm, 25, rfl⟩
abbrev main_c_2 : Ref sig .tc := ⟨.hbm, 26, rfl⟩
abbrev main_call3_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_scratch0 : Ref sig .tc := ⟨.vmem, 34, rfl⟩
abbrev cc2_scratch1 : Ref sig .tc := ⟨.vmem, 35, rfl⟩
abbrev cc2_scratch2 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v52 : BitVec 1 := Scalar.cmpi .eq arg1 c31_i32
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 40], ![false, false]⟩

def k1_cond2 (i : grid1.Coords) : BitVec 1 :=
  let arg1 : BitVec 32 := BitVec.ofNat 32 (i 1).val
  let c39_i32 : BitVec 32 := 39#32
  let v52 : BitVec 1 := Scalar.cmpi .eq arg1 c39_i32
  let v53 : BitVec 32 := Scalar.extui v52
  let c0_i32_25 : BitVec 32 := 0#32
  let v54 : BitVec 1 := Scalar.cmpi .ne v53 c0_i32_25
  v54

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![16, 1], ![false, false]⟩

def k2_cond2 (i : grid2.Coords) : BitVec 1 :=
  let arg1 : BitVec 32 := BitVec.ofNat 32 (i 1).val
  let c0_i32_28 : BitVec 32 := 0#32
  let v63 : BitVec 1 := Scalar.cmpi .eq arg1 c0_i32_28
  let v64 : BitVec 32 := Scalar.extui v63
  let c0_i32_29 : BitVec 32 := 0#32
  let v65 : BitVec 1 := Scalar.cmpi .ne v64 c0_i32_29
  v65

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S256x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  bitsLt_bf16_f32 : FTy.bits .bf16 < FTy.bits .f32
  shapeCasts_S4096_S4096x1 : S4096.ShapeCasts S4096x1
  pads_S1024x16000_S1024x16384_000_03840 : S1024x16000.Pads (![0, 0] : Fin 2 → Nat) ![0, 384] ![0, 0] S1024x16384
  h_S_ : 0 < S_.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S2048x1024_S2048x1024_0_0 : (Rect.unit (s := S2048x1024) ![0, 0] S2048x1024.size inb_S2048x1024_S2048x1024_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S2048x512_d1_w32 : S2048x512.Iotas .tc 32 [1]
  broadcasts_S2048x1_S2048x512 : S2048x1.Broadcasts S2048x512
  reduces_S2048x512_S2048 : S2048x512.Reduces [1] S2048
  shapeCasts_S2048_S2048x1 : S2048.ShapeCasts S2048x1
  pads_S256x30000_S256x30720_000_07200 : S256x30000.Pads (![0, 0] : Fin 2 → Nat) ![0, 720] ![0, 0] S256x30720
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S256x768_S256x768_0_0 : ∀ a, (![0, 0] : Fin 2 → Nat) a + S256x768.size a ≤ S256x768.size a
  h_S256x768 : 0 < S256x768.numel
  shapeCasts_S256x768_S256x768 : S256x768.ShapeCasts S256x768
  iota_S2048x768_d1_w32 : S2048x768.Iotas .tc 32 [1]
  broadcasts_S2048x1_S2048x768 : S2048x1.Broadcasts S2048x768
  reduces_S2048x768_S2048 : S2048x768.Reduces [1] S2048
  pads_S1024x4002_S1024x4096_000_0940 : S1024x4002.Pads (![0, 0] : Fin 2 → Nat) ![0, 94] ![0, 0] S1024x4096
  pads_S4002_S4096_0940 : S4002.Pads (![0] : Fin 1 → Nat) ![94] ![0] S4096
  shapeCasts_S4096_S1x4096 : S4096.ShapeCasts S1x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  iota_S256x4096_d1_w32 : S256x4096.Iotas .tc 32 [1]
  broadcasts_S256x1_S256x4096 : S256x1.Broadcasts S256x4096
  reduces_S256x4096_S256 : S256x4096.Reduces [1] S256
  shapeCasts_S256_S256x1 : S256.ShapeCasts S256x1
  reducesTo_S4096x1_S_d0_1 : S4096x1.ReducesTo [0, 1] S_
  dot_S2048x1024_S1024x1024_S2048x1024_1_0_0_1_n_n_wf : DotDims.WF S2048x1024 S1024x1024 S2048x1024 [1] [0] [0] [1] [] []
  dot_S2048x1024_S1024x512_S2048x512_1_0_0_1_n_n_wf : DotDims.WF S2048x1024 S1024x512 S2048x512 [1] [0] [0] [1] [] []
  dot_S2048x1024_S1024x256_S2048x256_1_0_0_1_n_n_wf : DotDims.WF S2048x1024 S1024x256 S2048x256 [1] [0] [0] [1] [] []
  dot_S2048x256_S256x768_S2048x768_1_0_0_1_n_n_wf : DotDims.WF S2048x256 S256x768 S2048x768 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x16384.size a
  hwx0_2 : ∀ i : grid0.Coords, EltTy.bits .bf16 = 32 ∨ (Rect.block (s := S1024x16384) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .i32 = 32 ∨ (Rect.block (s := S4096x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x1024.size a
  hwx1_0 : ∀ i : grid1.Coords, EltTy.bits .bf16 = 32 ∨ (Rect.block (s := S4096x1024) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .bf16 = 32 ∨ (Rect.block (s := S1024x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S256x30720.size a
  hwx1_2 : ∀ i : grid1.Coords, EltTy.bits .bf16 = 32 ∨ (Rect.block (s := S256x30720) S256x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S4096x1.size a
  hwx1_3 : ∀ i : grid1.Coords, EltTy.bits .i32 = 32 ∨ (Rect.block (s := S4096x1) S2048x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S4096x1.size a
  hwx1_4 : ∀ i : grid1.Coords, EltTy.bits .f32 = 32 ∨ (Rect.block (s := S4096x1) S2048x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .bf16 = 32 ∨ (Rect.block (s := S4096x1024) S256x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S1024x4096.size a
  hwx2_1 : ∀ i : grid2.Coords, EltTy.bits .bf16 = 32 ∨ (Rect.block (s := S1024x4096) S1024x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S4096x1.size a
  hwx2_3 : ∀ i : grid2.Coords, EltTy.bits .i32 = 32 ∨ (Rect.block (s := S4096x1) S256x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S4096x1.size a
  hwx2_4 : ∀ i : grid2.Coords, EltTy.bits .f32 = 32 ∨ (Rect.block (s := S4096x1) S256x1.size (cc2_transform_4 i) (hinb2_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S256x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S2048x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S256x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14) S256x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S1024x4002 : Shape := ⟨2, ![1024, 4002]⟩
abbrev S4002 : Shape := ⟨1, ![4002]⟩
abbrev S1024x1024 : Shape := ⟨2, ![1024, 1024]⟩
abbrev S1024x16000 : Shape := ⟨2, ![1024, 16000]⟩
abbrev S1024x256 : Shape := ⟨2, ![1024, 256]⟩
abbrev S256x30000 : Shape := ⟨2, ![256, 30000]⟩
abbrev S_ : Shape := ⟨0, ![]⟩
abbrev S4096x16000 : Shape := ⟨2, ![4096, 16000]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x256 : Shape := ⟨2, ![4096, 256]⟩
abbrev S4096x30000 : Shape := ⟨2, ![4096, 30000]⟩
abbrev S4096x4002 : Shape := ⟨2, ![4096, 4002]⟩
abbrev S1x4002 : Shape := ⟨2, ![1, 4002]⟩

abbrev nBuf : Space → Nat
  | .hbm => 200
  | .vmem => 0
  | .smem => 0
  | _ => 0

abbrev hbmTy0_0 (i : Nat) : BufTy := match i % 128 with
  | 0 => ⟨S4096x1024, .f32⟩
  | 1 => ⟨S4096, .i32⟩
  | 2 => ⟨S1024x4002, .f32⟩
  | 3 => ⟨S4002, .f32⟩
  | 4 => ⟨S1024x1024, .f32⟩
  | 5 => ⟨S1024x16000, .f32⟩
  | 6 => ⟨S1024x256, .f32⟩
  | 7 => ⟨S256x30000, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i1⟩
  | 14 => ⟨S4096, .i1⟩
  | 15 => ⟨S_, .i32⟩
  | 16 => ⟨S_, .i32⟩
  | 17 => ⟨S4096, .i32⟩
  | 18 => ⟨S4096, .i32⟩
  | 19 => ⟨S4096x1024, .f32⟩
  | 20 => ⟨S4096x16000, .f32⟩
  | 21 => ⟨S_, .f32⟩
  | 22 => ⟨S4096, .f32⟩
  | 23 => ⟨S_, .f32⟩
  | 24 => ⟨S4096, .f32⟩
  | 25 => ⟨S4096, .f32⟩
  | 26 => ⟨S4096x1, .f32⟩
  | 27 => ⟨S4096x16000, .f32⟩
  | 28 => ⟨S4096x16000, .f32⟩
  | 29 => ⟨S4096x16000, .f32⟩
  | 30 => ⟨S_, .f32⟩
  | 31 => ⟨S4096, .f32⟩
  | 32 => ⟨S4096x1, .f32⟩
  | 33 => ⟨S4096x1, .f32⟩
  | 34 => ⟨S4096x16000, .f32⟩
  | 35 => ⟨S4096x16000, .f32⟩
  | 36 => ⟨S_, .i32⟩
  | 37 => ⟨S4096, .i32⟩
  | 38 => ⟨S4096, .i32⟩
  | 39 => ⟨S_, .i32⟩
  | 40 => ⟨S_, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096x1, .i32⟩
  | 48 => ⟨S_, .i32⟩
  | 49 => ⟨S4096x1, .i32⟩
  | 50 => ⟨S4096x1, .i1⟩
  | 51 => ⟨S_, .i32⟩
  | 52 => ⟨S4096x1, .i32⟩
  | 53 => ⟨S4096x1, .i32⟩
  | 54 => ⟨S4096x1, .i32⟩
  | 55 => ⟨S4096x1x1, .i32⟩
  | 56 => ⟨S1, .i32⟩
  | 57 => ⟨S_, .i32⟩
  | 58 => ⟨S4096x1x1, .i32⟩
  | 59 => ⟨S4096x1x1, .i1⟩
  | 60 => ⟨S1x1x1, .i32⟩
  | 61 => ⟨S4096x1x1, .i32⟩
  | 62 => ⟨S4096x1x1, .i1⟩
  | 63 => ⟨S4096x1x1, .i1⟩
  | 64 => ⟨S_, .i1⟩
  | 65 => ⟨S4096x1, .i1⟩
  | 66 => ⟨S4096x1, .f32⟩
  | 67 => ⟨S_, .f32⟩
  | 68 => ⟨S4096x1, .f32⟩
  | 69 => ⟨S4096x1, .f32⟩
  | 70 => ⟨S4096, .f32⟩
  | 71 => ⟨S4096, .f32⟩
  | 72 => ⟨S_, .f32⟩
  | 73 => ⟨S_, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .i32⟩
  | 81 => ⟨S4096, .i32⟩
  | 82 => ⟨S4096, .i1⟩
  | 83 => ⟨S_, .i32⟩
  | 84 => ⟨S4096, .i32⟩
  | 85 => ⟨S4096, .i1⟩
  | 86 => ⟨S4096, .i1⟩
  | 87 => ⟨S_, .i32⟩
  | 88 => ⟨S_, .i32⟩
  | 89 => ⟨S4096, .i32⟩
  | 90 => ⟨S4096, .i32⟩
  | 91 => ⟨S4096x256, .f32⟩
  | 92 => ⟨S4096x30000, .f32⟩
  | 93 => ⟨S_, .f32⟩
  | 94 => ⟨S4096, .f32⟩
  | 95 => ⟨S_, .f32⟩
  | 96 => ⟨S4096, .f32⟩
  | 97 => ⟨S4096, .f32⟩
  | 98 => ⟨S4096x1, .f32⟩
  | 99 => ⟨S4096x30000, .f32⟩
  | 100 => ⟨S4096x30000, .f32⟩
  | 101 => ⟨S4096x30000, .f32⟩
  | 102 => ⟨S_, .f32⟩
  | 103 => ⟨S4096, .f32⟩
  | 104 => ⟨S4096x1, .f32⟩
  | 105 => ⟨S4096x1, .f32⟩
  | 106 => ⟨S4096x30000, .f32⟩
  | 107 => ⟨S4096x30000, .f32⟩
  | 108 => ⟨S_, .i32⟩
  | 109 => ⟨S4096, .i32⟩
  | 110 => ⟨S4096, .i32⟩
  | 111 => ⟨S_, .i32⟩
  | 112 => ⟨S_, .i32⟩
  | 113 => ⟨S_, .i32⟩
  | 114 => ⟨S4096, .i32⟩
  | 115 => ⟨S4096, .i32⟩
  | 116 => ⟨S_, .i32⟩
  | 117 => ⟨S4096, .i32⟩
  | 118 => ⟨S4096, .i32⟩
  | 119 => ⟨S4096x1, .i32⟩
  | 120 => ⟨S_, .i32⟩
  | 121 => ⟨S4096x1, .i32⟩
  | 122 => ⟨S4096x1, .i1⟩
  | 123 => ⟨S_, .i32⟩
  | 124 => ⟨S4096x1, .i32⟩
  | 125 => ⟨S4096x1, .i32⟩
  | 126 => ⟨S4096x1, .i32⟩
  | 127 => ⟨S4096x1x1, .i32⟩
  | _ => ⟨S4096x1024, .f32⟩

abbrev hbmTy0_1 (i : Nat) : BufTy := match i % 128 with
  | 0 => ⟨S1, .i32⟩
  | 1 => ⟨S_, .i32⟩
  | 2 => ⟨S4096x1x1, .i32⟩
  | 3 => ⟨S4096x1x1, .i1⟩
  | 4 => ⟨S1x1x1, .i32⟩
  | 5 => ⟨S4096x1x1, .i32⟩
  | 6 => ⟨S4096x1x1, .i1⟩
  | 7 => ⟨S4096x1x1, .i1⟩
  | 8 => ⟨S_, .i1⟩
  | 9 => ⟨S4096x1, .i1⟩
  | 10 => ⟨S4096x1, .f32⟩
  | 11 => ⟨S_, .f32⟩
  | 12 => ⟨S4096x1, .f32⟩
  | 13 => ⟨S4096x1, .f32⟩
  | 14 => ⟨S4096, .f32⟩
  | 15 => ⟨S4096, .f32⟩
  | 16 => ⟨S_, .f32⟩
  | 17 => ⟨S_, .f32⟩
  | 18 => ⟨S4096, .f32⟩
  | 19 => ⟨S4096, .f32⟩
  | 20 => ⟨S_, .f32⟩
  | 21 => ⟨S_, .f32⟩
  | 22 => ⟨S_, .f32⟩
  | 23 => ⟨S4096x4002, .f32⟩
  | 24 => ⟨S1x4002, .f32⟩
  | 25 => ⟨S4096x4002, .f32⟩
  | 26 => ⟨S4096x4002, .f32⟩
  | 27 => ⟨S_, .f32⟩
  | 28 => ⟨S4096, .f32⟩
  | 29 => ⟨S_, .f32⟩
  | 30 => ⟨S4096, .f32⟩
  | 31 => ⟨S4096, .f32⟩
  | 32 => ⟨S4096x1, .f32⟩
  | 33 => ⟨S4096x4002, .f32⟩
  | 34 => ⟨S4096x4002, .f32⟩
  | 35 => ⟨S4096x4002, .f32⟩
  | 36 => ⟨S_, .f32⟩
  | 37 => ⟨S4096, .f32⟩
  | 38 => ⟨S4096x1, .f32⟩
  | 39 => ⟨S4096x1, .f32⟩
  | 40 => ⟨S4096x4002, .f32⟩
  | 41 => ⟨S4096x4002, .f32⟩
  | 42 => ⟨S4096x1, .i32⟩
  | 43 => ⟨S_, .i32⟩
  | 44 => ⟨S4096x1, .i32⟩
  | 45 => ⟨S4096x1, .i1⟩
  | 46 => ⟨S_, .i32⟩
  | 47 => ⟨S4096x1, .i32⟩
  | 48 => ⟨S4096x1, .i32⟩
  | 49 => ⟨S4096x1, .i32⟩
  | 50 => ⟨S4096x1x1, .i32⟩
  | 51 => ⟨S1, .i32⟩
  | 52 => ⟨S_, .i32⟩
  | 53 => ⟨S4096x1x1, .i32⟩
  | 54 => ⟨S4096x1x1, .i1⟩
  | 55 => ⟨S1x1x1, .i32⟩
  | 56 => ⟨S4096x1x1, .i32⟩
  | 57 => ⟨S4096x1x1, .i1⟩
  | 58 => ⟨S4096x1x1, .i1⟩
  | 59 => ⟨S_, .i1⟩
  | 60 => ⟨S4096x1, .i1⟩
  | 61 => ⟨S4096x1, .f32⟩
  | 62 => ⟨S_, .f32⟩
  | 63 => ⟨S4096x1, .f32⟩
  | 64 => ⟨S4096x1, .f32⟩
  | 65 => ⟨S4096, .f32⟩
  | 66 => ⟨S4096, .f32⟩
  | 67 => ⟨S_, .f32⟩
  | 68 => ⟨S_, .f32⟩
  | 69 => ⟨S_, .f32⟩
  | 70 => ⟨S_, .f32⟩
  | 71 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call1_cst : Ref sig .tc := ⟨.hbm, 21, rfl⟩
abbrev main_call1_v0 : Ref sig .tc := ⟨.hbm, 22, rfl⟩
abbrev main_call1_cst_0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_cst_1 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v11 : Ref sig .tc := ⟨.hbm, 46, rfl⟩
abbrev main_v12 : Ref sig .tc := ⟨.hbm, 47, rfl⟩
abbrev main_call3_c : Ref sig .tc := ⟨.hbm, 48, rfl⟩
abbrev main_call3_v0 : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_c_2 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_3 : Ref sig .tc := ⟨.hbm, 64, rfl⟩
abbrev main_call3_v12 : Ref sig .tc := ⟨.hbm, 65, rfl⟩
abbrev main_call3_v13 : Ref sig .tc := ⟨.hbm, 66, rfl⟩
abbrev main_call3_cst : Ref sig .tc := ⟨.hbm, 67, rfl⟩
abbrev main_call3_v14 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_cst : Ref sig .tc := ⟨.hbm, 72, rfl⟩
abbrev main_call4_v0 : Ref sig .tc := ⟨.hbm, 73, rfl⟩
abbrev main_call4_v1 : Ref sig .tc := ⟨.hbm, 74, rfl⟩
abbrev main_v16 : Ref sig .tc := ⟨.hbm, 75, rfl⟩
abbrev main_cst_5 : Ref sig .tc := ⟨.hbm, 76, rfl⟩
abbrev main_v17 : Ref sig .tc := ⟨.hbm, 77, rfl⟩
abbrev main_cst_6 : Ref sig .tc := ⟨.hbm, 78, rfl⟩
abbrev main_v18 : Ref sig .tc := ⟨.hbm, 79, rfl⟩
abbrev main_c_7 : Ref sig .tc := ⟨.hbm, 80, rfl⟩
abbrev main_v19 : Ref sig .tc := ⟨.hbm, 81, rfl⟩
abbrev main_v20 : Ref sig .tc := ⟨.hbm, 82, rfl⟩
abbrev main_c_8 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_c_9 : Ref sig .tc := ⟨.hbm, 87, rfl⟩
abbrev main_call5_v0 : Ref sig .tc := ⟨.hbm, 88, rfl⟩
abbrev main_call5_v1 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_call6_cst : Ref sig .tc := ⟨.hbm, 93, rfl⟩
abbrev main_call6_v0 : Ref sig .tc := ⟨.hbm, 94, rfl⟩
abbrev main_call6_cst_0 : Ref sig .tc := ⟨.hbm, 95, rfl⟩
abbrev main_call6_v1 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_v5 : Ref sig .tc := ⟨.hbm, 100, rfl⟩
abbrev main_call6_v6 : Ref sig .tc := ⟨.hbm, 101, rfl⟩
abbrev main_call6_cst_1 : Ref sig .tc := ⟨.hbm, 102, rfl⟩
abbrev main_call6_v7 : Ref sig .tc := ⟨.hbm, 103, rfl⟩
abbrev main_call6_v8 : Ref sig .tc := ⟨.hbm, 104, rfl⟩
abbrev main_call6_v9 : Ref sig .tc := ⟨.hbm, 105, rfl⟩
abbrev main_call6_v10 : Ref sig .tc := ⟨.hbm, 106, rfl⟩
abbrev main_v27 : Ref sig .tc := ⟨.hbm, 107, rfl⟩
abbrev main_c_10 : Ref sig .tc := ⟨.hbm, 108, rfl⟩
abbrev main_v28 : Ref sig .tc := ⟨.hbm, 109, rfl⟩
abbrev main_v29 : Ref sig .tc := ⟨.hbm, 110, rfl⟩
abbrev main_c_11 : Ref sig .tc := ⟨.hbm, 111, rfl⟩
abbrev main_c_12 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_v30 : Ref sig .tc := ⟨.hbm, 118, rfl⟩
abbrev main_v31 : Ref sig .tc := ⟨.hbm, 119, rfl⟩
abbrev main_call8_c : Ref sig .tc := ⟨.hbm, 120, rfl⟩
abbrev main_call8_v0 : Ref sig .tc := ⟨.hbm, 121, rfl⟩
abbrev main_call8_v1 : Ref sig .tc := ⟨.hbm, 122, rfl⟩
abbrev main_call8_c_0 : Ref sig .tc := ⟨.hbm, 123, rfl⟩
abbrev main_call8_v2 : Ref sig .tc := ⟨.hbm, 124, rfl⟩
abbrev main_call8_v3 : Ref sig .tc := ⟨.hbm, 125, rfl⟩
abbrev main_call8_v4 : Ref sig .tc := ⟨.hbm, 126, rfl⟩
abbrev main_call8_v5 : Ref sig .tc := ⟨.hbm, 127, rfl⟩
abbrev main_call8_c_1 : Ref sig .tc := ⟨.hbm, 128, rfl⟩
abbrev main_call8_c_2 : Ref sig .tc := ⟨.hbm, 129, rfl⟩
abbrev main_call8_v6 : Ref sig .tc := ⟨.hbm, 130, rfl⟩
abbrev main_call8_v7 : Ref sig .tc := ⟨.hbm, 131, rfl⟩
abbrev main_call8_v8 : Ref sig .tc := ⟨.hbm, 132, rfl⟩
abbrev main_call8_v9 : Ref sig .tc := ⟨.hbm, 133, rfl⟩
abbrev main_call8_v10 : Ref sig .tc := ⟨.hbm, 134, rfl⟩
abbrev main_call8_v11 : Ref sig .tc := ⟨.hbm, 135, rfl⟩
abbrev main_call8_c_3 : Ref sig .tc := ⟨.hbm, 136, rfl⟩
abbrev main_call8_v12 : Ref sig .tc := ⟨.hbm, 137, rfl⟩
abbrev main_call8_v13 : Ref sig .tc := ⟨.hbm, 138, rfl⟩
abbrev main_call8_cst : Ref sig .tc := ⟨.hbm, 139, rfl⟩
abbrev main_call8_v14 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_cst_13 : Ref sig .tc := ⟨.hbm, 144, rfl⟩
abbrev main_call9_v0 : Ref sig .tc := ⟨.hbm, 145, rfl⟩
abbrev main_call9_v1 : Ref sig .tc := ⟨.hbm, 146, rfl⟩
abbrev main_v35 : Ref sig .tc := ⟨.hbm, 147, rfl⟩
abbrev main_cst_14 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_call10_cst : Ref sig .tc := ⟨.hbm, 155, rfl⟩
abbrev main_call10_v0 : Ref sig .tc := ⟨.hbm, 156, rfl⟩
abbrev main_call10_cst_0 : Ref sig .tc := ⟨.hbm, 157, rfl⟩
abbrev main_call10_v1 : Ref sig .tc := ⟨.hbm, 158, rfl⟩
abbrev main_call10_v2 : Ref sig .tc := ⟨.hbm, 159, rfl⟩
abbrev main_call10_v3 : Ref sig .tc := ⟨.hbm, 160, rfl⟩
abbrev main_call10_v4 : Ref sig .tc := ⟨.hbm, 161, rfl⟩
abbrev main_call10_v5 : Ref sig .tc := ⟨.hbm, 162, rfl⟩
abbrev main_call10_v6 : Ref sig .tc := ⟨.hbm, 163, rfl⟩
abbrev main_call10_cst_1 : Ref sig .tc := ⟨.hbm, 164, rfl⟩
abbrev main_call10_v7 : Ref sig .tc := ⟨.hbm, 165, rfl⟩
abbrev main_call10_v8 : Ref sig .tc := ⟨.hbm, 166, rfl⟩
abbrev main_call10_v9 : Ref sig .tc := ⟨.hbm, 167, rfl⟩
abbrev main_call10_v10 : Ref sig .tc := ⟨.hbm, 168, rfl⟩
abbrev main_v42 : Ref sig .tc := ⟨.hbm, 169, rfl⟩
abbrev main_v43 : Ref sig .tc := ⟨.hbm, 170, rfl⟩
abbrev main_call11_c : Ref sig .tc := ⟨.hbm, 171, rfl⟩
abbrev main_call11_v0 : Ref sig .tc := ⟨.hbm, 172, rfl⟩
abbrev main_call11_v1 : Ref sig .tc := ⟨.hbm, 173, rfl⟩
abbrev main_call11_c_0 : Ref sig .tc := ⟨.hbm, 174, rfl⟩
abbrev main_call11_v2 : Ref sig .tc := ⟨.hbm, 175, rfl⟩
abbrev main_call11_v3 : Ref sig .tc := ⟨.hbm, 176, rfl⟩
abbrev main_call11_v4 : Ref sig .tc := ⟨.hbm, 177, rfl⟩
abbrev main_call11_v5 : Ref sig .tc := ⟨.hbm, 178, rfl⟩
abbrev main_call11_c_1 : Ref sig .tc := ⟨.hbm, 179, rfl⟩
abbrev main_call11_c_2 : Ref sig .tc := ⟨.hbm, 180, rfl⟩
abbrev main_call11_v6 : Ref sig .tc := ⟨.hbm, 181, rfl⟩
abbrev main_call11_v7 : Ref sig .tc := ⟨.hbm, 182, rfl⟩
abbrev main_call11_v8 : Ref sig .tc := ⟨.hbm, 183, rfl⟩
abbrev main_call11_v9 : Ref sig .tc := ⟨.hbm, 184, rfl⟩
abbrev main_call11_v10 : Ref sig .tc := ⟨.hbm, 185, rfl⟩
abbrev main_call11_v11 : Ref sig .tc := ⟨.hbm, 186, rfl⟩
abbrev main_call11_c_3 : Ref sig .tc := ⟨.hbm, 187, rfl⟩
abbrev main_call11_v12 : Ref sig .tc := ⟨.hbm, 188, rfl⟩
abbrev main_call11_v13 : Ref sig .tc := ⟨.hbm, 189, rfl⟩
abbrev main_call11_cst : Ref sig .tc := ⟨.hbm, 190, rfl⟩
abbrev main_call11_v14 : Ref sig .tc := ⟨.hbm, 191, rfl⟩
abbrev main_v44 : Ref sig .tc := ⟨.hbm, 192, rfl⟩
abbrev main_v45 : Ref sig .tc := ⟨.hbm, 193, rfl⟩
abbrev main_v46 : Ref sig .tc := ⟨.hbm, 194, rfl⟩
abbrev main_cst_15 : Ref sig .tc := ⟨.hbm, 195, rfl⟩
abbrev main_v47 : Ref sig .tc := ⟨.hbm, 196, rfl⟩
abbrev main_v48 : Ref sig .tc := ⟨.hbm, 197, rfl⟩
abbrev main_cst_16 : Ref sig .tc := ⟨.hbm, 198, rfl⟩
abbrev main_v49 : Ref sig .tc := ⟨.hbm, 199, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  reducesTo_S4096x16000_S4096_d1 : S4096x16000.ReducesTo [1] S4096
  h_S_ : 0 < S_.numel
  bcast_S4096_S4096x1_0 : S4096.BroadcastsInDim S4096x1 (![0] : Fin 1 → Fin S4096x1.rank)
  bcast_S4096x1_S4096x16000_0_1 : S4096x1.BroadcastsInDim S4096x16000 (![0, 1] : Fin 2 → Fin S4096x16000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  reducesTo_S4096x30000_S4096_d1 : S4096x30000.ReducesTo [1] S4096
  bcast_S4096x1_S4096x30000_0_1 : S4096x1.BroadcastsInDim S4096x30000 (![0, 1] : Fin 2 → Fin S4096x30000.rank)
  bcast_S4002_S1x4002_1 : S4002.BroadcastsInDim S1x4002 (![1] : Fin 1 → Fin S1x4002.rank)
  bcast_S1x4002_S4096x4002_0_1 : S1x4002.BroadcastsInDim S4096x4002 (![0, 1] : Fin 2 → Fin S4096x4002.rank)
  reducesTo_S4096x4002_S4096_d1 : S4096x4002.ReducesTo [1] S4096
  bcast_S4096x1_S4096x4002_0_1 : S4096x1.BroadcastsInDim S4096x4002 (![0, 1] : Fin 2 → Fin S4096x4002.rank)
  dot_S4096x1024_S1024x1024_S4096x1024_1_0_0_1_n_n_wf : DotDims.WF S4096x1024 S1024x1024 S4096x1024 [1] [0] [0] [1] [] []
  dot_S4096x1024_S1024x16000_S4096x16000_1_0_0_1_n_n_wf : DotDims.WF S4096x1024 S1024x16000 S4096x16000 [1] [0] [0] [1] [] []
  gather_S4096x16000_S4096x1x1_S4096x1_n_1_0_0_1_2_11_wf : GatherDims.WF S4096x16000 S4096x1x1 S4096x1 [] [1] [0] [1] [0] 2 ![1, 1]
  dot_S4096x1024_S1024x256_S4096x256_1_0_0_1_n_n_wf : DotDims.WF S4096x1024 S1024x256 S4096x256 [1] [0] [0] [1] [] []
  dot_S4096x256_S256x30000_S4096x30000_1_0_0_1_n_n_wf : DotDims.WF S4096x256 S256x30000 S4096x30000 [1] [0] [0] [1] [] []
  gather_S4096x30000_S4096x1x1_S4096x1_n_1_0_0_1_2_11_wf : GatherDims.WF S4096x30000 S4096x1x1 S4096x1 [] [1] [0] [1] [0] 2 ![1, 1]
  dot_S4096x1024_S1024x4002_S4096x4002_1_0_0_1_n_n_wf : DotDims.WF S4096x1024 S1024x4002 S4096x4002 [1] [0] [0] [1] [] []
  gather_S4096x4002_S4096x1x1_S4096x1_n_1_0_0_1_2_11_wf : GatherDims.WF S4096x4002 S4096x1x1 S4096x1 [] [1] [0] [1] [0] 2 ![1, 1]

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x16000_S4096x16000_1_0_0_1_n_n : DotDims S4096x1024 S1024x16000 S4096x16000 where
  lhsContracting := [1]
  rhsContracting := [0]
  lhsNonContracting := [0]
  rhsNonContracting := [1]
  lhsBatch := []
  rhsBatch := []
  wf := dot_S4096x1024_S1024x16000_S4096x16000_1_0_0_1_n_n_wf
def gather_S4096x16000_S4096x1x1_S4096x1_n_1_0_0_1_2_11 : GatherDims S4096x16000 S4096x1x1 S4096x1 where
  offsetDims := []
  collapsedSliceDims := [1]
  operandBatchingDims := [0]
  startIndicesBatchingDims := [0]
  startIndexMap := [1]
  indexVectorDim := 2
  sliceSizes := ![1, 1]
  wf := gather_S4096x16000_S4096x1x1_S4096x1_n_1_0_0_1_2_11_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x30000_S4096x30000_1_0_0_1_n_n : DotDims S4096x256 S256x30000 S4096x30000 where
  lhsContracting := [1]
  rhsContracting := [0]
  lhsNonContracting := [0]
  rhsNonContracting := [1]
  lhsBatch := []
  rhsBatch := []
  wf := dot_S4096x256_S256x30000_S4096x30000_1_0_0_1_n_n_wf
def gather_S4096x30000_S4096x1x1_S4096x1_n_1_0_0_1_2_11 : GatherDims S4096x30000 S4096x1x1 S4096x1 where
  offsetDims := []
  collapsedSliceDims := [1]
  operandBatchingDims := [0]
  startIndicesBatchingDims := [0]
  startIndexMap := [1]
  indexVectorDim := 2
  sliceSizes := ![1, 1]
  wf := gather_S4096x30000_S4096x1x1_S4096x1_n_1_0_0_1_2_11_wf
def dot_S4096x1024_S1024x4002_S4096x4002_1_0_0_1_n_n : DotDims S4096x1024 S1024x4002 S4096x4002 where
  lhsContracting := [1]
  rhsContracting := [0]
  lhsNonContracting := [0]
  rhsNonContracting := [1]
  lhsBatch := []
  rhsBatch := []
  wf := dot_S4096x1024_S1024x4002_S4096x4002_1_0_0_1_n_n_wf
def gather_S4096x4002_S4096x1x1_S4096x1_n_1_0_0_1_2_11 : GatherDims S4096x4002 S4096x1x1 S4096x1 where
  offsetDims := []
  collapsedSliceDims := [1]
  operandBatchingDims := [0]
  startIndicesBatchingDims := [0]
  startIndexMap := [1]
  indexVectorDim := 2
  sliceSizes := ![1, 1]
  wf := gather_S4096x4002_S4096x1x1_S4096x1_n_1_0_0_1_2_11_wf

class Facts : Prop extends Facts₀ where

variable [Facts]
-- ==== Proof.KI.Step.lean ====
import proofs.«422338_j11269994185272_3_alg».proof.Proof.Gen.KernelIdeal.Skeleton
import Idealize.ShloMosaic.Lib.Pipeline.FrameBody
import Idealize.ShloMosaic.Lib.Ring

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- Pieces that tile a whole buffer and read back as `w`: the buffer's contents after the stores read as `w`. -/
theorem read_tiled {S : Shape} {e : EltTy} {κ : Kind} {sp : Space} (v : View sig κ sp S e) (f : v.ty.Contents (Elt F)) (L : List (View.Piece (Elt F) S e)) (w : Vec F S e)
    (h : View.Piece.tiledL L S.size = true) (hc : View.canon L = w) : v.read (Elt F) (v.writes (Elt F) f L) = w :=
  (View.read_writes_eq_canon _ _ _ (View.cover_of_tiledL L S.size h)).trans hc

structure St0 (F : FTy → Type) where
  h : Vec F S2048x1024 .bf16
  mx : Vec F S2048x1 .f32
  sm : Vec F S2048x1 .f32
  tl : Vec F S2048x1 .f32

def first0 (i : grid0.Coords) : Prop :=
  Scalar.cmpi .ne (Scalar.extui (Scalar.cmpi .eq (BitVec.ofNat 32 (i 1).val) 0#32)) 0#32 = 1#1

instance (i : grid0.Coords) : Decidable (first0 i) := by unfold first0; infer_instance

def reset0 (x : Vec F S2048x1024 .bf16) (w1 : Vec F S1024x1024 .bf16) : St0 F :=
  ⟨k0_pay8 x w1, k0_pay5, k0_pay6, k0_pay7⟩

/-- One column tile's update of the kept values: at a first tile from the reset values, else from the state given. -/
def step0 (i : grid0.Coords) (x : Vec F S2048x1024 .bf16) (w1 : Vec F S1024x1024 .bf16) (w2 : Vec F S1024x512 .bf16)
    (tg : Vec F S2048x1 .i32) (s : St0 F) : St0 F :=
  let s1 : St0 F := if first0 i then reset0 x w1 else s
  ⟨s1.h, k0_pay3 s1.mx (k0_pay14 i s1.h w2), k0_pay2 (k0_pay11 i s1.h w2) s1.mx (k0_pay14 i s1.h w2) s1.mx s1.sm,
    k0_pay13 i s1.h w2 tg s1.tl⟩

/-- The row's negative log-likelihood formed from the kept values at a last tile. -/
def out0 (tg : Vec F S2048x1 .i32) (s : St0 F) : Vec F S2048x1 .f32 := k0_pay4 (k0_pay12 tg) s.mx s.sm s.tl

theorem first0_iff (i : grid0.Coords) : first0 i ↔ (i 1).val = 0 := by
  unfold first0
  have h : ∀ j : Fin 32, (Scalar.cmpi .ne (Scalar.extui (Scalar.cmpi .eq (BitVec.ofNat 32 j.val) 0#32)) 0#32 = 1#1) ↔ j.val = 0 := by decide
  exact h (i 1)

theorem step0_first (i : grid0.Coords) (hi : first0 i) (x : Vec F S2048x1024 .bf16) (w1 : Vec F S1024x1024 .bf16)
    (w2 : Vec F S1024x512 .bf16) (tg : Vec F S2048x1 .i32) (s s' : St0 F) :
    step0 i x w1 w2 tg s = step0 i x w1 w2 tg s' := by
  unfold step0; simp only [if_pos hi]

structure St1 (F : FTy → Type) where
  h : Vec F S2048x256 .bf16
  mx : Vec F S2048x1 .f32
  sm : Vec F S2048x1 .f32
  tl : Vec F S2048x1 .f32

def first1 (i : grid1.Coords) : Prop :=
  Scalar.cmpi .ne (Scalar.extui (Scalar.cmpi .eq (BitVec.ofNat 32 (i 1).val) 0#32)) 0#32 = 1#1

instance (i : grid1.Coords) : Decidable (first1 i) := by unfold first1; infer_instance

def reset1 (x : Vec F S2048x1024 .bf16) (w1 : Vec F S1024x256 .bf16) : St1 F :=
  ⟨k1_pay8 x w1, k1_pay5, k1_pay6, k1_pay7⟩

def step1 (i : grid1.Coords) (x : Vec F S2048x1024 .bf16) (w1 : Vec F S1024x256 .bf16) (w2 : Vec F S256x768 .bf16)
    (tg : Vec F S2048x1 .i32) (s : St1 F) : St1 F :=
  let s1 : St1 F := if first1 i then reset1 x w1 else s
  ⟨s1.h, k1_pay3 s1.mx (k1_pay14 i s1.h w2), k1_pay2 (k1_pay11 i s1.h w2) s1.mx (k1_pay14 i s1.h w2) s1.mx s1.sm,
    k1_pay13 i s1.h w2 tg s1.tl⟩

def out1 (tg : Vec F S2048x1 .i32) (s : St1 F) : Vec F S2048x1 .f32 := k1_pay4 (k1_pay12 tg) s.mx s.sm s.tl

theorem first1_iff (i : grid1.Coords) : first1 i ↔ (i 1).val = 0 := by
  unfold first1
  have h : ∀ j : Fin 40, (Scalar.cmpi .ne (Scalar.extui (Scalar.cmpi .eq (BitVec.ofNat 32 j.val) 0#32)) 0#32 = 1#1) ↔ j.val = 0 := by decide
  exact h (i 1)

theorem step1_first (i : grid1.Coords) (hi : first1 i) (x : Vec F S2048x1024 .bf16) (w1 : Vec F S1024x256 .bf16)
    (w2 : Vec F S256x768 .bf16) (tg : Vec F S2048x1 .i32) (s s' : St1 F) :
    step1 i x w1 w2 tg s = step1 i x w1 w2 tg s' := by
  unfold step1; simp only [if_pos hi]

structure St2 (F : FTy → Type) where
  mx : Vec F S256x1 .f32
  sm : Vec F S256x1 .f32
  tl : Vec F S256x1 .f32

def first2 (i : grid2.Coords) : Prop :=
  Scalar.cmpi .ne (Scalar.extui (Scalar.cmpi .eq (BitVec.ofNat 32 (i 1).val) 0#32)) 0#32 = 1#1

instance (i : grid2.Coords) : Decidable (first2 i) := by unfold first2; infer_instance

def reset2 : St2 F := ⟨k2_pay6, k2_pay7, k2_pay8⟩

def step2 (i : grid2.Coords) (x : Vec F S256x1024 .bf16) (w : Vec F S1024x4096 .bf16) (b : Vec F S1x4096 .f32)
    (tg : Vec F S256x1 .i32) (s : St2 F) : St2 F :=
  let s1 : St2 F := if first2 i then reset2 else s
  ⟨k2_pay4 (k2_pay11 i x w b) s1.mx, k2_pay3 (k2_pay11 i x w b) s1.mx s1.mx s1.sm, k2_pay1 s1.tl (k2_pay12 i x w b tg)⟩

def out2 (s : St2 F) : Vec F S256x1 .f32 := k2_pay5 s.mx s.sm s.tl

theorem first2_all (i : grid2.Coords) : first2 i := by
  unfold first2
  have h : ∀ j : Fin 1, (Scalar.cmpi .ne (Scalar.extui (Scalar.cmpi .eq (BitVec.ofNat 32 j.val) 0#32)) 0#32 = 1#1) := by decide
  exact h (i 1)

theorem last2_all (i : grid2.Coords) : k2_cond2 i = 1#1 := by
  unfold k2_cond2
  have h : ∀ j : Fin 1, (Scalar.cmpi .ne (Scalar.extui (Scalar.cmpi .eq (BitVec.ofNat 32 j.val) 0#32)) 0#32 = 1#1) := by decide
  exact h (i 1)

theorem step2_first (i : grid2.Coords) (x : Vec F S256x1024 .bf16) (w : Vec F S1024x4096 .bf16) (b : Vec F S1x4096 .f32)
    (tg : Vec F S256x1 .i32) (s s' : St2 F) :
    step2 i x w b tg s = step2 i x w b tg s' := by
  unfold step2; simp only [if_pos (first2_all i)]

end Cert.KernelIdeal.Gen

end
-- ==== Proof.KI.R0Body.lean ====
import proofs.«422338_j11269994185272_3_alg».proof.Proof.Gen.KernelIdeal.Launch
import proofs.«422338_j11269994185272_3_alg».proof.Proof.Gen.KernelIdeal.Skeleton
import proofs.«422338_j11269994185272_3_alg».proof.Proof.Gen.KernelIdeal.Points
import proofs.«422338_j11269994185272_3_alg».proof.Proof.KI.Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
local notation "ShX" => S2048x1024
local notation "ShH" => S2048x1024
local notation "ShP" => S1024x1024
local notation "ShW" => S1024x512

theorem hz0 : (![0, 0] : Fin 2 → Nat) = fun _ => 0 := funext fun a => by fin_cases a <;> rfl

/-- At a first column tile the update starts from the reset values, whatever the state it is given. -/
theorem step0_f (i : grid0.Coords) (hi : first0 i) (x : Vec F ShX .bf16) (w1 : Vec F ShP .bf16) (w2 : Vec F ShW .bf16) (tg : Vec F S2048x1 .i32) (s : St0 F) :
    step0 i x w1 w2 tg s = ⟨k0_pay8 x w1, k0_pay3 k0_pay5 (k0_pay14 i (k0_pay8 x w1) w2), k0_pay2 (k0_pay11 i (k0_pay8 x w1) w2) k0_pay5 (k0_pay14 i (k0_pay8 x w1) w2) k0_pay5 k0_pay6, k0_pay13 i (k0_pay8 x w1) w2 tg k0_pay7⟩ := by
  unfold step0 reset0; simp only [if_pos hi]

/-- At any other column tile it updates the state it is given. -/
theorem step0_nf (i : grid0.Coords) (hi : ¬first0 i) (x : Vec F ShX .bf16) (w1 : Vec F ShP .bf16) (w2 : Vec F ShW .bf16) (tg : Vec F S2048x1 .i32) (s : St0 F) :
    step0 i x w1 w2 tg s = ⟨s.h, k0_pay3 s.mx (k0_pay14 i s.h w2), k0_pay2 (k0_pay11 i s.h w2) s.mx (k0_pay14 i s.h w2) s.mx s.sm, k0_pay13 i s.h w2 tg s.tl⟩ := by
  unfold step0; simp only [if_neg hi]

variable (c : Dev nD) (i : grid0.Coords) (arg2 : Memref sig .tc .vmem ShX .bf16) (harg2 : arg2.IsWhole) (arg3 : Memref sig .tc .vmem ShP .bf16) (harg3 : arg3.IsWhole) (arg4 : Memref sig .tc .vmem ShW .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem ShH .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole)

set_option maxHeartbeats 2000000 in
/-- The body at a first column tile: every kept buffer, found at anything, is stored whole and left at the updated state's value. -/
theorem body0_A (hc0 : first0 i) (hc1 : ¬k0_cond2 i = 1#1) (x0 : Vec F ShX .bf16) (x1 : Vec F ShP .bf16) (x2 : Vec F ShW .bf16) (x3 : Vec F S2048x1 .i32) (s : St0 F) (xi4 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (step0 i x0 x1 x2 x3 s).h ∗ owns (c : Thread nD τ) arg8 fullShare (step0 i x0 x1 x2 x3 s).mx ∗ owns (c : Thread nD τ) arg9 fullShare (step0 i x0 x1 x2 x3 s).sm ∗ owns (c : Thread nD τ) arg10 fullShare (step0 i x0 x1 x2 x3 s).tl) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  rw [step0_f i hc0]; dsimp only
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  iexists _; isplitr; swap; iexact HS0; ipureintro; refine read_tiled _ _ _ _ (by sl_kernel_rfl) ?_; rotate_left
  isplitl [HS1]
  iexists _; isplitr; swap; iexact HS1; ipureintro; refine read_tiled _ _ _ _ (by sl_kernel_rfl) ?_; rotate_left
  isplitl [HS2]
  iexists _; isplitr; swap; iexact HS2; ipureintro; refine read_tiled _ _ _ _ (by sl_kernel_rfl) ?_; rotate_left
  iexists _; isplitr; swap; iexact HS3; ipureintro; refine read_tiled _ _ _ _ (by sl_kernel_rfl) ?_
  all_goals sl_unfold_words
  all_goals simp only [View.canon_cons_unit_zero (S := S2048x1) hz0, View.canon_cons_unit_zero (S := ShH) hz0, View.readAt_eq_ld, harg2.read_unread, harg3.read_unread, harg4.read_unread, harg5.read_unread, harg7.read_unread, harg8.read_unread, harg9.read_unread, harg10.read_unread,
    View.ld_unit_zero (S := S2048x1) hz0, View.ld_unit_zero (S := ShX) hz0, View.ld_unit_zero (S := ShH) hz0, View.ld_unit_zero (S := ShP) hz0, View.ld_unit_zero (S := ShW) hz0,
    View.readCov_unit_zero (S := S2048x1) _ hz0, View.readCov_unit_zero (S := ShH) _ hz0]

set_option maxHeartbeats 2000000 in
/-- The body at a middle column tile: the projected rows are only read, the three kept columns go from a state to its update. -/
theorem body0_B (hc0 : ¬first0 i) (hc1 : ¬k0_cond2 i = 1#1) (x0 : Vec F ShX .bf16) (x1 : Vec F ShP .bf16) (x2 : Vec F ShW .bf16) (x3 : Vec F S2048x1 .i32) (s : St0 F) (xi4 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare s.h ∗ owns (c : Thread nD τ) arg8 fullShare s.mx ∗ owns (c : Thread nD τ) arg9 fullShare s.sm ∗ owns (c : Thread nD τ) arg10 fullShare s.tl
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (step0 i x0 x1 x2 x3 s).h ∗ owns (c : Thread nD τ) arg8 fullShare (step0 i x0 x1 x2 x3 s).mx ∗ owns (c : Thread nD τ) arg9 fullShare (step0 i x0 x1 x2 x3 s).sm ∗ owns (c : Thread nD τ) arg10 fullShare (step0 i x0 x1 x2 x3 s).tl) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  rw [step0_nf i hc0]; dsimp only
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hfs0; obtain rfl := harg8.eq_unread hfs1; obtain rfl := harg9.eq_unread hfs2; obtain rfl := harg10.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; · ipureintro; exact harg7.read_unread _
    iexact HS0
  isplitl [HS1]
  iexists _; isplitr; swap; iexact HS1; ipureintro; refine read_tiled _ _ _ _ (by sl_kernel_rfl) ?_; rotate_left
  isplitl [HS2]
  iexists _; isplitr; swap; iexact HS2; ipureintro; refine read_tiled _ _ _ _ (by sl_kernel_rfl) ?_; rotate_left
  iexists _; isplitr; swap; iexact HS3; ipureintro; refine read_tiled _ _ _ _ (by sl_kernel_rfl) ?_
  all_goals sl_unfold_words
  all_goals simp only [View.canon_cons_unit_zero (S := S2048x1) hz0, View.canon_cons_unit_zero (S := ShH) hz0, View.readAt_eq_ld, harg2.read_unread, harg3.read_unread, harg4.read_unread, harg5.read_unread, harg7.read_unread, harg8.read_unread, harg9.read_unread, harg10.read_unread,
    View.ld_unit_zero (S := S2048x1) hz0, View.ld_unit_zero (S := ShX) hz0, View.ld_unit_zero (S := ShH) hz0, View.ld_unit_zero (S := ShP) hz0, View.ld_unit_zero (S := ShW) hz0,
    View.readCov_unit_zero (S := S2048x1) _ hz0, View.readCov_unit_zero (S := ShH) _ hz0]

set_option maxHeartbeats 2000000 in
/-- The body at a last column tile: as at a middle one, and the output's buffer, found at anything, is left at the updated state's output value. -/
theorem body0_C (hc0 : ¬first0 i) (hc1 : k0_cond2 i = 1#1) (x0 : Vec F ShX .bf16) (x1 : Vec F ShP .bf16) (x2 : Vec F ShW .bf16) (x3 : Vec F S2048x1 .i32) (s : St0 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s.h ∗ owns (c : Thread nD τ) arg8 fullShare s.mx ∗ owns (c : Thread nD τ) arg9 fullShare s.sm ∗ owns (c : Thread nD τ) arg10 fullShare s.tl
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0 x3 (step0 i x0 x1 x2 x3 s)) ∗ owns (c : Thread nD τ) arg7 fullShare (step0 i x0 x1 x2 x3 s).h ∗ owns (c : Thread nD τ) arg8 fullShare (step0 i x0 x1 x2 x3 s).mx ∗ owns (c : Thread nD τ) arg9 fullShare (step0 i x0 x1 x2 x3 s).sm ∗ owns (c : Thread nD τ) arg10 fullShare (step0 i x0 x1 x2 x3 s).tl) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  unfold out0; rw [step0_nf i hc0]; dsimp only
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2; obtain rfl := harg10.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  iexists _; isplitr; swap; iexact H4; ipureintro; refine read_tiled _ _ _ _ (by sl_kernel_rfl) ?_; rotate_left
  isplitl [HS0]
  · iexists _; isplitr; · ipureintro; exact harg7.read_unread _
    iexact HS0
  isplitl [HS1]
  iexists _; isplitr; swap; iexact HS1; ipureintro; refine read_tiled _ _ _ _ (by sl_kernel_rfl) ?_; rotate_left
  isplitl [HS2]
  iexists _; isplitr; swap; iexact HS2; ipureintro; refine read_tiled _ _ _ _ (by sl_kernel_rfl) ?_; rotate_left
  iexists _; isplitr; swap; iexact HS3; ipureintro; refine read_tiled _ _ _ _ (by sl_kernel_rfl) ?_
  all_goals sl_unfold_words
  all_goals simp only [View.canon_cons_unit_zero (S := S2048x1) hz0, View.canon_cons_unit_zero (S := ShH) hz0, View.readAt_eq_ld, harg2.read_unread, harg3.read_unread, harg4.read_unread, harg5.read_unread, harg7.read_unread, harg8.read_unread, harg9.read_unread, harg10.read_unread,
    View.ld_unit_zero (S := S2048x1) hz0, View.ld_unit_zero (S := ShX) hz0, View.ld_unit_zero (S := ShH) hz0, View.ld_unit_zero (S := ShP) hz0, View.ld_unit_zero (S := ShW) hz0,
    View.readCov_unit_zero (S := S2048x1) _ hz0, View.readCov_unit_zero (S := ShH) _ hz0]

end Cert.KernelIdeal.Gen

end
-- ==== Proof.KI.R0Frame.lean ====
import proofs.«422338_j11269994185272_3_alg».proof.Proof.Gen.KernelIdeal.Launch
import proofs.«422338_j11269994185272_3_alg».proof.Proof.Gen.KernelIdeal.Skeleton
import proofs.«422338_j11269994185272_3_alg».proof.Proof.Gen.KernelIdeal.Points
import proofs.«422338_j11269994185272_3_alg».proof.Proof.KI.Step
import proofs.«422338_j11269994185272_3_alg».proof.Proof.KI.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S2048x1024 .bf16 := iblk0 V c 0 t
abbrev pb0 (c : Dev nD) (t : Fin cfg0.N) : Vec F S1024x1024 .bf16 := iblk0 V c 1 t
abbrev wb0 (c : Dev nD) (t : Fin cfg0.N) : Vec F S1024x512 .bf16 := iblk0 V c 2 t
abbrev tb0 (c : Dev nD) (t : Fin cfg0.N) : Vec F S2048x1 .i32 := iblk0 V c 3 t

/-- The kept values after the point at position `n`: the update of what the point before left. -/
def stAt0 (c : Dev nD) : (n : ℕ) → n < cfg0.N → St0 F
  | 0, hn => step0 (grid0.coords ⟨0, hn⟩) (xb0 V c ⟨0, hn⟩) (pb0 V c ⟨0, hn⟩) (wb0 V c ⟨0, hn⟩) (tb0 V c ⟨0, hn⟩)
      (reset0 (xb0 V c ⟨0, hn⟩) (pb0 V c ⟨0, hn⟩))
  | n + 1, hn => step0 (grid0.coords ⟨n + 1, hn⟩) (xb0 V c ⟨n + 1, hn⟩) (pb0 V c ⟨n + 1, hn⟩) (wb0 V c ⟨n + 1, hn⟩) (tb0 V c ⟨n + 1, hn⟩)
      (stAt0 c n (Nat.lt_of_succ_lt hn))

theorem stAt0_succ (c : Dev nD) (n : ℕ) (hn : n + 1 < cfg0.N) :
    stAt0 V c (n + 1) hn = step0 (grid0.coords ⟨n + 1, hn⟩) (xb0 V c ⟨n + 1, hn⟩) (pb0 V c ⟨n + 1, hn⟩) (wb0 V c ⟨n + 1, hn⟩) (tb0 V c ⟨n + 1, hn⟩)
      (stAt0 V c n (Nat.lt_of_succ_lt hn)) := rfl

abbrev scM0_0 : Memref sig .tc .vmem S2048x1024 .bf16 := Memref.whole cc0_scratch0
abbrev scM0_1 : Memref sig .tc .vmem S2048x1 .f32 := Memref.whole cc0_scratch1
abbrev scM0_2 : Memref sig .tc .vmem S2048x1 .f32 := Memref.whole cc0_scratch2
abbrev scM0_3 : Memref sig .tc .vmem S2048x1 .f32 := Memref.whole cc0_scratch3

/-- The region's invariant: before the first point the scoped buffers at anything, afterwards the kept buffers at the point before's values. -/
def PhiS0 (c : Dev nD) : (n : ℕ) → n ≤ cfg0.N → sProp 𝕄
  | 0, _ => Pipeline.ΦA spec0 c
  | n + 1, hn => iprop(owns (c : Thread nD τ) scM0_0 fullShare (stAt0 V c n hn).h ∗ owns (c : Thread nD τ) scM0_1 fullShare (stAt0 V c n hn).mx
      ∗ owns (c : Thread nD τ) scM0_2 fullShare (stAt0 V c n hn).sm ∗ owns (c : Thread nD τ) scM0_3 fullShare (stAt0 V c n hn).tl
      ∗ Pipeline.scopedRestBut (Ix := Unit) (Name := ℕ) (U := UR sig nD τ) (Lvl := ℕ) (Val := Elt F) spec0 c [cc0_scratch0, cc0_scratch1, cc0_scratch2, cc0_scratch3]
      ∗ (∃ r, prngReg c r))

/-- The region's proof data: each input's buffer at its block, the output's at the value formed from the kept values. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (tb0 V c t) (stAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 (tb0 V c t) (stAt0 V c t.val t.isLt) := by dsimp only [dat0]

local notation "ShX" => S2048x1024
local notation "ShH" => S2048x1024
local notation "ShP" => S1024x1024
local notation "ShW" => S1024x512
local notation "nTiles" => 32
local notation "lastTile" => 31
local notation "nPoints" => 64

theorem hfirst0 : ∀ t : Fin cfg0.N, first0 (grid0.coords t) ↔ t.val % nTiles = 0 :=
  (by decide +kernel : ∀ t : Fin grid0.N, first0 (grid0.coords t) ↔ t.val % nTiles = 0)

theorem hlast0 : ∀ t : Fin cfg0.N, k0_cond2 (grid0.coords t) = 1#1 ↔ t.val % nTiles = lastTile :=
  (by decide +kernel : ∀ t : Fin grid0.N, k0_cond2 (grid0.coords t) = 1#1 ↔ t.val % nTiles = lastTile)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

theorem idleAt0_4 : ∀ t : Fin cfg0.N, ¬k0_cond2 (grid0.coords t) = 1#1 → cfg0.idle 4 (grid0.coords t) = true := by decide +kernel

theorem noFlush0_4 : ∀ t : Fin cfg0.N, ¬k0_cond2 (grid0.coords t) = 1#1 → (cfg0.win 4).flush t = false := by decide +kernel

theorem liveAt0_4 : ∀ t : Fin cfg0.N, k0_cond2 (grid0.coords t) = 1#1 → cfg0.idle 4 (grid0.coords t) = false := by decide +kernel

abbrev ms0_0 (t : Fin cfg0.N) : Memref sig .tc .vmem ShX .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem ShP .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem ShW .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
          ∗ Pipeline.scopedRestBut (Ix := Unit) (Name := ℕ) (U := UR sig nD τ) (Lvl := ℕ) (Val := Elt F) spec0 c [cc0_scratch0, cc0_scratch1, cc0_scratch2, cc0_scratch3]) ∗ (∃ r, prngReg c r)) := by
  unfold Pipeline.ΦA; rw [scopedRest0_split]; simp only [scM0_0, scM0_1, scM0_2, scM0_3, owns_whole]; try rfl

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

theorem stAt0_zero (c : Dev nD) (hn : 0 < cfg0.N) :
    stAt0 V c 0 hn = step0 (grid0.coords ⟨0, hn⟩) (xb0 V c ⟨0, hn⟩) (pb0 V c ⟨0, hn⟩) (wb0 V c ⟨0, hn⟩) (tb0 V c ⟨0, hn⟩)
      (reset0 (xb0 V c ⟨0, hn⟩) (pb0 V c ⟨0, hn⟩)) := rfl

/-- At a first column tile the kept values are the update of any state. -/
theorem stAt0_first (c : Dev nD) (t : Fin cfg0.N) (h : first0 (grid0.coords t)) (s : St0 F) :
    stAt0 V c t.val t.isLt = step0 (grid0.coords t) (xb0 V c t) (pb0 V c t) (wb0 V c t) (tb0 V c t) s := by
  obtain ⟨n, hn⟩ := t
  cases n with
  | zero => exact (stAt0_zero V c hn).trans (step0_first _ h _ _ _ _ _ _)
  | succ n => exact (stAt0_succ V c n hn).trans (step0_first _ h _ _ _ _ _ _)

theorem stAt0_pos (c : Dev nD) (t : Fin cfg0.N) (hz : t.val ≠ 0) :
    stAt0 V c t.val t.isLt = step0 (grid0.coords t) (xb0 V c t) (pb0 V c t) (wb0 V c t) (tb0 V c t)
      (stAt0 V c (t.val - 1) (Nat.lt_of_le_of_lt (Nat.sub_le _ _) t.isLt)) := by
  obtain ⟨n, hn⟩ := t
  cases n with
  | zero => exact absurd rfl hz
  | succ n => exact stAt0_succ V c n hn

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (stAt0 V c n hn).h ∗ owns (c : Thread nD τ) scM0_1 fullShare (stAt0 V c n hn).mx
      ∗ owns (c : Thread nD τ) scM0_2 fullShare (stAt0 V c n hn).sm ∗ owns (c : Thread nD τ) scM0_3 fullShare (stAt0 V c n hn).tl
      ∗ Pipeline.scopedRestBut (Ix := Unit) (Name := ℕ) (U := UR sig nD τ) (Lvl := ℕ) (Val := Elt F) spec0 c [cc0_scratch0, cc0_scratch1, cc0_scratch2, cc0_scratch3]
      ∗ (∃ r, prngReg c r)) := rfl

theorem PhiS0_pos (c : Dev nD) (n : ℕ) (h : n ≤ cfg0.N) (hz : n ≠ 0) :
    PhiS0 V c n h = iprop(owns (c : Thread nD τ) scM0_0 fullShare (stAt0 V c (n - 1) (by omega)).h ∗ owns (c : Thread nD τ) scM0_1 fullShare (stAt0 V c (n - 1) (by omega)).mx
      ∗ owns (c : Thread nD τ) scM0_2 fullShare (stAt0 V c (n - 1) (by omega)).sm ∗ owns (c : Thread nD τ) scM0_3 fullShare (stAt0 V c (n - 1) (by omega)).tl
      ∗ Pipeline.scopedRestBut (Ix := Unit) (Name := ℕ) (U := UR sig nD τ) (Lvl := ℕ) (Val := Elt F) spec0 c [cc0_scratch0, cc0_scratch1, cc0_scratch2, cc0_scratch3]
      ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

theorem PhiS0_any (c : Dev nD) (n : ℕ) (h : n ≤ cfg0.N) :
    PhiS0 V c n h ⊢ iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)
      ∗ Pipeline.scopedRestBut (Ix := Unit) (Name := ℕ) (U := UR sig nD τ) (Lvl := ℕ) (Val := Elt F) spec0 c [cc0_scratch0, cc0_scratch1, cc0_scratch2, cc0_scratch3]
      ∗ (∃ r, prngReg c r)) := by
  cases n with
  | zero =>
    rw [PhiS0_zero V c 0 h rfl, PhiA0_eq]
    iintro ⟨⟨⟨HS0, HS1, HS2, HS3⟩, HR⟩, Hg⟩
    iframe
  | succ n =>
    rw [PhiS0_succ]
    iintro ⟨HS0, HS1, HS2, HS3, HR, Hg⟩
    iframe HR Hg
    isplitl [HS0]; · iexists _; iexact HS0
    isplitl [HS1]; · iexists _; iexact HS1
    isplitl [HS2]; · iexists _; iexact HS2
    iexists _; iexact HS3

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point, by the kind of column tile; a tile that is first and last at once is no point of the grid. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [PhiS0_castSucc V c t]
  by_cases h0 : first0 (grid0.coords t)
  · by_cases h1 : k0_cond2 (grid0.coords t) = 1#1
    · exfalso; have e0 := (hfirst0 t).mp h0; have e1 := (hlast0 t).mp h1; omega
    · rw [Dat.leavesExact_idle (dat0 V c) 4 t (idleAt0_4 t h1) (noFlush0_4 t h1)]
      rw [stAt0_first V c t h0 (reset0 (xb0 V c t) (pb0 V c t))]
      iintro ⟨HΦ, Ho, ⟨%d0, H0⟩, ⟨%d1, H1⟩, ⟨%d2, H2⟩, ⟨%d3, H3⟩, ⟨%d4, H4⟩⟩
      ihave HΦ' := (PhiS0_any V c _ _) $$ HΦ
      icases HΦ' with ⟨HS0, HS1, HS2, HS3, HR, Hg⟩
      iapply (body0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (xb0 V c t) (pb0 V c t) (wb0 V c t) (tb0 V c t) (reset0 (xb0 V c t) (pb0 V c t)) _ Set.univ _)
      iframe H0 H1 H2 H3 H4 HS0 HS1 HS2 HS3
      iintro ⟨H0, H1, H2, H3, H4, HS0, HS1, HS2, HS3⟩
      iframe
      iexists _; iexact H4
  · have hz : t.val ≠ 0 := fun e => h0 ((hfirst0 t).mpr (by rw [e]))
    rw [PhiS0_pos V c _ _ hz, stAt0_pos V c t hz]
    by_cases h1 : k0_cond2 (grid0.coords t) = 1#1
    · rw [show (dat0 V c).leavesExact 4 t = owns (c : Thread nD τ) (ms0_4 t) fullShare ((dat0 V c).after 4 t) from by
        unfold Dat.leavesExact; rw [liveAt0_4 t h1], after0_4, stAt0_pos V c t hz]
      iintro ⟨⟨HS0, HS1, HS2, HS3, HR, Hg⟩, Ho, ⟨%d0, H0⟩, ⟨%d1, H1⟩, ⟨%d2, H2⟩, ⟨%d3, H3⟩, ⟨%d4, H4⟩⟩
      iapply (body0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (xb0 V c t) (pb0 V c t) (wb0 V c t) (tb0 V c t) (stAt0 V c (t.val - 1) (Nat.lt_of_le_of_lt (Nat.sub_le _ _) t.isLt)) Set.univ _)
      iframe H0 H1 H2 H3 HS0 HS1 HS2 HS3
      isplitl [H4]; · iexists _; iexact H4
      iintro ⟨H0, H1, H2, H3, H4, HS0, HS1, HS2, HS3⟩
      iframe
    · rw [Dat.leavesExact_idle (dat0 V c) 4 t (idleAt0_4 t h1) (noFlush0_4 t h1)]
      iintro ⟨⟨HS0, HS1, HS2, HS3, HR, Hg⟩, Ho, ⟨%d0, H0⟩, ⟨%d1, H1⟩, ⟨%d2, H2⟩, ⟨%d3, H3⟩, ⟨%d4, H4⟩⟩
      iapply (body0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (xb0 V c t) (pb0 V c t) (wb0 V c t) (tb0 V c t) (stAt0 V c (t.val - 1) (Nat.lt_of_le_of_lt (Nat.sub_le _ _) t.isLt)) _ Set.univ _)
      iframe H0 H1 H2 H3 H4 HS0 HS1 HS2 HS3
      iintro ⟨H0, H1, H2, H3, H4, HS0, HS1, HS2, HS3⟩
      iframe
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl]
  refine (PhiS0_any V c _ _).trans ?_
  rw [PhiA0_eq]
  iintro ⟨HS0, HS1, HS2, HS3, HR, Hg⟩
  iframe

end Cert.KernelIdeal.Gen

end
-- ==== Proof.KI.R1Body.lean ====
import proofs.«422338_j11269994185272_3_alg».proof.Proof.Gen.KernelIdeal.Launch
import proofs.«422338_j11269994185272_3_alg».proof.Proof.Gen.KernelIdeal.Skeleton
import proofs.«422338_j11269994185272_3_alg».proof.Proof.Gen.KernelIdeal.Points
import proofs.«422338_j11269994185272_3_alg».proof.Proof.KI.Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
local notation "ShX" => S2048x1024
local notation "ShH" => S2048x256
local notation "ShP" => S1024x256
local notation "ShW" => S256x768

theorem hz1 : (![0, 0] : Fin 2 → Nat) = fun _ => 0 := funext fun a => by fin_cases a <;> rfl

/-- At a first column tile the update starts from the reset values, whatever the state it is given. -/
theorem step1_f (i : grid1.Coords) (hi : first1 i) (x : Vec F ShX .bf16) (w1 : Vec F ShP .bf16) (w2 : Vec F ShW .bf16) (tg : Vec F S2048x1 .i32) (s : St1 F) :
    step1 i x w1 w2 tg s = ⟨k1_pay8 x w1, k1_pay3 k1_pay5 (k1_pay14 i (k1_pay8 x w1) w2), k1_pay2 (k1_pay11 i (k1_pay8 x w1) w2) k1_pay5 (k1_pay14 i (k1_pay8 x w1) w2) k1_pay5 k1_pay6, k1_pay13 i (k1_pay8 x w1) w2 tg k1_pay7⟩ := by
  unfold step1 reset1; simp only [if_pos hi]

/-- At any other column tile it updates the state it is given. -/
theorem step1_nf (i : grid1.Coords) (hi : ¬first1 i) (x : Vec F ShX .bf16) (w1 : Vec F ShP .bf16) (w2 : Vec F ShW .bf16) (tg : Vec F S2048x1 .i32) (s : St1 F) :
    step1 i x w1 w2 tg s = ⟨s.h, k1_pay3 s.mx (k1_pay14 i s.h w2), k1_pay2 (k1_pay11 i s.h w2) s.mx (k1_pay14 i s.h w2) s.mx s.sm, k1_pay13 i s.h w2 tg s.tl⟩ := by
  unfold step1; simp only [if_neg hi]

variable (c : Dev nD) (i : grid1.Coords) (arg2 : Memref sig .tc .vmem ShX .bf16) (harg2 : arg2.IsWhole) (arg3 : Memref sig .tc .vmem ShP .bf16) (harg3 : arg3.IsWhole) (arg4 : Memref sig .tc .vmem ShW .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem ShH .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole)

set_option maxHeartbeats 2000000 in
/-- The body at a first column tile: every kept buffer, found at anything, is stored whole and left at the updated state's value. -/
theorem body1_A (hc0 : first1 i) (hc1 : ¬k1_cond2 i = 1#1) (x0 : Vec F ShX .bf16) (x1 : Vec F ShP .bf16) (x2 : Vec F ShW .bf16) (x3 : Vec F S2048x1 .i32) (s : St1 F) (xi4 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (step1 i x0 x1 x2 x3 s).h ∗ owns (c : Thread nD τ) arg8 fullShare (step1 i x0 x1 x2 x3 s).mx ∗ owns (c : Thread nD τ) arg9 fullShare (step1 i x0 x1 x2 x3 s).sm ∗ owns (c : Thread nD τ) arg10 fullShare (step1 i x0 x1 x2 x3 s).tl) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  rw [step1_f i hc0]; dsimp only
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  iexists _; isplitr; swap; iexact HS0; ipureintro; refine read_tiled _ _ _ _ (by sl_kernel_rfl) ?_; rotate_left
  isplitl [HS1]
  iexists _; isplitr; swap; iexact HS1; ipureintro; refine read_tiled _ _ _ _ (by sl_kernel_rfl) ?_; rotate_left
  isplitl [HS2]
  iexists _; isplitr; swap; iexact HS2; ipureintro; refine read_tiled _ _ _ _ (by sl_kernel_rfl) ?_; rotate_left
  iexists _; isplitr; swap; iexact HS3; ipureintro; refine read_tiled _ _ _ _ (by sl_kernel_rfl) ?_
  all_goals sl_unfold_words
  all_goals simp only [View.canon_cons_unit_zero (S := S2048x1) hz1, View.canon_cons_unit_zero (S := ShH) hz1, View.readAt_eq_ld, harg2.read_unread, harg3.read_unread, harg4.read_unread, harg5.read_unread, harg7.read_unread, harg8.read_unread, harg9.read_unread, harg10.read_unread,
    View.ld_unit_zero (S := S2048x1) hz1, View.ld_unit_zero (S := ShX) hz1, View.ld_unit_zero (S := ShH) hz1, View.ld_unit_zero (S := ShP) hz1, View.ld_unit_zero (S := ShW) hz1,
    View.readCov_unit_zero (S := S2048x1) _ hz1, View.readCov_unit_zero (S := ShH) _ hz1]

set_option maxHeartbeats 2000000 in
/-- The body at a middle column tile: the projected rows are only read, the three kept columns go from a state to its update. -/
theorem body1_B (hc0 : ¬first1 i) (hc1 : ¬k1_cond2 i = 1#1) (x0 : Vec F ShX .bf16) (x1 : Vec F ShP .bf16) (x2 : Vec F ShW .bf16) (x3 : Vec F S2048x1 .i32) (s : St1 F) (xi4 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare s.h ∗ owns (c : Thread nD τ) arg8 fullShare s.mx ∗ owns (c : Thread nD τ) arg9 fullShare s.sm ∗ owns (c : Thread nD τ) arg10 fullShare s.tl
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (step1 i x0 x1 x2 x3 s).h ∗ owns (c : Thread nD τ) arg8 fullShare (step1 i x0 x1 x2 x3 s).mx ∗ owns (c : Thread nD τ) arg9 fullShare (step1 i x0 x1 x2 x3 s).sm ∗ owns (c : Thread nD τ) arg10 fullShare (step1 i x0 x1 x2 x3 s).tl) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  rw [step1_nf i hc0]; dsimp only
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hfs0; obtain rfl := harg8.eq_unread hfs1; obtain rfl := harg9.eq_unread hfs2; obtain rfl := harg10.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; · ipureintro; exact harg7.read_unread _
    iexact HS0
  isplitl [HS1]
  iexists _; isplitr; swap; iexact HS1; ipureintro; refine read_tiled _ _ _ _ (by sl_kernel_rfl) ?_; rotate_left
  isplitl [HS2]
  iexists _; isplitr; swap; iexact HS2; ipureintro; refine read_tiled _ _ _ _ (by sl_kernel_rfl) ?_; rotate_left
  iexists _; isplitr; swap; iexact HS3; ipureintro; refine read_tiled _ _ _ _ (by sl_kernel_rfl) ?_
  all_goals sl_unfold_words
  all_goals simp only [View.canon_cons_unit_zero (S := S2048x1) hz1, View.canon_cons_unit_zero (S := ShH) hz1, View.readAt_eq_ld, harg2.read_unread, harg3.read_unread, harg4.read_unread, harg5.read_unread, harg7.read_unread, harg8.read_unread, harg9.read_unread, harg10.read_unread,
    View.ld_unit_zero (S := S2048x1) hz1, View.ld_unit_zero (S := ShX) hz1, View.ld_unit_zero (S := ShH) hz1, View.ld_unit_zero (S := ShP) hz1, View.ld_unit_zero (S := ShW) hz1,
    View.readCov_unit_zero (S := S2048x1) _ hz1, View.readCov_unit_zero (S := ShH) _ hz1]

set_option maxHeartbeats 2000000 in
/-- The body at a last column tile: as at a middle one, and the output's buffer, found at anything, is left at the updated state's output value. -/
theorem body1_C (hc0 : ¬first1 i) (hc1 : k1_cond2 i = 1#1) (x0 : Vec F ShX .bf16) (x1 : Vec F ShP .bf16) (x2 : Vec F ShW .bf16) (x3 : Vec F S2048x1 .i32) (s : St1 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s.h ∗ owns (c : Thread nD τ) arg8 fullShare s.mx ∗ owns (c : Thread nD τ) arg9 fullShare s.sm ∗ owns (c : Thread nD τ) arg10 fullShare s.tl
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1 x3 (step1 i x0 x1 x2 x3 s)) ∗ owns (c : Thread nD τ) arg7 fullShare (step1 i x0 x1 x2 x3 s).h ∗ owns (c : Thread nD τ) arg8 fullShare (step1 i x0 x1 x2 x3 s).mx ∗ owns (c : Thread nD τ) arg9 fullShare (step1 i x0 x1 x2 x3 s).sm ∗ owns (c : Thread nD τ) arg10 fullShare (step1 i x0 x1 x2 x3 s).tl) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  unfold out1; rw [step1_nf i hc0]; dsimp only
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2; obtain rfl := harg10.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  iexists _; isplitr; swap; iexact H4; ipureintro; refine read_tiled _ _ _ _ (by sl_kernel_rfl) ?_; rotate_left
  isplitl [HS0]
  · iexists _; isplitr; · ipureintro; exact harg7.read_unread _
    iexact HS0
  isplitl [HS1]
  iexists _; isplitr; swap; iexact HS1; ipureintro; refine read_tiled _ _ _ _ (by sl_kernel_rfl) ?_; rotate_left
  isplitl [HS2]
  iexists _; isplitr; swap; iexact HS2; ipureintro; refine read_tiled _ _ _ _ (by sl_kernel_rfl) ?_; rotate_left
  iexists _; isplitr; swap; iexact HS3; ipureintro; refine read_tiled _ _ _ _ (by sl_kernel_rfl) ?_
  all_goals sl_unfold_words
  all_goals simp only [View.canon_cons_unit_zero (S := S2048x1) hz1, View.canon_cons_unit_zero (S := ShH) hz1, View.readAt_eq_ld, harg2.read_unread, harg3.read_unread, harg4.read_unread, harg5.read_unread, harg7.read_unread, harg8.read_unread, harg9.read_unread, harg10.read_unread,
    View.ld_unit_zero (S := S2048x1) hz1, View.ld_unit_zero (S := ShX) hz1, View.ld_unit_zero (S := ShH) hz1, View.ld_unit_zero (S := ShP) hz1, View.ld_unit_zero (S := ShW) hz1,
    View.readCov_unit_zero (S := S2048x1) _ hz1, View.readCov_unit_zero (S := ShH) _ hz1]

end Cert.KernelIdeal.Gen

end
-- ==== Proof.KI.R1Frame.lean ====
import proofs.«422338_j11269994185272_3_alg».proof.Proof.Gen.KernelIdeal.Launch
import proofs.«422338_j11269994185272_3_alg».proof.Proof.Gen.KernelIdeal.Skeleton
import proofs.«422338_j11269994185272_3_alg».proof.Proof.Gen.KernelIdeal.Points
import proofs.«422338_j11269994185272_3_alg».proof.Proof.KI.Step
import proofs.«422338_j11269994185272_3_alg».proof.Proof.KI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S2048x1024 .bf16 := iblk1 V c 0 t
abbrev pb1 (c : Dev nD) (t : Fin cfg1.N) : Vec F S1024x256 .bf16 := iblk1 V c 1 t
abbrev wb1 (c : Dev nD) (t : Fin cfg1.N) : Vec F S256x768 .bf16 := iblk1 V c 2 t
abbrev tb1 (c : Dev nD) (t : Fin cfg1.N) : Vec F S2048x1 .i32 := iblk1 V c 3 t

/-- The kept values after the point at position `n`: the update of what the point before left. -/
def stAt1 (c : Dev nD) : (n : ℕ) → n < cfg1.N → St1 F
  | 0, hn => step1 (grid1.coords ⟨0, hn⟩) (xb1 V c ⟨0, hn⟩) (pb1 V c ⟨0, hn⟩) (wb1 V c ⟨0, hn⟩) (tb1 V c ⟨0, hn⟩)
      (reset1 (xb1 V c ⟨0, hn⟩) (pb1 V c ⟨0, hn⟩))
  | n + 1, hn => step1 (grid1.coords ⟨n + 1, hn⟩) (xb1 V c ⟨n + 1, hn⟩) (pb1 V c ⟨n + 1, hn⟩) (wb1 V c ⟨n + 1, hn⟩) (tb1 V c ⟨n + 1, hn⟩)
      (stAt1 c n (Nat.lt_of_succ_lt hn))

theorem stAt1_succ (c : Dev nD) (n : ℕ) (hn : n + 1 < cfg1.N) :
    stAt1 V c (n + 1) hn = step1 (grid1.coords ⟨n + 1, hn⟩) (xb1 V c ⟨n + 1, hn⟩) (pb1 V c ⟨n + 1, hn⟩) (wb1 V c ⟨n + 1, hn⟩) (tb1 V c ⟨n + 1, hn⟩)
      (stAt1 V c n (Nat.lt_of_succ_lt hn)) := rfl

abbrev scM1_0 : Memref sig .tc .vmem S2048x256 .bf16 := Memref.whole cc1_scratch0
abbrev scM1_1 : Memref sig .tc .vmem S2048x1 .f32 := Memref.whole cc1_scratch1
abbrev scM1_2 : Memref sig .tc .vmem S2048x1 .f32 := Memref.whole cc1_scratch2
abbrev scM1_3 : Memref sig .tc .vmem S2048x1 .f32 := Memref.whole cc1_scratch3

/-- The region's invariant: before the first point the scoped buffers at anything, afterwards the kept buffers at the point before's values. -/
def PhiS1 (c : Dev nD) : (n : ℕ) → n ≤ cfg1.N → sProp 𝕄
  | 0, _ => Pipeline.ΦA spec1 c
  | n + 1, hn => iprop(owns (c : Thread nD τ) scM1_0 fullShare (stAt1 V c n hn).h ∗ owns (c : Thread nD τ) scM1_1 fullShare (stAt1 V c n hn).mx
      ∗ owns (c : Thread nD τ) scM1_2 fullShare (stAt1 V c n hn).sm ∗ owns (c : Thread nD τ) scM1_3 fullShare (stAt1 V c n hn).tl
      ∗ Pipeline.scopedRestBut (Ix := Unit) (Name := ℕ) (U := UR sig nD τ) (Lvl := ℕ) (Val := Elt F) spec1 c [cc1_scratch0, cc1_scratch1, cc1_scratch2, cc1_scratch3]
      ∗ (∃ r, prngReg c r))

/-- The region's proof data: each input's buffer at its block, the output's at the value formed from the kept values. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (tb1 V c t) (stAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (tb1 V c t) (stAt1 V c t.val t.isLt) := by dsimp only [dat1]

local notation "ShX" => S2048x1024
local notation "ShH" => S2048x256
local notation "ShP" => S1024x256
local notation "ShW" => S256x768
local notation "nTiles" => 40
local notation "lastTile" => 39
local notation "nPoints" => 80

theorem hfirst1 : ∀ t : Fin cfg1.N, first1 (grid1.coords t) ↔ t.val % nTiles = 0 :=
  (by decide +kernel : ∀ t : Fin grid1.N, first1 (grid1.coords t) ↔ t.val % nTiles = 0)

theorem hlast1 : ∀ t : Fin cfg1.N, k1_cond2 (grid1.coords t) = 1#1 ↔ t.val % nTiles = lastTile :=
  (by decide +kernel : ∀ t : Fin grid1.N, k1_cond2 (grid1.coords t) = 1#1 ↔ t.val % nTiles = lastTile)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

theorem idleAt1_4 : ∀ t : Fin cfg1.N, ¬k1_cond2 (grid1.coords t) = 1#1 → cfg1.idle 4 (grid1.coords t) = true := by decide +kernel

theorem noFlush1_4 : ∀ t : Fin cfg1.N, ¬k1_cond2 (grid1.coords t) = 1#1 → (cfg1.win 4).flush t = false := by decide +kernel

theorem liveAt1_4 : ∀ t : Fin cfg1.N, k1_cond2 (grid1.coords t) = 1#1 → cfg1.idle 4 (grid1.coords t) = false := by decide +kernel

abbrev ms1_0 (t : Fin cfg1.N) : Memref sig .tc .vmem ShX .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem ShP .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem ShW .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d))
          ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r)) := by
  unfold Pipeline.ΦA; rw [scopedRest1_split]; simp only [scM1_0, scM1_1, scM1_2, scM1_3, owns_whole]; try rfl

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem stAt1_zero (c : Dev nD) (hn : 0 < cfg1.N) :
    stAt1 V c 0 hn = step1 (grid1.coords ⟨0, hn⟩) (xb1 V c ⟨0, hn⟩) (pb1 V c ⟨0, hn⟩) (wb1 V c ⟨0, hn⟩) (tb1 V c ⟨0, hn⟩)
      (reset1 (xb1 V c ⟨0, hn⟩) (pb1 V c ⟨0, hn⟩)) := rfl

/-- At a first column tile the kept values are the update of any state. -/
theorem stAt1_first (c : Dev nD) (t : Fin cfg1.N) (h : first1 (grid1.coords t)) (s : St1 F) :
    stAt1 V c t.val t.isLt = step1 (grid1.coords t) (xb1 V c t) (pb1 V c t) (wb1 V c t) (tb1 V c t) s := by
  obtain ⟨n, hn⟩ := t
  cases n with
  | zero => exact (stAt1_zero V c hn).trans (step1_first _ h _ _ _ _ _ _)
  | succ n => exact (stAt1_succ V c n hn).trans (step1_first _ h _ _ _ _ _ _)

theorem stAt1_pos (c : Dev nD) (t : Fin cfg1.N) (hz : t.val ≠ 0) :
    stAt1 V c t.val t.isLt = step1 (grid1.coords t) (xb1 V c t) (pb1 V c t) (wb1 V c t) (tb1 V c t)
      (stAt1 V c (t.val - 1) (Nat.lt_of_le_of_lt (Nat.sub_le _ _) t.isLt)) := by
  obtain ⟨n, hn⟩ := t
  cases n with
  | zero => exact absurd rfl hz
  | succ n => exact stAt1_succ V c n hn

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (stAt1 V c n hn).h ∗ owns (c : Thread nD τ) scM1_1 fullShare (stAt1 V c n hn).mx
      ∗ owns (c : Thread nD τ) scM1_2 fullShare (stAt1 V c n hn).sm ∗ owns (c : Thread nD τ) scM1_3 fullShare (stAt1 V c n hn).tl
      ∗ Pipeline.scopedRestBut (Ix := Unit) (Name := ℕ) (U := UR sig nD τ) (Lvl := ℕ) (Val := Elt F) spec1 c [cc1_scratch0, cc1_scratch1, cc1_scratch2, cc1_scratch3]
      ∗ (∃ r, prngReg c r)) := rfl

theorem PhiS1_pos (c : Dev nD) (n : ℕ) (h : n ≤ cfg1.N) (hz : n ≠ 0) :
    PhiS1 V c n h = iprop(owns (c : Thread nD τ) scM1_0 fullShare (stAt1 V c (n - 1) (by omega)).h ∗ owns (c : Thread nD τ) scM1_1 fullShare (stAt1 V c (n - 1) (by omega)).mx
      ∗ owns (c : Thread nD τ) scM1_2 fullShare (stAt1 V c (n - 1) (by omega)).sm ∗ owns (c : Thread nD τ) scM1_3 fullShare (stAt1 V c (n - 1) (by omega)).tl
      ∗ Pipeline.scopedRestBut (Ix := Unit) (Name := ℕ) (U := UR sig nD τ) (Lvl := ℕ) (Val := Elt F) spec1 c [cc1_scratch0, cc1_scratch1, cc1_scratch2, cc1_scratch3]
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

theorem PhiS1_any (c : Dev nD) (n : ℕ) (h : n ≤ cfg1.N) :
    PhiS1 V c n h ⊢ iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)
      ∗ Pipeline.scopedRestBut (Ix := Unit) (Name := ℕ) (U := UR sig nD τ) (Lvl := ℕ) (Val := Elt F) spec1 c [cc1_scratch0, cc1_scratch1, cc1_scratch2, cc1_scratch3]
      ∗ (∃ r, prngReg c r)) := by
  cases n with
  | zero =>
    rw [PhiS1_zero V c 0 h rfl, PhiA1_eq]
    iintro ⟨⟨⟨HS0, HS1, HS2, HS3⟩, HR⟩, Hg⟩
    iframe
  | succ n =>
    rw [PhiS1_succ]
    iintro ⟨HS0, HS1, HS2, HS3, HR, Hg⟩
    iframe HR Hg
    isplitl [HS0]; · iexists _; iexact HS0
    isplitl [HS1]; · iexists _; iexact HS1
    isplitl [HS2]; · iexists _; iexact HS2
    iexists _; iexact HS3

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point, by the kind of column tile; a tile that is first and last at once is no point of the grid. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [PhiS1_castSucc V c t]
  by_cases h0 : first1 (grid1.coords t)
  · by_cases h1 : k1_cond2 (grid1.coords t) = 1#1
    · exfalso; have e0 := (hfirst1 t).mp h0; have e1 := (hlast1 t).mp h1; omega
    · rw [Dat.leavesExact_idle (dat1 V c) 4 t (idleAt1_4 t h1) (noFlush1_4 t h1)]
      rw [stAt1_first V c t h0 (reset1 (xb1 V c t) (pb1 V c t))]
      iintro ⟨HΦ, Ho, ⟨%d0, H0⟩, ⟨%d1, H1⟩, ⟨%d2, H2⟩, ⟨%d3, H3⟩, ⟨%d4, H4⟩⟩
      ihave HΦ' := (PhiS1_any V c _ _) $$ HΦ
      icases HΦ' with ⟨HS0, HS1, HS2, HS3, HR, Hg⟩
      iapply (body1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) h0 h1 (xb1 V c t) (pb1 V c t) (wb1 V c t) (tb1 V c t) (reset1 (xb1 V c t) (pb1 V c t)) _ Set.univ _)
      iframe H0 H1 H2 H3 H4 HS0 HS1 HS2 HS3
      iintro ⟨H0, H1, H2, H3, H4, HS0, HS1, HS2, HS3⟩
      iframe
      iexists _; iexact H4
  · have hz : t.val ≠ 0 := fun e => h0 ((hfirst1 t).mpr (by rw [e]))
    rw [PhiS1_pos V c _ _ hz, stAt1_pos V c t hz]
    by_cases h1 : k1_cond2 (grid1.coords t) = 1#1
    · rw [show (dat1 V c).leavesExact 4 t = owns (c : Thread nD τ) (ms1_4 t) fullShare ((dat1 V c).after 4 t) from by
        unfold Dat.leavesExact; rw [liveAt1_4 t h1], after1_4, stAt1_pos V c t hz]
      iintro ⟨⟨HS0, HS1, HS2, HS3, HR, Hg⟩, Ho, ⟨%d0, H0⟩, ⟨%d1, H1⟩, ⟨%d2, H2⟩, ⟨%d3, H3⟩, ⟨%d4, H4⟩⟩
      iapply (body1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) h0 h1 (xb1 V c t) (pb1 V c t) (wb1 V c t) (tb1 V c t) (stAt1 V c (t.val - 1) (Nat.lt_of_le_of_lt (Nat.sub_le _ _) t.isLt)) Set.univ _)
      iframe H0 H1 H2 H3 HS0 HS1 HS2 HS3
      isplitl [H4]; · iexists _; iexact H4
      iintro ⟨H0, H1, H2, H3, H4, HS0, HS1, HS2, HS3⟩
      iframe
    · rw [Dat.leavesExact_idle (dat1 V c) 4 t (idleAt1_4 t h1) (noFlush1_4 t h1)]
      iintro ⟨⟨HS0, HS1, HS2, HS3, HR, Hg⟩, Ho, ⟨%d0, H0⟩, ⟨%d1, H1⟩, ⟨%d2, H2⟩, ⟨%d3, H3⟩, ⟨%d4, H4⟩⟩
      iapply (body1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) h0 h1 (xb1 V c t) (pb1 V c t) (wb1 V c t) (tb1 V c t) (stAt1 V c (t.val - 1) (Nat.lt_of_le_of_lt (Nat.sub_le _ _) t.isLt)) _ Set.univ _)
      iframe H0 H1 H2 H3 H4 HS0 HS1 HS2 HS3
      iintro ⟨H0, H1, H2, H3, H4, HS0, HS1, HS2, HS3⟩
      iframe
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  refine (PhiS1_any V c _ _).trans ?_
  rw [PhiA1_eq]
  iintro ⟨HS0, HS1, HS2, HS3, HR, Hg⟩
  iframe

end Cert.KernelIdeal.Gen

end
-- ==== Proof.KI.R2Run.lean ====
import proofs.«422338_j11269994185272_3_alg».proof.Proof.Gen.KernelIdeal.Launch
import proofs.«422338_j11269994185272_3_alg».proof.Proof.Gen.KernelIdeal.Skeleton
import proofs.«422338_j11269994185272_3_alg».proof.Proof.Gen.KernelIdeal.Points
import proofs.«422338_j11269994185272_3_alg».proof.Proof.KI.Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid2.Coords) (arg2 : Memref sig .tc .vmem S256x1024 .bf16) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S256x1 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (x0 : Vec F S256x1024 .bf16) (x1 : Vec F S1024x4096 .bf16) (x2 : Vec F S1x4096 .f32) (x3 : Vec F S256x1 .i32)

set_option maxHeartbeats 4000000 in
/-- The head's body at a point (every point is a first and a last tile): the output's buffer and the kept columns, found at anything, are left at the one-tile update of the reset values and the value formed from it. -/
theorem body2 (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay5 (k2_pay4 (k2_pay11 i x0 x1 x2) k2_pay6) (k2_pay3 (k2_pay11 i x0 x1 x2) k2_pay6 k2_pay6 k2_pay7) (k2_pay1 k2_pay8 (k2_pay12 i x0 x1 x2 x3))) ∗ owns (c : Thread nD τ) arg7 fullShare (k2_pay4 (k2_pay11 i x0 x1 x2) k2_pay6) ∗ owns (c : Thread nD τ) arg8 fullShare (k2_pay3 (k2_pay11 i x0 x1 x2) k2_pay6 k2_pay6 k2_pay7) ∗ owns (c : Thread nD τ) arg9 fullShare (k2_pay1 k2_pay8 (k2_pay12 i x0 x1 x2 x3))) -∗ K ⟨⟩))
      ⊢ wp frame (wpE (defs₀ (F := F)) Variants.none c none) E (cc2_kernel i arg2 harg2 arg3 harg3 arg4 harg4 arg5 harg5 arg6 harg6 arg7 harg7 arg8 harg8 arg9 harg9) K := by
  have hc0 : Scalar.cmpi .ne (Scalar.extui (Scalar.cmpi .eq (BitVec.ofNat 32 (i 1).val) 0#32)) 0#32 = 1#1 := first2_all i
  have hc1 : k2_cond2 i = 1#1 := last2_all i
  have hz : (![0, 0] : Fin 2 → Nat) = fun _ => 0 := funext fun a => by fin_cases a <;> rfl
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  iexists _; isplitr; swap; iexact H4; ipureintro; refine read_tiled _ _ _ _ (by sl_kernel_rfl) ?_; rotate_left
  isplitl [HS0]
  iexists _; isplitr; swap; iexact HS0; ipureintro; refine read_tiled _ _ _ _ (by sl_kernel_rfl) ?_; rotate_left
  isplitl [HS1]
  iexists _; isplitr; swap; iexact HS1; ipureintro; refine read_tiled _ _ _ _ (by sl_kernel_rfl) ?_; rotate_left
  iexists _; isplitr; swap; iexact HS2; ipureintro; refine read_tiled _ _ _ _ (by sl_kernel_rfl) ?_
  all_goals sl_unfold_words
  all_goals simp only [View.canon_cons_unit_zero (S := S256x1) hz, View.readAt_eq_ld, harg2.read_unread, harg3.read_unread, harg4.read_unread, harg5.read_unread,
    View.ld_unit_zero (S := S256x1024) hz, View.ld_unit_zero (S := S1024x4096) hz, View.ld_unit_zero (S := S1x4096) hz,
    View.ld_unit_zero (S := S256x1) hz, View.readCov_cons_toLoadRect]

end Cert.KernelIdeal.Gen

end
-- ==== Proof.KI.R2Frame.lean ====
import proofs.«422338_j11269994185272_3_alg».proof.Proof.Gen.KernelIdeal.Launch
import proofs.«422338_j11269994185272_3_alg».proof.Proof.Gen.KernelIdeal.Skeleton
import proofs.«422338_j11269994185272_3_alg».proof.Proof.Gen.KernelIdeal.Points
import proofs.«422338_j11269994185272_3_alg».proof.Proof.KI.Step
import proofs.«422338_j11269994185272_3_alg».proof.Proof.KI.R2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S256x1024 .bf16 := iblk2 V c 0 t
abbrev wb2 (c : Dev nD) (t : Fin cfg2.N) : Vec F S1024x4096 .bf16 := iblk2 V c 1 t
abbrev bb2 (c : Dev nD) (t : Fin cfg2.N) : Vec F S1x4096 .f32 := iblk2 V c 2 t
abbrev tb2 (c : Dev nD) (t : Fin cfg2.N) : Vec F S256x1 .i32 := iblk2 V c 3 t

/-- The kept values after the point at position `n`. -/
def stAt2 (c : Dev nD) : (n : ℕ) → n < cfg2.N → St2 F
  | 0, hn => step2 (grid2.coords ⟨0, hn⟩) (xb2 V c ⟨0, hn⟩) (wb2 V c ⟨0, hn⟩) (bb2 V c ⟨0, hn⟩) (tb2 V c ⟨0, hn⟩) reset2
  | n + 1, hn => step2 (grid2.coords ⟨n + 1, hn⟩) (xb2 V c ⟨n + 1, hn⟩) (wb2 V c ⟨n + 1, hn⟩) (bb2 V c ⟨n + 1, hn⟩) (tb2 V c ⟨n + 1, hn⟩)
      (stAt2 c n (Nat.lt_of_succ_lt hn))

theorem stAt2_succ (c : Dev nD) (n : ℕ) (hn : n + 1 < cfg2.N) :
    stAt2 V c (n + 1) hn = step2 (grid2.coords ⟨n + 1, hn⟩) (xb2 V c ⟨n + 1, hn⟩) (wb2 V c ⟨n + 1, hn⟩) (bb2 V c ⟨n + 1, hn⟩) (tb2 V c ⟨n + 1, hn⟩)
      (stAt2 V c n (Nat.lt_of_succ_lt hn)) := rfl

abbrev scM2_0 : Memref sig .tc .vmem S256x1 .f32 := Memref.whole cc2_scratch0
abbrev scM2_1 : Memref sig .tc .vmem S256x1 .f32 := Memref.whole cc2_scratch1
abbrev scM2_2 : Memref sig .tc .vmem S256x1 .f32 := Memref.whole cc2_scratch2

/-- The region's invariant: before the first point the scoped buffers at anything, afterwards the kept buffers at the point before's values. -/
def PhiS2 (c : Dev nD) : (n : ℕ) → n ≤ cfg2.N → sProp 𝕄
  | 0, _ => Pipeline.ΦA spec2 c
  | n + 1, hn => iprop(owns (c : Thread nD τ) scM2_0 fullShare (stAt2 V c n hn).mx
      ∗ owns (c : Thread nD τ) scM2_1 fullShare (stAt2 V c n hn).sm ∗ owns (c : Thread nD τ) scM2_2 fullShare (stAt2 V c n hn).tl
      ∗ Pipeline.scopedRestBut (Ix := Unit) (Name := ℕ) (U := UR sig nD τ) (Lvl := ℕ) (Val := Elt F) spec2 c [cc2_scratch0, cc2_scratch1, cc2_scratch2]
      ∗ (∃ r, prngReg c r))

/-- The region's proof data: each input's buffer at its block, the output's at the value formed from the kept values. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (stAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 (stAt2 V c t.val t.isLt) := by dsimp only [dat2]

theorem step2_eq (i : grid2.Coords) (x : Vec F S256x1024 .bf16) (w : Vec F S1024x4096 .bf16) (b : Vec F S1x4096 .f32)
    (tg : Vec F S256x1 .i32) (s : St2 F) :
    step2 i x w b tg s = ⟨k2_pay4 (k2_pay11 i x w b) k2_pay6, k2_pay3 (k2_pay11 i x w b) k2_pay6 k2_pay6 k2_pay7,
      k2_pay1 k2_pay8 (k2_pay12 i x w b tg)⟩ := by
  unfold step2 reset2; simp only [if_pos (first2_all i)]

theorem stAt2_eq (c : Dev nD) (t : Fin cfg2.N) :
    stAt2 V c t.val t.isLt = ⟨k2_pay4 (k2_pay11 (grid2.coords t) (xb2 V c t) (wb2 V c t) (bb2 V c t)) k2_pay6,
      k2_pay3 (k2_pay11 (grid2.coords t) (xb2 V c t) (wb2 V c t) (bb2 V c t)) k2_pay6 k2_pay6 k2_pay7,
      k2_pay1 k2_pay8 (k2_pay12 (grid2.coords t) (xb2 V c t) (wb2 V c t) (bb2 V c t) (tb2 V c t))⟩ := by
  obtain ⟨n, hn⟩ := t
  cases n with
  | zero => exact step2_eq _ _ _ _ _ _
  | succ n => exact (stAt2_succ V c n hn).trans (step2_eq _ _ _ _ _ _)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun t => by
  show (!(k2_cond2 (grid2.coords t) == 1#1)) = false
  rw [last2_all]; rfl

abbrev ms2_0 (t : Fin cfg2.N) : Memref sig .tc .vmem S256x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1 .f32 := win2_4.stage (cfg2.slots t 4)
abbrev hs2_4 (t : Fin cfg2.N) : (ms2_4 t).IsWhole := hstage2_4 ((cfg2.slots t 4).cast nbuf2_4)

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2])
          ∗ (∃ r, prngReg c r)) := by
  unfold Pipeline.ΦA; rw [scopedRest2_split]; simp only [scM2_0, scM2_1, scM2_2, owns_whole]; try rfl

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (stAt2 V c n hn).mx
      ∗ owns (c : Thread nD τ) scM2_1 fullShare (stAt2 V c n hn).sm ∗ owns (c : Thread nD τ) scM2_2 fullShare (stAt2 V c n hn).tl
      ∗ Pipeline.scopedRestBut (Ix := Unit) (Name := ℕ) (U := UR sig nD τ) (Lvl := ℕ) (Val := Elt F) spec2 c [cc2_scratch0, cc2_scratch1, cc2_scratch2]
      ∗ (∃ r, prngReg c r)) := rfl

theorem PhiS2_elim (c : Dev nD) (n : ℕ) (h : n ≤ cfg2.N) :
    PhiS2 V c n h ⊢ iprop((∃ d, owns (c : Thread nD τ) scM2_0 fullShare d) ∗ (∃ d, owns (c : Thread nD τ) scM2_1 fullShare d) ∗ (∃ d, owns (c : Thread nD τ) scM2_2 fullShare d)
      ∗ Pipeline.scopedRestBut (Ix := Unit) (Name := ℕ) (U := UR sig nD τ) (Lvl := ℕ) (Val := Elt F) spec2 c [cc2_scratch0, cc2_scratch1, cc2_scratch2]
      ∗ (∃ r, prngReg c r)) := by
  cases n with
  | zero =>
    rw [PhiS2_zero V c 0 h rfl, PhiA2_eq]
    iintro ⟨⟨⟨H0, H1, H2⟩, Hr⟩, Hg⟩
    iframe
  | succ n =>
    rw [PhiS2_succ V c n h]
    iintro ⟨H0, H1, H2, Hr, Hg⟩
    iframe Hr Hg
    isplitl [H0]; · iexists _; iexact H0
    isplitl [H1]; · iexists _; iexact H1
    iexists _; iexact H2

theorem PhiS2_castSucc (c : Dev nD) (t : Fin cfg2.N) :
    (dat2 V c).Φ t.castSucc = PhiS2 V c t.val (Nat.le_of_lt t.isLt) := by
  dsimp only [dat2]; simp only [Fin.coe_castSucc]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 4800000 in
/-- The body at any point: every point resets, updates once and forms the output. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  unfold out2
  rw [stAt2_eq V c t]
  dsimp only
  rw [PhiS2_castSucc V c t]
  iintro ⟨HP, Ho, ⟨%d0, H0⟩, ⟨%d1, H1⟩, ⟨%d2, H2⟩, ⟨%d3, H3⟩, ⟨%d4, H4⟩⟩
  ihave HP' := (PhiS2_elim V c t.val (Nat.le_of_lt t.isLt)) $$ HP
  icases HP' with ⟨HS0, HS1, HS2, Hr, Hg⟩
  iapply (body2 c (grid2.coords t) (ms2_0 t) (hs2_0 t) (ms2_1 t) (hs2_1 t) (ms2_2 t) (hs2_2 t) (ms2_3 t) (hs2_3 t) (ms2_4 t) (hs2_4 t)
    scM2_0 (Memref.isWhole_whole _) scM2_1 (Memref.isWhole_whole _) scM2_2 (Memref.isWhole_whole _) (xb2 V c t) (wb2 V c t) (bb2 V c t) (tb2 V c t) Set.univ _)
  iframe H0 H1 H2 H3 HS0 HS1 HS2
  isplitl [H4]; · iexists _; iexact H4
  iintro ⟨H0, H1, H2, H3, H4, HS0, HS1, HS2⟩
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  refine (PhiS2_elim V c _ _).trans ?_
  iintro ⟨H0, H1, H2, Hr, Hg⟩
  iframe

end Cert.KernelIdeal.Gen

end
-- ==== Proof.KI.Regs.lean ====
import proofs.«422338_j11269994185272_3_alg».proof.Proof.Gen.KernelIdeal.Regions
import proofs.«422338_j11269994185272_3_alg».proof.Proof.KI.R0Frame
import proofs.«422338_j11269994185272_3_alg».proof.Proof.KI.R1Frame
import proofs.«422338_j11269994185272_3_alg».proof.Proof.KI.R2Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

abbrev Ve0 : (c : Dev nD) → (b : Ref sig .tc) → Buf (Elt F) ((c : Thread nD τ).loc b) := fun c b => V2 m c b

def o3 (c : Dev nD) : Buf (Elt F) ((c : Thread nD τ).loc main_v5) := (dat0 (Ve0 m) c).arrAt 4 cfg0.N

def outsA : Outs (F := F) := fun _ r c =>
  if h : r = main_v5 then cast (congrArg (fun r' : Ref sig .tc => Buf (Elt F) ((c : Thread nD τ).loc r')) h.symm) (o3 m c)
  else m ((c : Thread nD τ).loc r)

abbrev Ve1 : (c : Dev nD) → (b : Ref sig .tc) → Buf (Elt F) ((c : Thread nD τ).loc b) := fun c b => V5 m (outsA m) c b

def o6 (c : Dev nD) : Buf (Elt F) ((c : Thread nD τ).loc main_v9) := (dat1 (Ve1 m) c).arrAt 4 cfg1.N

def outsB : Outs (F := F) := fun _ r c =>
  if h : r = main_v5 then cast (congrArg (fun r' : Ref sig .tc => Buf (Elt F) ((c : Thread nD τ).loc r')) h.symm) (o3 m c)
  else if h : r = main_v9 then cast (congrArg (fun r' : Ref sig .tc => Buf (Elt F) ((c : Thread nD τ).loc r')) h.symm) (o6 m c)
  else m ((c : Thread nD τ).loc r)

abbrev Ve2 : (c : Dev nD) → (b : Ref sig .tc) → Buf (Elt F) ((c : Thread nD τ).loc b) := fun c b => V11 m (outsB m) c b

def o12 (c : Dev nD) : Buf (Elt F) ((c : Thread nD τ).loc main_v14) := (dat2 (Ve2 m) c).arrAt 4 cfg2.N

/-- What the three regions leave: each region's output array at what its write-backs make of it. -/
def outsKI : Outs (F := F) := fun _ r c =>
  if h : r = main_v5 then cast (congrArg (fun r' : Ref sig .tc => Buf (Elt F) ((c : Thread nD τ).loc r')) h.symm) (o3 m c)
  else if h : r = main_v9 then cast (congrArg (fun r' : Ref sig .tc => Buf (Elt F) ((c : Thread nD τ).loc r')) h.symm) (o6 m c)
  else if h : r = main_v14 then cast (congrArg (fun r' : Ref sig .tc => Buf (Elt F) ((c : Thread nD τ).loc r')) h.symm) (o12 m c)
  else m ((c : Thread nD τ).loc r)

theorem outsA_v5 (J : ℕ) (c : Dev nD) : outsA m J main_v5 c = o3 m c := by
  unfold outsA; rw [dif_pos rfl]; rfl
theorem outsB_v5 (J : ℕ) (c : Dev nD) : outsB m J main_v5 c = o3 m c := by
  unfold outsB; rw [dif_pos rfl]; rfl
theorem outsB_v9 (J : ℕ) (c : Dev nD) : outsB m J main_v9 c = o6 m c := by
  unfold outsB; rw [dif_neg (show ¬ ((main_v9 : Ref sig .tc) = main_v5) from by decide), dif_pos rfl]; rfl
theorem outsKI_v5 (J : ℕ) (c : Dev nD) : outsKI m J main_v5 c = o3 m c := by
  unfold outsKI; rw [dif_pos rfl]; rfl
theorem outsKI_v9 (J : ℕ) (c : Dev nD) : outsKI m J main_v9 c = o6 m c := by
  unfold outsKI; rw [dif_neg (show ¬ ((main_v9 : Ref sig .tc) = main_v5) from by decide), dif_pos rfl]; rfl
theorem outsKI_v14 (J : ℕ) (c : Dev nD) : outsKI m J main_v14 c = o12 m c := by
  unfold outsKI; rw [dif_neg (show ¬ ((main_v14 : Ref sig .tc) = main_v5) from by decide), dif_neg (show ¬ ((main_v14 : Ref sig .tc) = main_v9) from by decide), dif_pos rfl]; rfl

theorem V5_congr (outs outs' : Outs (F := F)) (c : Dev nD) (h : outs 3 main_v5 c = outs' 3 main_v5 c) :
    V5 m outs c = V5 m outs' c := by
  unfold V5 V4 V3; rw [h]

theorem V11_congr (outs outs' : Outs (F := F)) (c : Dev nD) (h : outs 3 main_v5 c = outs' 3 main_v5 c)
    (h' : outs 6 main_v9 c = outs' 6 main_v9 c) : V11 m outs c = V11 m outs' c := by
  unfold V11 V10 V9 V8 V7 V6; rw [V5_congr m outs outs' c h, h']

theorem V5_KI (c : Dev nD) : V5 m (outsKI m) c = V5 m (outsA m) c :=
  V5_congr m _ _ c ((outsKI_v5 m 3 c).trans (outsA_v5 m 3 c).symm)

theorem V11_KI (c : Dev nD) : V11 m (outsKI m) c = V11 m (outsB m) c :=
  V11_congr m _ _ c ((outsKI_v5 m 3 c).trans (outsB_v5 m 3 c).symm) ((outsKI_v9 m 6 c).trans (outsB_v9 m 6 c).symm)
theorem Ve1_KI (c : Dev nD) (b : Ref sig .tc) : Ve1 m c b = V5 m (outsKI m) c b := by rw [V5_KI]
theorem Ve2_KI (c : Dev nD) (b : Ref sig .tc) : Ve2 m c b = V11 m (outsKI m) c b := by rw [V11_KI]

/-- Every region's proof data, each at the contents its region is entered from. -/
def pdats : (p : Fin 3) → (c : Dev nD) → Dat τ (Elt F) Unit ℕ (UR sig nD τ) ℕ (cfgs p) c
  | ⟨0, _⟩ => fun c => dat0 (Ve0 m) c
  | ⟨1, _⟩ => fun c => dat1 (Ve1 m) c
  | ⟨2, _⟩ => fun c => dat2 (Ve2 m) c

abbrev vars0 : Variants := Variants.none
abbrev Lnone : GSem nD τ sig → Finset Unit := fun _ => ∅
abbrev lvz : GSem nD τ sig → Unit → ℕ := fun _ _ => 0

abbrev Rst (c : Dev nD) : sProp 𝕄 :=
  iprop((∃ r, prngReg c r) ∗ ∃ W, owes (c : Thread nD τ) (0 : CellTallies nD τ sig Unit) W)

abbrev Est : Fin 4 → Dev nD → sProp 𝕄 := fun _ c => Rst (F := F) c

theorem hA0 (c : Dev nD) (w : Fin cfg0.W) : (pdats m 0 c).A w = V2 m c (Pipeline.arrRef spec0 w) := rfl

theorem hA1 (c : Dev nD) (w : Fin cfg1.W) : (pdats m 1 c).A w = V5 m (outsKI m) c (Pipeline.arrRef spec1 w) :=
  Ve1_KI m c _

theorem hA2 (c : Dev nD) (w : Fin cfg2.W) : (pdats m 2 c).A w = V11 m (outsKI m) c (Pipeline.arrRef spec2 w) :=
  Ve2_KI m c _

theorem hF0_in (c : Dev nD) (w : Fin cfg0.W) (hin : (cfg0.win w).isOut = false)
    (hne : Pipeline.arrRef spec0 w ∉ ([main_v5] : List (Ref sig .tc))) :
    (pdats m 0 c).arrAt w cfg0.N = V3 m (outsKI m) c (Pipeline.arrRef spec0 w) :=
  ((pdats m 0 c).arrAt_in w hin _).trans ((hA0 m c w).trans (V3_of m (outsKI m) c _ hne).symm)

theorem hF0 (c : Dev nD) : ∀ w : Fin cfg0.W, (pdats m 0 c).arrAt w cfg0.N = V3 m (outsKI m) c (Pipeline.arrRef spec0 w)
  | ⟨0, _⟩ => hF0_in m c (0 : Fin cfg0.W) rfl (by decide)
  | ⟨1, _⟩ => hF0_in m c (1 : Fin cfg0.W) rfl (by decide)
  | ⟨2, _⟩ => hF0_in m c (2 : Fin cfg0.W) rfl (by decide)
  | ⟨3, _⟩ => hF0_in m c (3 : Fin cfg0.W) rfl (by decide)
  | ⟨4, _⟩ => by
    show o3 m c = Function.update (V2 m c) (Proc.devRef .tc main_v5) (outsKI m 3 main_v5 c) (Proc.devRef .tc main_v5)
    rw [Function.update_self, outsKI_v5]

theorem hrest0 (c : Dev nD) (b : Ref sig .tc) (hb : b ∉ Finset.univ.image (Pipeline.arrRef spec0)) :
    V3 m (outsKI m) c b = V2 m c b :=
  V3_of m (outsKI m) c b fun hmem => hb (by
    rw [List.mem_singleton] at hmem; subst hmem
    exact Finset.mem_image.mpr ⟨4, Finset.mem_univ _, rfl⟩)

theorem hF1_in (c : Dev nD) (w : Fin cfg1.W) (hin : (cfg1.win w).isOut = false)
    (hne : Pipeline.arrRef spec1 w ∉ ([main_v9] : List (Ref sig .tc))) :
    (pdats m 1 c).arrAt w cfg1.N = V6 m (outsKI m) c (Pipeline.arrRef spec1 w) :=
  ((pdats m 1 c).arrAt_in w hin _).trans ((hA1 m c w).trans (V6_of m (outsKI m) c _ hne).symm)

theorem hF1 (c : Dev nD) : ∀ w : Fin cfg1.W, (pdats m 1 c).arrAt w cfg1.N = V6 m (outsKI m) c (Pipeline.arrRef spec1 w)
  | ⟨0, _⟩ => hF1_in m c (0 : Fin cfg1.W) rfl (by decide)
  | ⟨1, _⟩ => hF1_in m c (1 : Fin cfg1.W) rfl (by decide)
  | ⟨2, _⟩ => hF1_in m c (2 : Fin cfg1.W) rfl (by decide)
  | ⟨3, _⟩ => hF1_in m c (3 : Fin cfg1.W) rfl (by decide)
  | ⟨4, _⟩ => by
    show o6 m c = Function.update (V5 m (outsKI m) c) (Proc.devRef .tc main_v9) (outsKI m 6 main_v9 c) (Proc.devRef .tc main_v9)
    rw [Function.update_self, outsKI_v9]
theorem hrest1 (c : Dev nD) (b : Ref sig .tc) (hb : b ∉ Finset.univ.image (Pipeline.arrRef spec1)) :
    V6 m (outsKI m) c b = V5 m (outsKI m) c b :=
  V6_of m (outsKI m) c b fun hmem => hb (by
    rw [List.mem_singleton] at hmem; subst hmem
    exact Finset.mem_image.mpr ⟨4, Finset.mem_univ _, rfl⟩)

theorem hF2_in (c : Dev nD) (w : Fin cfg2.W) (hin : (cfg2.win w).isOut = false)
    (hne : Pipeline.arrRef spec2 w ∉ ([main_v14] : List (Ref sig .tc))) :
    (pdats m 2 c).arrAt w cfg2.N = V12 m (outsKI m) c (Pipeline.arrRef spec2 w) :=
  ((pdats m 2 c).arrAt_in w hin _).trans ((hA2 m c w).trans (V12_of m (outsKI m) c _ hne).symm)

theorem hF2 (c : Dev nD) : ∀ w : Fin cfg2.W, (pdats m 2 c).arrAt w cfg2.N = V12 m (outsKI m) c (Pipeline.arrRef spec2 w)
  | ⟨0, _⟩ => hF2_in m c (0 : Fin cfg2.W) rfl (by decide)
  | ⟨1, _⟩ => hF2_in m c (1 : Fin cfg2.W) rfl (by decide)
  | ⟨2, _⟩ => hF2_in m c (2 : Fin cfg2.W) rfl (by decide)
  | ⟨3, _⟩ => hF2_in m c (3 : Fin cfg2.W) rfl (by decide)
  | ⟨4, _⟩ => by
    show o12 m c = Function.update (V11 m (outsKI m) c) (Proc.devRef .tc main_v14) (outsKI m 12 main_v14 c) (Proc.devRef .tc main_v14)
    rw [Function.update_self, outsKI_v14]
theorem hrest2 (c : Dev nD) (b : Ref sig .tc) (hb : b ∉ Finset.univ.image (Pipeline.arrRef spec2)) :
    V12 m (outsKI m) c b = V11 m (outsKI m) c b :=
  V12_of m (outsKI m) c b fun hmem => hb (by
    rw [List.mem_singleton] at hmem; subst hmem
    exact Finset.mem_image.mpr ⟨4, Finset.mem_univ _, rfl⟩)

set_option backward.isDefEq.respectTransparency.types false in
/-- Region 0 over the thread states: its arrays are split out of the unscoped buffers at the entry and put back at the exit. -/
def reg0 : Pipeline.RegionSeg (pcfgs (F := F)) adm (pdats m) () defs₀ vars0 Lnone lvz 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ Lnone lvz 0 fun _ _ => rfl
  pre c := iprop(StableHlo.held (c : Thread nD τ) (Pipeline.ucRefs τ sig) (V2 m c) ∗ Est 0 c)
  post c := iprop(StableHlo.held (c : Thread nD τ) (Pipeline.ucRefs τ sig) (V3 m (outsKI m) c) ∗ Est 1 c)
  X c := iprop(∃ r, prngReg c r)
  Y c := iprop(∃ r, prngReg c r)
  Z c := Pipeline.unscopedRest (Ix := Unit) (Name := ℕ) (U := UR sig nD τ) (Lvl := ℕ) spec0 c (fun b => V2 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V2 m c b) (hA0 m c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    refine entails_trans ?_ (hin0 (Ve0 m) c)
    unfold Pipeline.ΦA
    iintro ⟨Hprng, -, Hsc⟩
    isplitl [Hsc]; · iexact Hsc
    iexact Hprng
  hout c := by
    rw [Pipeline.ownSems0_none]
    refine entails_trans (hout0 (Ve0 m) c) ?_
    unfold Pipeline.ΦA
    iintro ⟨Hsc, Hprng⟩
    isplitl [Hprng]; · iexact Hprng
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V2 m c b) (fun b => V3 m (outsKI m) c b) ((pdats m 0 c).arrAt · cfg0.N) (hF0 m c) (hrest0 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W; iexact Howes

set_option backward.isDefEq.respectTransparency.types false in
def reg1 : Pipeline.RegionSeg (pcfgs (F := F)) adm (pdats m) () defs₀ vars0 Lnone lvz 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ Lnone lvz 1 fun _ _ => rfl
  pre c := iprop(StableHlo.held (c : Thread nD τ) (Pipeline.ucRefs τ sig) (V5 m (outsKI m) c) ∗ Est 1 c)
  post c := iprop(StableHlo.held (c : Thread nD τ) (Pipeline.ucRefs τ sig) (V6 m (outsKI m) c) ∗ Est 2 c)
  X c := iprop(∃ r, prngReg c r)
  Y c := iprop(∃ r, prngReg c r)
  Z c := Pipeline.unscopedRest (Ix := Unit) (Name := ℕ) (U := UR sig nD τ) (Lvl := ℕ) spec1 c (fun b => V5 m (outsKI m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V5 m (outsKI m) c b) (hA1 m c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    refine entails_trans ?_ (hin1 (Ve1 m) c)
    unfold Pipeline.ΦA
    iintro ⟨Hprng, -, Hsc⟩
    isplitl [Hsc]; · iexact Hsc
    iexact Hprng
  hout c := by
    rw [Pipeline.ownSems0_none]
    refine entails_trans (hout1 (Ve1 m) c) ?_
    unfold Pipeline.ΦA
    iintro ⟨Hsc, Hprng⟩
    isplitl [Hprng]; · iexact Hprng
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V5 m (outsKI m) c b) (fun b => V6 m (outsKI m) c b) ((pdats m 1 c).arrAt · cfg1.N) (hF1 m c) (hrest1 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W; iexact Howes

set_option backward.isDefEq.respectTransparency.types false in
def reg2 : Pipeline.RegionSeg (pcfgs (F := F)) adm (pdats m) () defs₀ vars0 Lnone lvz 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ Lnone lvz 2 fun _ _ => rfl
  pre c := iprop(StableHlo.held (c : Thread nD τ) (Pipeline.ucRefs τ sig) (V11 m (outsKI m) c) ∗ Est 2 c)
  post c := iprop(StableHlo.held (c : Thread nD τ) (Pipeline.ucRefs τ sig) (V12 m (outsKI m) c) ∗ Est 3 c)
  X c := iprop(∃ r, prngReg c r)
  Y c := iprop(∃ r, prngReg c r)
  Z c := Pipeline.unscopedRest (Ix := Unit) (Name := ℕ) (U := UR sig nD τ) (Lvl := ℕ) spec2 c (fun b => V11 m (outsKI m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V11 m (outsKI m) c b) (hA2 m c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    refine entails_trans ?_ (hin2 (Ve2 m) c)
    unfold Pipeline.ΦA
    iintro ⟨Hprng, -, Hsc⟩
    isplitl [Hsc]; · iexact Hsc
    iexact Hprng
  hout c := by
    rw [Pipeline.ownSems0_none]
    refine entails_trans (hout2 (Ve2 m) c) ?_
    unfold Pipeline.ΦA
    iintro ⟨Hsc, Hprng⟩
    isplitl [Hprng]; · iexact Hprng
    isplitr; · iempintro
    iexact Hsc
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V11 m (outsKI m) c b) (fun b => V12 m (outsKI m) c b) ((pdats m 2 c).arrAt · cfg2.N) (hF2 m c) (hrest2 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W; iexact Howes

/-- The frame: every weakly fair execution terminates, nothing faulting, with every argument array as launched. -/
theorem frameKI (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m emb₁ () vars0 Lnone lvz (fun _ _ => rfl) ρ (outsKI m) (pdats m)
    (O₀ := 0) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Est)
    (hE0 := by
      refine Pipeline.initEach Lnone lvz fun c => ?_
      iintro ⟨⟨-, Howes, -, Hprng, -⟩, -⟩
      imodintro
      isplitl [Hprng]; · iexists _; iexact Hprng
      iexists ∅; iexact Howes)
    (hE3 := fun c => by iintro ⟨-, Howes⟩; iexact Howes)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.KernelIdeal.Gen

end
-- ==== Proof.KI.RunValue.lean ====
import proofs.«422338_j11269994185272_3_alg».proof.Proof.KI.Regs
import proofs.«422338_j11269994185272_3_alg».proof.Proof.KI.RegionsValue

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem runKI (ρ : Dev nD → PrngReg) :
    θ_run defs (onTc (τ := τ) (main (F := F))) ⟨m, fun _ => 0, ρ⟩ (fun r => ∀ c : Dev nD,
      r.2.mem ((c.tc : Thread nD τ).loc main_v20) = V13 m (outsKI m) c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond_value m emb₁ () vars0 Lnone lvz (fun _ _ => rfl) ρ (outsKI m) (pdats m)
    (O₀ := 0) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Est)
    (hE0 := by
      refine Pipeline.initEach Lnone lvz fun c => ?_
      iintro ⟨⟨-, Howes, -, Hprng, -⟩, -⟩
      imodintro
      isplitl [Hprng]; · iexists _; iexact Hprng
      iexists ∅; iexact Howes)
    (hE3 := fun c => by iintro ⟨-, Howes⟩; iexact Howes)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.KernelIdeal.Gen

end
-- ==== Proof.KI.Host.lean ====
import proofs.«422338_j11269994185272_3_alg».proof.Proof.Gen.KernelIdeal.Regions
import Idealize.ShloMosaic.Lib.StableHlo.Run
import Idealize.ShloMosaic.Lib.ValueIdx
import Idealize.ShloMosaic.Lib.ValueLayout
import Idealize.ShloMosaic.Lib.KernelVsHost
import Idealize.ShloMosaic.Lib.IdealHost
import Idealize.ShloMosaic.Lib.Pipeline.Value
import Idealize.ShloMosaic.PureOps.Ideal.Laws
import Mathlib.Algebra.BigOperators.Fin

noncomputable section

namespace Cert.KernelIdeal.Gen.HostSide

open Idealize.ShloMosaic Idealize.ShloMosaic.TcCoe Idealize.ShloMosaic.ValueIdx Idealize.ShloMosaic.StableHlo
open Idealize.SL.Sem
open scoped BigOperators

theorem sitofp_zero (φ : FTy) : (FloatOps.sitofp (F := Ideal) φ (0#32 : BitVec 32) : EReal) = 0 := by
  show (((0#32 : BitVec 32).toInt : ℝ) : EReal) = 0
  simp

theorem ofBits_4096 : Ideal.ofBits .f32 0x45800000#32 = (4096 : EReal) := by
  rw [show (4096 : EReal) = ((4096 : ℝ) : EReal) by norm_cast]
  simp [Ideal.ofBits, Ideal.ieee, -EReal.coe_mul]; norm_num

theorem sum_column {n : Nat} (x : (⟨2, ![n, 1]⟩ : Shape).Idx → EReal) :
    ∑ i : (⟨2, ![n, 1]⟩ : Shape).Idx, x i = ∑ p : Fin n, x (ix2 p (0 : Fin 1)) := by
  rw [sum_idx2]
  exact Finset.sum_congr rfl fun p _ => Fin.sum_univ_one _

def colSum (x : S4096x1.Idx → EReal) : EReal := ∑ p : Fin 4096, x (ix2 p (0 : Fin 1))

theorem pad_cols_apply {r n n' hi : Nat} (x : (⟨2, ![r, n]⟩ : Shape).Idx → EReal) (v : S_.Idx → EReal)
    (h : (⟨2, ![r, n]⟩ : Shape).Pads (![0, 0] : Fin 2 → Nat) ![0, hi] ![0, 0] ⟨2, ![r, n']⟩) (hu : 0 < S_.numel)
    (d : Fin r) (k : Fin n') :
    pad (⟨2, ![r, n']⟩ : Shape) (![0, 0] : Fin 2 → Nat) ![0, hi] ![0, 0] x v h hu (ix2 d k)
      = if hk : k.val < n then x (ix2 d ⟨k.val, hk⟩) else v (Shape.Idx.first hu) := by
  by_cases hk : k.val < n
  · rw [dif_pos hk]
    refine pad_apply_of_inside _ _ _ x v h hu (ix2 d k) (ix2 d ⟨k.val, hk⟩) fun a => ?_
    match a with
    | ⟨0, _⟩ => show d.val = 0 + d.val * (0 + 1); omega
    | ⟨1, _⟩ => show k.val = 0 + k.val * (0 + 1); omega
  · rw [dif_neg hk]
    refine pad_apply_of_not_inside _ _ _ x v h hu (ix2 d k) (1 : Fin 2) fun hin => hk ?_
    have h3 : (k.val - 0) / (0 + 1) < n := hin.2.2
    omega

theorem pad_vec_apply {n n' hi : Nat} (x : (⟨1, ![n]⟩ : Shape).Idx → EReal) (v : S_.Idx → EReal)
    (h : (⟨1, ![n]⟩ : Shape).Pads (![0] : Fin 1 → Nat) ![hi] ![0] ⟨1, ![n']⟩) (hu : 0 < S_.numel)
    (k : Fin n') :
    pad (⟨1, ![n']⟩ : Shape) (![0] : Fin 1 → Nat) ![hi] ![0] x v h hu (ix1 k)
      = if hk : k.val < n then x (ix1 ⟨k.val, hk⟩) else v (Shape.Idx.first hu) := by
  by_cases hk : k.val < n
  · rw [dif_pos hk]
    refine pad_apply_of_inside _ _ _ x v h hu (ix1 k) (ix1 ⟨k.val, hk⟩) fun a => ?_
    match a with
    | ⟨0, _⟩ => show k.val = 0 + k.val * (0 + 1); omega
  · rw [dif_neg hk]
    refine pad_apply_of_not_inside _ _ _ x v h hu (ix1 k) (0 : Fin 1) fun hin => hk ?_
    have h3 : (k.val - 0) / (0 + 1) < n := hin.2.2
    omega

theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem pad_cols_zero_apply {r n n' hi : Nat} {φ : FTy} (x x' : (⟨2, ![r, n]⟩ : Shape).Idx → EReal) (w : IVec S_ 32)
    (hx : x = x') (hw : w = constantI S_ 32 0#32)
    (h : (⟨2, ![r, n]⟩ : Shape).Pads (![0, 0] : Fin 2 → Nat) ![0, hi] ![0, 0] ⟨2, ![r, n']⟩) (hu : 0 < S_.numel)
    (d : Fin r) (k : Fin n') :
    pad (⟨2, ![r, n']⟩ : Shape) (![0, 0] : Fin 2 → Nat) ![0, hi] ![0, 0] x (sitofp φ w : FVec Ideal S_ φ) h hu (ix2 d k)
      = if hk : k.val < n then x' (ix2 d ⟨k.val, hk⟩) else 0 := by
  subst hx hw
  rw [pad_cols_apply]
  by_cases hk : k.val < n
  · rw [dif_pos hk, dif_pos hk]
  · rw [dif_neg hk, dif_neg hk]; exact sitofp_zero φ

theorem pad_vec_zero_apply {n n' hi : Nat} {φ : FTy} (x x' : (⟨1, ![n]⟩ : Shape).Idx → EReal) (w : IVec S_ 32)
    (hx : x = x') (hw : w = constantI S_ 32 0#32)
    (h : (⟨1, ![n]⟩ : Shape).Pads (![0] : Fin 1 → Nat) ![hi] ![0] ⟨1, ![n']⟩) (hu : 0 < S_.numel)
    (k : Fin n') :
    pad (⟨1, ![n']⟩ : Shape) (![0] : Fin 1 → Nat) ![hi] ![0] x (sitofp φ w : FVec Ideal S_ φ) h hu (ix1 k)
      = if hk : k.val < n then x' (ix1 ⟨k.val, hk⟩) else 0 := by
  subst hx hw
  rw [pad_vec_apply]
  by_cases hk : k.val < n
  · rw [dif_pos hk, dif_pos hk]
  · rw [dif_neg hk, dif_neg hk]; exact sitofp_zero φ

section Stretches

variable (W : Valuation τ sig (Elt Ideal))

theorem ops0_v0 : (after (hostOps0 (F := Ideal)) W (Proc.devRef .tc main_v0) : S4096x1024.Idx → EReal)
    = (W (Proc.devRef .tc main_arg0) : S4096x1024.Idx → EReal) := by
  dsimp only [hostOps0]; after_results <;> rfl

theorem ops0_v1 : (after (hostOps0 (F := Ideal)) W (Proc.devRef .tc main_v1) : S4096x1.Idx → BitVec 32)
    = shapeCast S4096x1 (W (Proc.devRef .tc main_arg1) : S4096.Idx → BitVec 32) shapeCasts_S4096_S4096x1 := by
  dsimp only [hostOps0]; after_results <;> rfl

theorem ops0_v2 : (after (hostOps0 (F := Ideal)) W (Proc.devRef .tc main_v2) : S1024x1024.Idx → EReal)
    = (W (Proc.devRef .tc main_arg4) : S1024x1024.Idx → EReal) := by
  dsimp only [hostOps0]; after_results <;> rfl

theorem ops0_v3 : (after (hostOps0 (F := Ideal)) W (Proc.devRef .tc main_v3) : S1024x16000.Idx → EReal)
    = (W (Proc.devRef .tc main_arg5) : S1024x16000.Idx → EReal) := by
  dsimp only [hostOps0]; after_results <;> rfl

theorem ops0_c : (after (hostOps0 (F := Ideal)) W (Proc.devRef .tc main_c) : S_.Idx → BitVec 32)
    = constantI S_ 32 0#32 := by
  dsimp only [hostOps0]; after_results <;> rfl

theorem ops0_1_v4 : (after (hostOps0_1 (F := Ideal)) W (Proc.devRef .tc main_v4) : S1024x16384.Idx → EReal)
    = pad S1024x16384 (![0, 0] : Fin 2 → Nat) ![0, 384] ![0, 0] (W (Proc.devRef .tc main_v3) : S1024x16000.Idx → EReal)
        (sitofp .bf16 (W (Proc.devRef .tc main_c) : IVec S_ 32) : FVec Ideal S_ .bf16)
        pads_S1024x16000_S1024x16384_000_03840 h_S_ := by
  dsimp only [hostOps0_1]; after_results <;> rfl

theorem ops1_v6 : (after (hostOps1 (F := Ideal)) W (Proc.devRef .tc main_v6) : S1024x256.Idx → EReal)
    = (W (Proc.devRef .tc main_arg6) : S1024x256.Idx → EReal) := by
  dsimp only [hostOps1]; after_results <;> rfl
theorem ops1_v7 : (after (hostOps1 (F := Ideal)) W (Proc.devRef .tc main_v7) : S256x30000.Idx → EReal)
    = (W (Proc.devRef .tc main_arg7) : S256x30000.Idx → EReal) := by
  dsimp only [hostOps1]; after_results <;> rfl
theorem ops1_c : (after (hostOps1 (F := Ideal)) W (Proc.devRef .tc main_c_0) : S_.Idx → BitVec 32)
    = constantI S_ 32 0#32 := by
  dsimp only [hostOps1]; after_results <;> rfl

theorem ops1_1_v8 : (after (hostOps1_1 (F := Ideal)) W (Proc.devRef .tc main_v8) : S256x30720.Idx → EReal)
    = pad S256x30720 (![0, 0] : Fin 2 → Nat) ![0, 720] ![0, 0] (W (Proc.devRef .tc main_v7) : S256x30000.Idx → EReal)
        (sitofp .bf16 (W (Proc.devRef .tc main_c_0) : IVec S_ 32) : FVec Ideal S_ .bf16)
        pads_S256x30000_S256x30720_000_07200 h_S_ := by
  dsimp only [hostOps1_1]; after_results <;> rfl

theorem ops2_v10 : (after (hostOps2 (F := Ideal)) W (Proc.devRef .tc main_v10) : S1024x4002.Idx → EReal)
    = (W (Proc.devRef .tc main_arg2) : S1024x4002.Idx → EReal) := by
  dsimp only [hostOps2]; after_results <;> rfl
theorem ops2_c : (after (hostOps2 (F := Ideal)) W (Proc.devRef .tc main_c_1) : S_.Idx → BitVec 32)
    = constantI S_ 32 0#32 := by
  dsimp only [hostOps2]; after_results <;> rfl

theorem ops2_1_v11 : (after (hostOps2_1 (F := Ideal)) W (Proc.devRef .tc main_v11) : S1024x4096.Idx → EReal)
    = pad S1024x4096 (![0, 0] : Fin 2 → Nat) ![0, 94] ![0, 0] (W (Proc.devRef .tc main_v10) : S1024x4002.Idx → EReal)
        (sitofp .bf16 (W (Proc.devRef .tc main_c_1) : IVec S_ 32) : FVec Ideal S_ .bf16)
        pads_S1024x4002_S1024x4096_000_0940 h_S_ := by
  dsimp only [hostOps2_1]; after_results <;> rfl

theorem ops2_2_c : (after (hostOps2_2 (F := Ideal)) W (Proc.devRef .tc main_c_2) : S_.Idx → BitVec 32)
    = constantI S_ 32 0#32 := by
  dsimp only [hostOps2_2]; after_results <;> rfl

theorem ops2_3_v12 : (after (hostOps2_3 (F := Ideal)) W (Proc.devRef .tc main_v12) : S4096.Idx → EReal)
    = pad S4096 (![0] : Fin 1 → Nat) ![94] ![0] (W (Proc.devRef .tc main_arg3) : S4002.Idx → EReal)
        (sitofp .f32 (W (Proc.devRef .tc main_c_2) : IVec S_ 32) : FVec Ideal S_ .f32)
        pads_S4002_S4096_0940 h_S_ := by
  dsimp only [hostOps2_3]; after_results <;> rfl

theorem ops2_4_v13 : (after (hostOps2_4 (F := Ideal)) W (Proc.devRef .tc main_v13) : S1x4096.Idx → EReal)
    = shapeCast S1x4096 (W (Proc.devRef .tc main_v12) : S4096.Idx → EReal) shapeCasts_S4096_S1x4096 := by
  dsimp only [hostOps2_4]; after_results <;> rfl

theorem hostSum_column (x : FVec Ideal S4096x1 .f32) (j : S_.Idx) :
    Host.reduceAdd x (constant (F := Ideal) S_ .f32 0x00000000#32) reducesTo_S4096x1_S_d0_1 h_S_ j
      = colSum x := by
  rw [hostReduceAdd_apply, Ideal.hostReduceAdd_total _ (fun b => b.elim0), constant_apply, Ideal.ofBits_zero_f32, zero_add]
  exact sum_column x

theorem ops3_v20 : (after (hostOps3 (F := Ideal)) W (Proc.devRef .tc main_v20) : S_.Idx → EReal)
    = Host.divf
        (addf
          (addf
            (Host.reduceAdd (W (Proc.devRef .tc main_v5) : FVec Ideal S4096x1 .f32) (constant (F := Ideal) S_ .f32 0x00000000#32) reducesTo_S4096x1_S_d0_1 h_S_)
            (Host.reduceAdd (W (Proc.devRef .tc main_v9) : FVec Ideal S4096x1 .f32) (constant (F := Ideal) S_ .f32 0x00000000#32) reducesTo_S4096x1_S_d0_1 h_S_))
          (Host.reduceAdd (W (Proc.devRef .tc main_v14) : FVec Ideal S4096x1 .f32) (constant (F := Ideal) S_ .f32 0x00000000#32) reducesTo_S4096x1_S_d0_1 h_S_))
        (constant (F := Ideal) S_ .f32 0x45800000#32) := by
  dsimp only [hostOps3]; after_results <;> rfl

theorem ops3_v20_apply (j : S_.Idx) :
    (after (hostOps3 (F := Ideal)) W (Proc.devRef .tc main_v20) : S_.Idx → EReal) j
      = Ideal.div
          ((colSum (W (Proc.devRef .tc main_v5)) + colSum (W (Proc.devRef .tc main_v9))) + colSum (W (Proc.devRef .tc main_v14)))
          4096 := by
  rw [ops3_v20, hostDivf_apply, addf_apply, addf_apply, hostSum_column, hostSum_column, hostSum_column, constant_apply, ofBits_4096]

end Stretches

section Entries

variable (m : (ℓ : Loc nD τ sig) → Buf (Elt Ideal) ℓ) (outs : Outs (F := Ideal)) (c : Dev nD)

theorem V3_arg6 : V3 m outs c main_arg6 = m ((c : Thread nD τ).loc main_arg6) :=
  (V3_of m outs c main_arg6 (by decide)).trans <| (V2_of m c main_arg6 (by decide)).trans <| (V1_of m c main_arg6 (by decide)).trans rfl
theorem V3_arg7 : V3 m outs c main_arg7 = m ((c : Thread nD τ).loc main_arg7) :=
  (V3_of m outs c main_arg7 (by decide)).trans <| (V2_of m c main_arg7 (by decide)).trans <| (V1_of m c main_arg7 (by decide)).trans rfl
theorem V6_arg2 : V6 m outs c main_arg2 = m ((c : Thread nD τ).loc main_arg2) :=
  (V6_of m outs c main_arg2 (by decide)).trans <| (V5_of m outs c main_arg2 (by decide)).trans <| (V4_of m outs c main_arg2 (by decide)).trans <|
    (V3_of m outs c main_arg2 (by decide)).trans <| (V2_of m c main_arg2 (by decide)).trans <| (V1_of m c main_arg2 (by decide)).trans rfl
theorem V9_arg3 : V9 m outs c main_arg3 = m ((c : Thread nD τ).loc main_arg3) :=
  (V9_of m outs c main_arg3 (by decide)).trans <| (V8_of m outs c main_arg3 (by decide)).trans <| (V7_of m outs c main_arg3 (by decide)).trans <|
    (V6_of m outs c main_arg3 (by decide)).trans <| (V5_of m outs c main_arg3 (by decide)).trans <| (V4_of m outs c main_arg3 (by decide)).trans <|
    (V3_of m outs c main_arg3 (by decide)).trans <| (V2_of m c main_arg3 (by decide)).trans <| (V1_of m c main_arg3 (by decide)).trans rfl

theorem e0_v0 : (V2 m c main_v0 : S4096x1024.Idx → EReal) = m ((c : Thread nD τ).loc main_arg0) :=
  (V2_of m c main_v0 (by decide)).trans (ops0_v0 (V0 m c))

theorem e0_v1 (p : Fin 4096) : (V2 m c main_v1 : S4096x1.Idx → BitVec 32) (ix2 p (0 : Fin 1))
    = (m ((c : Thread nD τ).loc main_arg1) : S4096.Idx → BitVec 32) (ix1 p) :=
  (congrFun ((V2_of m c main_v1 (by decide)).trans (ops0_v1 (V0 m c))) (ix2 p (0 : Fin 1))).trans
    (shapeCast_a_a1_apply _ _ p 0)

theorem e0_v2 : (V2 m c main_v2 : S1024x1024.Idx → EReal) = m ((c : Thread nD τ).loc main_arg4) :=
  (V2_of m c main_v2 (by decide)).trans (ops0_v2 (V0 m c))

theorem e0_v4 (d : Fin 1024) (k : Fin 16384) : (V2 m c main_v4 : S1024x16384.Idx → EReal) (ix2 d k)
    = (if h : k.val < 16000 then (m ((c : Thread nD τ).loc main_arg5) : S1024x16000.Idx → EReal) (ix2 d ⟨k.val, h⟩) else 0 : EReal) :=
  (congrFun (ops0_1_v4 (V1 m c)) (ix2 d k)).trans
    (pad_cols_zero_apply _ _ _ (ops0_v3 (V0 m c)) (ops0_c (V0 m c)) _ _ d k)

theorem e1_v0 : (V5 m outs c main_v0 : S4096x1024.Idx → EReal) = m ((c : Thread nD τ).loc main_arg0) :=
  (V5_of m outs c main_v0 (by decide)).trans <| (V4_of m outs c main_v0 (by decide)).trans <|
    (V3_of m outs c main_v0 (by decide)).trans (e0_v0 m c)
theorem e1_v1 (p : Fin 4096) : (V5 m outs c main_v1 : S4096x1.Idx → BitVec 32) (ix2 p (0 : Fin 1))
    = (m ((c : Thread nD τ).loc main_arg1) : S4096.Idx → BitVec 32) (ix1 p) :=
  (congrFun ((V5_of m outs c main_v1 (by decide)).trans <| (V4_of m outs c main_v1 (by decide)).trans
    (V3_of m outs c main_v1 (by decide))) (ix2 p (0 : Fin 1))).trans (e0_v1 m c p)

theorem e1_v6 : (V5 m outs c main_v6 : S1024x256.Idx → EReal) = m ((c : Thread nD τ).loc main_arg6) :=
  (V5_of m outs c main_v6 (by decide)).trans <| (ops1_v6 (V3 m outs c)).trans (V3_arg6 m outs c)

theorem e1_v8 (d : Fin 256) (k : Fin 30720) : (V5 m outs c main_v8 : S256x30720.Idx → EReal) (ix2 d k)
    = (if h : k.val < 30000 then (m ((c : Thread nD τ).loc main_arg7) : S256x30000.Idx → EReal) (ix2 d ⟨k.val, h⟩) else 0 : EReal) :=
  (congrFun (ops1_1_v8 (V4 m outs c)) (ix2 d k)).trans
    (pad_cols_zero_apply _ _ _ ((ops1_v7 (V3 m outs c)).trans (V3_arg7 m outs c)) (ops1_c (V3 m outs c)) _ _ d k)

theorem e2_v0 : (V11 m outs c main_v0 : S4096x1024.Idx → EReal) = m ((c : Thread nD τ).loc main_arg0) :=
  (V11_of m outs c main_v0 (by decide)).trans <| (V10_of m outs c main_v0 (by decide)).trans <|
    (V9_of m outs c main_v0 (by decide)).trans <| (V8_of m outs c main_v0 (by decide)).trans <|
    (V7_of m outs c main_v0 (by decide)).trans <| (V6_of m outs c main_v0 (by decide)).trans (e1_v0 m outs c)
theorem e2_v1 (p : Fin 4096) : (V11 m outs c main_v1 : S4096x1.Idx → BitVec 32) (ix2 p (0 : Fin 1))
    = (m ((c : Thread nD τ).loc main_arg1) : S4096.Idx → BitVec 32) (ix1 p) :=
  (congrFun ((V11_of m outs c main_v1 (by decide)).trans <| (V10_of m outs c main_v1 (by decide)).trans <|
    (V9_of m outs c main_v1 (by decide)).trans <| (V8_of m outs c main_v1 (by decide)).trans <|
    (V7_of m outs c main_v1 (by decide)).trans (V6_of m outs c main_v1 (by decide))) (ix2 p (0 : Fin 1))).trans (e1_v1 m outs c p)

theorem e2_v11 (d : Fin 1024) (k : Fin 4096) : (V11 m outs c main_v11 : S1024x4096.Idx → EReal) (ix2 d k)
    = (if h : k.val < 4002 then (m ((c : Thread nD τ).loc main_arg2) : S1024x4002.Idx → EReal) (ix2 d ⟨k.val, h⟩) else 0 : EReal) :=
  (congrFun ((V11_of m outs c main_v11 (by decide)).trans <| (V10_of m outs c main_v11 (by decide)).trans <|
    (V9_of m outs c main_v11 (by decide)).trans (ops2_1_v11 (V7 m outs c))) (ix2 d k)).trans
    (pad_cols_zero_apply _ _ _ ((ops2_v10 (V6 m outs c)).trans (V6_arg2 m outs c)) (ops2_c (V6 m outs c)) _ _ d k)

theorem e2_v13 (k : Fin 4096) : (V11 m outs c main_v13 : S1x4096.Idx → EReal) (ix2 (0 : Fin 1) k)
    = (if h : k.val < 4002 then (m ((c : Thread nD τ).loc main_arg3) : S4002.Idx → EReal) (ix1 ⟨k.val, h⟩) else 0 : EReal) :=
  (congrFun (ops2_4_v13 (V10 m outs c)) (ix2 (0 : Fin 1) k)).trans <|
    (shapeCast_a_1a_apply _ _ (0 : Fin 1) k).trans <|
    (congrFun (ops2_3_v12 (V9 m outs c)) (ix1 k)).trans
      (pad_vec_zero_apply _ _ _ (V9_arg3 m outs c) (ops2_2_c (V8 m outs c)) _ _ k)

theorem V12_v5 : V12 m outs c main_v5 = outs 3 main_v5 c :=
  (V12_of m outs c main_v5 (by decide)).trans <| (V11_of m outs c main_v5 (by decide)).trans <|
    (V10_of m outs c main_v5 (by decide)).trans <| (V9_of m outs c main_v5 (by decide)).trans <|
    (V8_of m outs c main_v5 (by decide)).trans <| (V7_of m outs c main_v5 (by decide)).trans <|
    (V6_of m outs c main_v5 (by decide)).trans <| (V5_of m outs c main_v5 (by decide)).trans <|
    (V4_of m outs c main_v5 (by decide)).trans (Function.update_self _ _ _)
theorem V12_v9 : V12 m outs c main_v9 = outs 6 main_v9 c :=
  (V12_of m outs c main_v9 (by decide)).trans <| (V11_of m outs c main_v9 (by decide)).trans <|
    (V10_of m outs c main_v9 (by decide)).trans <| (V9_of m outs c main_v9 (by decide)).trans <|
    (V8_of m outs c main_v9 (by decide)).trans <| (V7_of m outs c main_v9 (by decide)).trans (Function.update_self _ _ _)
theorem V12_v14 : V12 m outs c main_v14 = outs 12 main_v14 c := Function.update_self _ _ _

/-- The program's result is the sum of the three result columns' sums, over the number of rows. -/
theorem result_value (j : S_.Idx) : (V13 m outs c main_v20 : S_.Idx → EReal) j
    = Ideal.div
        ((colSum (outs 3 main_v5 c) + colSum (outs 6 main_v9 c)) + colSum (outs 12 main_v14 c))
        4096 := by
  refine (ops3_v20_apply (V12 m outs c) j).trans ?_
  rw [show V12 m outs c (Proc.devRef .tc main_v5) = outs 3 main_v5 c from V12_v5 m outs c,
    show V12 m outs c (Proc.devRef .tc main_v9) = outs 6 main_v9 c from V12_v9 m outs c,
    show V12 m outs c (Proc.devRef .tc main_v14) = outs 12 main_v14 c from V12_v14 m outs c]

end Entries

end Cert.KernelIdeal.Gen.HostSide

end
-- ==== Proof.KI.Val0.lean ====
import proofs.«422338_j11269994185272_3_alg».proof.Proof.KI.Step
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val0

open Idealize.ShloMosaic Idealize.ShloMosaic.ValueIdx Cert.KernelIdeal Cert.KernelIdeal.Gen

section Layout
variable {α : Type}

theorem shapeCast_a_a1_apply {a : Nat} (v : (⟨1, ![a]⟩ : Shape).Idx → α)
    (h : (⟨1, ![a]⟩ : Shape).ShapeCasts ⟨2, ![a, 1]⟩) (q : Fin a) (u : Fin 1) :
    shapeCast ⟨2, ![a, 1]⟩ v h (ix2 q u) = v (ix1 q) :=
  shapeCast_apply v h (ix2 q u) (ix1 q) (by
    rw [Shape.rowMajor_val_one, Shape.rowMajor_val_two]
    show q.val = q.val * 1 + u.val
    have := u.isLt
    omega)

theorem broadcastTo_a1_ab_apply {a b : Nat} (v : (⟨2, ![a, 1]⟩ : Shape).Idx → α)
    (h : (⟨2, ![a, 1]⟩ : Shape).Broadcasts ⟨2, ![a, b]⟩) (q : Fin a) (j : Fin b) :
    broadcastTo ⟨2, ![a, b]⟩ v h (ix2 q j) = v (ix2 q (0 : Fin 1)) :=
  broadcastTo_apply v h (ix2 q j) (ix2 q (0 : Fin 1)) (fun ax => by
    match ax with
    | ⟨0, _⟩ =>
      by_cases h1 : a = 1
      · subst h1
        show q.val = if (1 : Nat) = 1 then 0 else q.val
        rw [if_pos rfl]; have := q.isLt; omega
      · show q.val = if a = 1 then 0 else q.val
        rw [if_neg h1]
    | ⟨1, _⟩ => rfl)

end Layout

theorem colWord_toInt (c w j : Nat) (h : c * w + j < 2 ^ 31) (hc : c < 2 ^ 31) (hw : w < 2 ^ 31) :
    (BitVec.ofNat 32 c * BitVec.ofNat 32 w + BitVec.ofNat 32 j).toInt = ((c * w + j : Nat) : Int) := by
  have hj : j < 2 ^ 31 := by omega
  have hcw : c * w < 2 ^ 31 := by omega
  rw [BitVec.toInt_eq_toNat_cond]
  simp only [BitVec.toNat_add, BitVec.toNat_mul, BitVec.toNat_ofNat]
  rw [Nat.mod_eq_of_lt (show c < 2 ^ 32 by omega), Nat.mod_eq_of_lt (show w < 2 ^ 32 by omega),
    Nat.mod_eq_of_lt (show j < 2 ^ 32 by omega), Nat.mod_eq_of_lt (show c * w < 2 ^ 32 by omega),
    Nat.mod_eq_of_lt (show c * w + j < 2 ^ 32 by omega)]
  rw [if_pos (by omega)]

theorem sub_toInt (t : BitVec 32) (lo : Nat) (ht0 : 0 ≤ t.toInt) (hlo : lo < 2 ^ 31) :
    (t - BitVec.ofNat 32 lo).toInt = t.toInt - (lo : Int) := by
  have h1 := BitVec.toInt_eq_toNat_cond t
  have h2 := BitVec.toInt_eq_toNat_cond (t - BitVec.ofNat 32 lo)
  have h3 := t.isLt
  rw [BitVec.toNat_sub, BitVec.toNat_ofNat, Nat.mod_eq_of_lt (show lo < 2 ^ 32 by omega)] at h2
  split_ifs at h1 h2 <;> omega

theorem colWord_eq_sub_iff (c w j lo : Nat) (t : BitVec 32) (h : c * w + j < 2 ^ 31) (hc : c < 2 ^ 31) (hw : w < 2 ^ 31)
    (hlo : lo < 2 ^ 31) (ht0 : 0 ≤ t.toInt) :
    BitVec.ofNat 32 c * BitVec.ofNat 32 w + BitVec.ofNat 32 j = t - BitVec.ofNat 32 lo
      ↔ ((c * w + j : Nat) : Int) = t.toInt - (lo : Int) := by
  rw [← BitVec.toInt_inj, colWord_toInt c w j h hc hw, sub_toInt t lo ht0 hlo]

theorem lhsW2_0 (i : S2048x512.Idx) (k : dot_S2048x1024_S1024x512_S2048x512_1_0_0_1_n_n.contr.Idx) :
    (dot_S2048x1024_S1024x512_S2048x512_1_0_0_1_n_n.lhsIdx i k 0).val = (i 0).val := by
  unfold DotDims.lhsIdx
  rw [dif_neg (show ¬(0 : Fin S2048x1024.rank) ∈ dot_S2048x1024_S1024x512_S2048x512_1_0_0_1_n_n.lhsBatch by decide),
    dif_pos (show (0 : Fin S2048x1024.rank) ∈ dot_S2048x1024_S1024x512_S2048x512_1_0_0_1_n_n.lhsNonContracting by decide)]
  rfl
theorem lhsW2_1 (i : S2048x512.Idx) (k : dot_S2048x1024_S1024x512_S2048x512_1_0_0_1_n_n.contr.Idx) :
    (dot_S2048x1024_S1024x512_S2048x512_1_0_0_1_n_n.lhsIdx i k 1).val = (k ⟨0, by decide⟩).val :=
  dot_S2048x1024_S1024x512_S2048x512_1_0_0_1_n_n.lhsIdx_val_of_single rfl i k
theorem rhsW2_0 (i : S2048x512.Idx) (k : dot_S2048x1024_S1024x512_S2048x512_1_0_0_1_n_n.contr.Idx) :
    (dot_S2048x1024_S1024x512_S2048x512_1_0_0_1_n_n.rhsIdx i k 0).val = (k ⟨0, by decide⟩).val :=
  dot_S2048x1024_S1024x512_S2048x512_1_0_0_1_n_n.rhsIdx_val_of_single rfl i k
theorem rhsW2_1 (i : S2048x512.Idx) (k : dot_S2048x1024_S1024x512_S2048x512_1_0_0_1_n_n.contr.Idx) :
    (dot_S2048x1024_S1024x512_S2048x512_1_0_0_1_n_n.rhsIdx i k 1).val = (i 1).val := by
  unfold DotDims.rhsIdx
  rw [dif_neg (show ¬(1 : Fin S1024x512.rank) ∈ dot_S2048x1024_S1024x512_S2048x512_1_0_0_1_n_n.rhsBatch by decide),
    dif_pos (show (1 : Fin S1024x512.rank) ∈ dot_S2048x1024_S1024x512_S2048x512_1_0_0_1_n_n.rhsNonContracting by decide)]
  rfl

theorem matmulW2_apply (a : FVec Ideal S2048x1024 .bf16) (b : FVec Ideal S1024x512 .bf16) (q : Fin 2048) (j : Fin 512) :
    matmul (F := Ideal) dot_S2048x1024_S1024x512_S2048x512_1_0_0_1_n_n none a b
        (constant (F := Ideal) S2048x512 .f32 0x00000000#32) (ix2 q j)
      = ∑ k : Fin 1024, a (ix2 q k) * b (ix2 k j) := by
  simp only [matmul]
  rw [Ideal.matmul_constant_zero_apply,
    ← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  have el : dot_S2048x1024_S1024x512_S2048x512_1_0_0_1_n_n.lhsIdx (ix2 q j)
      ((contrEquiv1 dot_S2048x1024_S1024x512_S2048x512_1_0_0_1_n_n 1024 rfl rfl).symm k) = ix2 q k :=
    funext fun ax => Fin.ext (by
      match ax with
      | ⟨0, _⟩ => exact lhsW2_0 _ _
      | ⟨1, _⟩ => exact (lhsW2_1 _ _).trans hk)
  have er : dot_S2048x1024_S1024x512_S2048x512_1_0_0_1_n_n.rhsIdx (ix2 q j)
      ((contrEquiv1 dot_S2048x1024_S1024x512_S2048x512_1_0_0_1_n_n 1024 rfl rfl).symm k) = ix2 k j :=
    funext fun ax => Fin.ext (by
      match ax with
      | ⟨0, _⟩ => exact (rhsW2_0 _ _).trans hk
      | ⟨1, _⟩ => exact rhsW2_1 _ _)
  rw [el, er]

theorem lhsW1_0 (i : S2048x1024.Idx) (r : dot_S2048x1024_S1024x1024_S2048x1024_1_0_0_1_n_n.contr.Idx) :
    (dot_S2048x1024_S1024x1024_S2048x1024_1_0_0_1_n_n.lhsIdx i r 0).val = (i 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl
theorem lhsW1_1 (i : S2048x1024.Idx) (r : dot_S2048x1024_S1024x1024_S2048x1024_1_0_0_1_n_n.contr.Idx) :
    (dot_S2048x1024_S1024x1024_S2048x1024_1_0_0_1_n_n.lhsIdx i r 1).val = (r ⟨0, by decide⟩).val :=
  dot_S2048x1024_S1024x1024_S2048x1024_1_0_0_1_n_n.lhsIdx_val_of_single rfl i r
theorem rhsW1_0 (i : S2048x1024.Idx) (r : dot_S2048x1024_S1024x1024_S2048x1024_1_0_0_1_n_n.contr.Idx) :
    (dot_S2048x1024_S1024x1024_S2048x1024_1_0_0_1_n_n.rhsIdx i r 0).val = (r ⟨0, by decide⟩).val :=
  dot_S2048x1024_S1024x1024_S2048x1024_1_0_0_1_n_n.rhsIdx_val_of_single rfl i r
theorem rhsW1_1 (i : S2048x1024.Idx) (r : dot_S2048x1024_S1024x1024_S2048x1024_1_0_0_1_n_n.contr.Idx) :
    (dot_S2048x1024_S1024x1024_S2048x1024_1_0_0_1_n_n.rhsIdx i r 1).val = (i 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

theorem matmulW1_apply (xa : FVec Ideal S2048x1024 .bf16) (wb : FVec Ideal S1024x1024 .bf16) (q : Fin 2048) (d : Fin 1024) :
    matmul (F := Ideal) dot_S2048x1024_S1024x1024_S2048x1024_1_0_0_1_n_n none xa wb
        (constant (F := Ideal) S2048x1024 .f32 0x00000000#32) (ix2 q d)
      = ∑ r : Fin 1024, xa (ix2 q r) * wb (ix2 r d) := by
  simp only [matmul]
  rw [Ideal.matmul_constant_zero_apply,
    ← Equiv.sum_comp (contrEquiv1 dot_S2048x1024_S1024x1024_S2048x1024_1_0_0_1_n_n 1024 rfl rfl).symm]
  refine Finset.sum_congr rfl fun r _ => ?_
  have hr := contrEquiv1_symm_val dot_S2048x1024_S1024x1024_S2048x1024_1_0_0_1_n_n 1024 rfl rfl r
  have el : dot_S2048x1024_S1024x1024_S2048x1024_1_0_0_1_n_n.lhsIdx (ix2 q d)
      ((contrEquiv1 dot_S2048x1024_S1024x1024_S2048x1024_1_0_0_1_n_n 1024 rfl rfl).symm r) = ix2 q r :=
    funext fun ax => Fin.ext (by
      match ax with
      | ⟨0, _⟩ => exact lhsW1_0 _ _
      | ⟨1, _⟩ => exact (lhsW1_1 _ _).trans hr)
  have er : dot_S2048x1024_S1024x1024_S2048x1024_1_0_0_1_n_n.rhsIdx (ix2 q d)
      ((contrEquiv1 dot_S2048x1024_S1024x1024_S2048x1024_1_0_0_1_n_n 1024 rfl rfl).symm r) = ix2 r d :=
    funext fun ax => Fin.ext (by
      match ax with
      | ⟨0, _⟩ => exact (rhsW1_0 _ _).trans hr
      | ⟨1, _⟩ => exact rhsW1_1 _ _)
  rw [el, er]

theorem lift_lane (q : Fin 2048) (j : Fin 512) : reduces_S2048x512_S2048.lift (ix1 q) j = ix2 q j :=
  funext fun ax => Fin.ext (by
    match ax with
    | ⟨0, _⟩ => rfl
    | ⟨1, _⟩ => rfl)

theorem ofBits_negInf : Ideal.ofBits .f32 0xFF800000#32 = (⊥ : EReal) := by
  simp [Ideal.ofBits, Ideal.ieee]

theorem rowMax_apply (src : FVec Ideal S2048x512 .f32) (q : Fin 2048) :
    shapeCast S2048x1 (multiReduction (F := Ideal) .maximumf [1] S2048 src 0xFF800000#32
        reduces_S2048x512_S2048 (.inl rfl) rfl) shapeCasts_S2048_S2048x1 (ix2 q 0)
      = (Finset.univ : Finset (Fin 512)).fold max ⊥ (fun j => src (ix2 q j)) := by
  rw [shapeCast_a_a1_apply]
  refine (Ideal.multiReduction_maximumf_single _ _ _ _ _ (ix1 q)).trans ?_
  rw [Ideal.ofBits_def, ofBits_negInf]
  exact Finset.fold_congr (fun j _ => congrArg src (lift_lane q j))

theorem rowSum_apply (src : FVec Ideal S2048x512 .f32) (q : Fin 2048) :
    shapeCast S2048x1 (multiReduction (F := Ideal) .add [1] S2048 src 0x00000000#32
        reduces_S2048x512_S2048 (.inl rfl) rfl) shapeCasts_S2048_S2048x1 (ix2 q 0)
      = ∑ j : Fin 512, src (ix2 q j) := by
  rw [shapeCast_a_a1_apply]
  refine (Ideal.multiReduction_add_single _ _ _ _ _ (ix1 q)).trans ?_
  exact Finset.sum_congr rfl (fun j _ => congrArg src (lift_lane q j))

def lg (h : Vec Ideal S2048x1024 .bf16) (w2 : Vec Ideal S1024x512 .bf16) (col : ℕ) (q : Fin 2048) (j : Fin 512) : EReal :=
  if col * 512 + j.val < 16000 then ∑ k : Fin 1024, (h (ix2 q k) : EReal) * (w2 (ix2 k j) : EReal) else ⊥

theorem negBig_eq_bot : Named.named (F := Ideal) Cert.KernelIdeal.κ "neg_big" (φ := .f32) 0xF149F2CA#32 = (⊥ : EReal) :=
  IdealRules.named_const.ideal_named_scalar _ _ _ _ rfl

theorem col_lt (i : grid0.Coords) : (i 1).val < 32 := (i 1).isLt

theorem pay9_apply (i : grid0.Coords) (q : Fin 2048) (j : Fin 512) :
    k0_pay9 i (ix2 q j) = BitVec.ofNat 32 (i 1).val * BitVec.ofNat 32 512 + BitVec.ofNat 32 j.val := by
  unfold k0_pay9
  show IntOp.addi (Scalar.muli (BitVec.ofNat 32 (i 1).val) 512#32)
    (iota .tc S2048x512 32 [1] iota_S2048x512_d1_w32 (ix2 q j)) = _
  rw [iota_single_apply]
  rfl

theorem pay9_toInt (i : grid0.Coords) (q : Fin 2048) (j : Fin 512) :
    (k0_pay9 i (ix2 q j)).toInt = (((i 1).val * 512 + j.val : Nat) : Int) := by
  have := col_lt i
  have := j.isLt
  rw [pay9_apply, colWord_toInt _ _ _ (by omega) (by omega) (by omega)]

theorem pay10_apply (i : grid0.Coords) (q : Fin 2048) (j : Fin 512) :
    k0_pay10 i (ix2 q j) = 1#1 ↔ (i 1).val * 512 + j.val < 16000 := by
  unfold k0_pay10
  show IntOp.cmpi .slt (k0_pay9 i (ix2 q j)) 16000#32 = 1#1 ↔ _
  rw [IntOp.cmpi_slt, pay9_toInt]
  show (((i 1).val * 512 + j.val : Nat) : Int) < 16000 ↔ _
  omega

theorem pay11_apply (i : grid0.Coords) (h : Vec Ideal S2048x1024 .bf16) (w2 : Vec Ideal S1024x512 .bf16)
    (q : Fin 2048) (j : Fin 512) :
    k0_pay11 (F := Ideal) i h w2 (ix2 q j) = lg h w2 (i 1).val q j := by
  unfold k0_pay11
  show Scalar.select (k0_pay10 i (ix2 q j))
    (matmul (F := Ideal) dot_S2048x1024_S1024x512_S2048x512_1_0_0_1_n_n none h
      (shapeCast S1024x512 w2 shapeCasts_S1024x512_S1024x512) (constant (F := Ideal) S2048x512 .f32 0x00000000#32) (ix2 q j))
    (Named.named (F := Ideal) Cert.KernelIdeal.κ "neg_big" (φ := .f32) 0xF149F2CA#32) = _
  rw [shapeCast_self, matmulW2_apply, negBig_eq_bot]
  unfold lg
  by_cases hv : (i 1).val * 512 + j.val < 16000
  · rw [(pay10_apply i q j).mpr hv, select_one, if_pos hv]
  · rw [eq_zero_of_ne_one (fun hc => hv ((pay10_apply i q j).mp hc)), select_zero, if_neg hv]

theorem pay14_apply (i : grid0.Coords) (h : Vec Ideal S2048x1024 .bf16) (w2 : Vec Ideal S1024x512 .bf16) (q : Fin 2048) :
    k0_pay14 (F := Ideal) i h w2 (ix2 q 0)
      = (Finset.univ : Finset (Fin 512)).fold max ⊥ (fun j => lg h w2 (i 1).val q j) := by
  unfold k0_pay14
  refine (rowMax_apply (k0_pay11 (F := Ideal) i h w2) q).trans ?_
  exact Finset.fold_congr (fun j _ => pay11_apply i h w2 q j)

theorem pay3_apply (mx : Vec Ideal S2048x1 .f32) (tm : FVec Ideal S2048x1 .f32) (q : Fin 2048) :
    k0_pay3 (F := Ideal) mx tm (ix2 q 0) = max (mx (ix2 q 0) : EReal) (tm (ix2 q 0)) := by
  unfold k0_pay3 k0_pay1
  rw [shapeCast_self]
  rfl

theorem pay2_apply (v : FVec Ideal S2048x512 .f32) (mx : Vec Ideal S2048x1 .f32) (tm : FVec Ideal S2048x1 .f32)
    (mx' sm : Vec Ideal S2048x1 .f32) (q : Fin 2048) :
    k0_pay2 (F := Ideal) v mx tm mx' sm (ix2 q 0)
      = Ideal.exp ((mx' (ix2 q 0) : EReal) - max (mx (ix2 q 0) : EReal) (tm (ix2 q 0))) * (sm (ix2 q 0) : EReal)
        + ∑ j : Fin 512, Ideal.exp (v (ix2 q j) - max (mx (ix2 q 0) : EReal) (tm (ix2 q 0))) := by
  unfold k0_pay2 k0_pay1
  rw [shapeCast_self]
  show Ideal.exp ((mx' (ix2 q 0) : EReal) - max (mx (ix2 q 0) : EReal) (tm (ix2 q 0))) * (sm (ix2 q 0) : EReal)
      + shapeCast S2048x1 (multiReduction (F := Ideal) .add [1] S2048
          (exp (subf v (broadcastTo S2048x512 (maximumf (F := Ideal) mx tm) broadcasts_S2048x1_S2048x512)))
          0x00000000#32 reduces_S2048x512_S2048 (.inl rfl) rfl) shapeCasts_S2048_S2048x1 (ix2 q 0) = _
  rw [rowSum_apply]
  refine congrArg _ (Finset.sum_congr rfl fun j _ => ?_)
  show Ideal.exp (v (ix2 q j) - broadcastTo S2048x512 (maximumf (F := Ideal) mx tm) broadcasts_S2048x1_S2048x512 (ix2 q j)) = _
  rw [broadcastTo_a1_ab_apply]
  rfl

theorem pay12_apply (tg : Vec Ideal S2048x1 .i32) : k0_pay12 (F := Ideal) tg = tg := by
  unfold k0_pay12
  exact shapeCast_self _ _

theorem pay13_apply (i : grid0.Coords) (h : Vec Ideal S2048x1024 .bf16) (w2 : Vec Ideal S1024x512 .bf16)
    (tg : Vec Ideal S2048x1 .i32) (tl : Vec Ideal S2048x1 .f32) (q : Fin 2048) :
    k0_pay13 (F := Ideal) i h w2 tg tl (ix2 q 0)
      = (tl (ix2 q 0) : EReal) + ∑ j : Fin 512,
          if (BitVec.ofNat 32 (i 1).val * BitVec.ofNat 32 512 + BitVec.ofNat 32 j.val
                = (tg (ix2 q 0) : BitVec 32) - BitVec.ofNat 32 4000
              ∧ (i 1).val * 512 + j.val < 16000) then lg h w2 (i 1).val q j else 0 := by
  unfold k0_pay13
  rw [shapeCast_self]
  show (tl (ix2 q 0) : EReal) + shapeCast S2048x1 (multiReduction (F := Ideal) .add [1] S2048
      (select (andi (cmpi .eq (k0_pay9 i)
            (broadcastTo S2048x512 (subi (k0_pay12 (F := Ideal) tg) (broadcast S2048x1 4000#32)) broadcasts_S2048x1_S2048x512))
          (k0_pay10 i))
        (k0_pay11 (F := Ideal) i h w2) (broadcast S2048x512 (Scalar.ofBits (F := Ideal) .f32 0x00000000#32)))
      0x00000000#32 reduces_S2048x512_S2048 (.inl rfl) rfl) shapeCasts_S2048_S2048x1 (ix2 q 0) = _
  rw [rowSum_apply]
  refine congrArg _ (Finset.sum_congr rfl fun j _ => ?_)
  show Scalar.select (IntOp.andi (IntOp.cmpi .eq (k0_pay9 i (ix2 q j))
        (broadcastTo S2048x512 (subi (k0_pay12 (F := Ideal) tg) (broadcast S2048x1 4000#32)) broadcasts_S2048x1_S2048x512 (ix2 q j)))
      (k0_pay10 i (ix2 q j))) (k0_pay11 (F := Ideal) i h w2 (ix2 q j)) (Ideal.ofBits .f32 0x00000000#32) = _
  rw [broadcastTo_a1_ab_apply, pay11_apply, Ideal.ofBits_zero_f32, pay12_apply]
  show Scalar.select (IntOp.andi (IntOp.cmpi .eq (k0_pay9 i (ix2 q j)) ((tg (ix2 q 0) : BitVec 32) - BitVec.ofNat 32 4000))
      (k0_pay10 i (ix2 q j))) _ _ = _
  by_cases hh : BitVec.ofNat 32 (i 1).val * BitVec.ofNat 32 512 + BitVec.ofNat 32 j.val
        = (tg (ix2 q 0) : BitVec 32) - BitVec.ofNat 32 4000 ∧ (i 1).val * 512 + j.val < 16000
  · rw [IntOp.andi_eq_one.mpr ⟨IntOp.cmpi_eq.mpr ((pay9_apply i q j).trans hh.1), (pay10_apply i q j).mpr hh.2⟩,
      select_one, if_pos hh]
  · rw [eq_zero_of_ne_one (fun hc => hh ⟨(pay9_apply i q j).symm.trans (IntOp.cmpi_eq.mp (IntOp.andi_eq_one.mp hc).1),
        (pay10_apply i q j).mp (IntOp.andi_eq_one.mp hc).2⟩), select_zero, if_neg hh]

theorem toInt_lo : (BitVec.ofNat 32 4000).toInt = 4000 := by decide
theorem toInt_hi : (BitVec.ofNat 32 20000).toInt = 20000 := by decide

theorem pay4_apply (tgv : IVec S2048x1 32) (mx sm tl : Vec Ideal S2048x1 .f32) (q : Fin 2048) :
    k0_pay4 (F := Ideal) tgv mx sm tl (ix2 q 0)
      = if (4000 ≤ (tgv (ix2 q 0)).toInt ∧ (tgv (ix2 q 0)).toInt < 20000)
          then ((mx (ix2 q 0) : EReal) + Ideal.log (sm (ix2 q 0))) - (tl (ix2 q 0) : EReal) else 0 := by
  unfold k0_pay4
  show Scalar.select (IntOp.andi (IntOp.cmpi .sge (tgv (ix2 q 0)) (BitVec.ofNat 32 4000))
        (IntOp.cmpi .slt (tgv (ix2 q 0)) (BitVec.ofNat 32 20000)))
      (((mx (ix2 q 0) : EReal) + Ideal.log (sm (ix2 q 0))) - (tl (ix2 q 0) : EReal)) (Ideal.ofBits .f32 0x00000000#32) = _
  rw [Ideal.ofBits_zero_f32]
  by_cases hh : 4000 ≤ (tgv (ix2 q 0)).toInt ∧ (tgv (ix2 q 0)).toInt < 20000
  · rw [IntOp.andi_eq_one.mpr ⟨IntOp.cmpi_sge.mpr (toInt_lo ▸ hh.1), IntOp.cmpi_slt.mpr (toInt_hi ▸ hh.2)⟩,
      select_one, if_pos hh]
  · rw [eq_zero_of_ne_one (fun hc => hh ⟨toInt_lo ▸ IntOp.cmpi_sge.mp (IntOp.andi_eq_one.mp hc).1,
        toInt_hi ▸ IntOp.cmpi_slt.mp (IntOp.andi_eq_one.mp hc).2⟩), select_zero, if_neg hh]

theorem out0_apply (tg : Vec Ideal S2048x1 .i32) (s : St0 Ideal) (q : Fin 2048) :
    out0 (F := Ideal) tg s (ix2 q 0)
      = if (4000 ≤ (tg (ix2 q 0) : BitVec 32).toInt ∧ (tg (ix2 q 0) : BitVec 32).toInt < 20000)
          then ((s.mx (ix2 q 0) : EReal) + Ideal.log (s.sm (ix2 q 0))) - (s.tl (ix2 q 0) : EReal) else 0 := by
  unfold out0
  rw [pay4_apply, pay12_apply]

theorem reset0_h (x : Vec Ideal S2048x1024 .bf16) (w1 : Vec Ideal S1024x1024 .bf16) (q : Fin 2048) (d : Fin 1024) :
    ((reset0 (F := Ideal) x w1).h (ix2 q d) : EReal) = ∑ r : Fin 1024, (x (ix2 q r) : EReal) * (w1 (ix2 r d) : EReal) := by
  show k0_pay8 (F := Ideal) x w1 (ix2 q d) = _
  unfold k0_pay8
  rw [shapeCast_self, shapeCast_self, shapeCast_self]
  exact matmulW1_apply x w1 q d

theorem reset0_mx (x : Vec Ideal S2048x1024 .bf16) (w1 : Vec Ideal S1024x1024 .bf16) (q : Fin 2048) :
    ((reset0 (F := Ideal) x w1).mx (ix2 q 0) : EReal) = ⊥ := by
  show k0_pay5 (F := Ideal) (ix2 q 0) = _
  unfold k0_pay5
  rw [shapeCast_self]
  exact ofBits_negInf

theorem reset0_sm (x : Vec Ideal S2048x1024 .bf16) (w1 : Vec Ideal S1024x1024 .bf16) (q : Fin 2048) :
    ((reset0 (F := Ideal) x w1).sm (ix2 q 0) : EReal) = 0 := by
  show k0_pay6 (F := Ideal) (ix2 q 0) = _
  unfold k0_pay6
  rw [shapeCast_self]
  exact Ideal.ofBits_zero_f32

theorem reset0_tl (x : Vec Ideal S2048x1024 .bf16) (w1 : Vec Ideal S1024x1024 .bf16) (q : Fin 2048) :
    ((reset0 (F := Ideal) x w1).tl (ix2 q 0) : EReal) = 0 := by
  show k0_pay7 (F := Ideal) (ix2 q 0) = _
  unfold k0_pay7
  rw [shapeCast_self]
  exact Ideal.ofBits_zero_f32

theorem step0_h (i : grid0.Coords) (x : Vec Ideal S2048x1024 .bf16) (w1 : Vec Ideal S1024x1024 .bf16)
    (w2 : Vec Ideal S1024x512 .bf16) (tg : Vec Ideal S2048x1 .i32) (s s1 : St0 Ideal)
    (hs1 : s1 = if first0 i then reset0 x w1 else s) :
    (step0 (F := Ideal) i x w1 w2 tg s).h = s1.h := by
  subst hs1; rfl

theorem step0_mx (i : grid0.Coords) (x : Vec Ideal S2048x1024 .bf16) (w1 : Vec Ideal S1024x1024 .bf16)
    (w2 : Vec Ideal S1024x512 .bf16) (tg : Vec Ideal S2048x1 .i32) (s s1 : St0 Ideal)
    (hs1 : s1 = if first0 i then reset0 x w1 else s) (q : Fin 2048) :
    ((step0 (F := Ideal) i x w1 w2 tg s).mx (ix2 q 0) : EReal)
      = max (s1.mx (ix2 q 0) : EReal) ((Finset.univ : Finset (Fin 512)).fold max ⊥ (fun j => lg s1.h w2 (i 1).val q j)) := by
  subst hs1
  show k0_pay3 (F := Ideal) _ (k0_pay14 (F := Ideal) i _ w2) (ix2 q 0) = _
  rw [pay3_apply, pay14_apply]

theorem step0_sm (i : grid0.Coords) (x : Vec Ideal S2048x1024 .bf16) (w1 : Vec Ideal S1024x1024 .bf16)
    (w2 : Vec Ideal S1024x512 .bf16) (tg : Vec Ideal S2048x1 .i32) (s s1 : St0 Ideal)
    (hs1 : s1 = if first0 i then reset0 x w1 else s) (q : Fin 2048) :
    ((step0 (F := Ideal) i x w1 w2 tg s).sm (ix2 q 0) : EReal)
      = Ideal.exp ((s1.mx (ix2 q 0) : EReal)
            - max (s1.mx (ix2 q 0) : EReal) ((Finset.univ : Finset (Fin 512)).fold max ⊥ (fun j => lg s1.h w2 (i 1).val q j)))
          * (s1.sm (ix2 q 0) : EReal)
        + ∑ j : Fin 512, Ideal.exp (lg s1.h w2 (i 1).val q j
            - max (s1.mx (ix2 q 0) : EReal) ((Finset.univ : Finset (Fin 512)).fold max ⊥ (fun j => lg s1.h w2 (i 1).val q j))) := by
  subst hs1
  show k0_pay2 (F := Ideal) (k0_pay11 (F := Ideal) i _ w2) _ (k0_pay14 (F := Ideal) i _ w2) _ _ (ix2 q 0) = _
  rw [pay2_apply, pay14_apply]
  refine congrArg _ (Finset.sum_congr rfl fun j _ => ?_)
  rw [pay11_apply]

theorem step0_tl_word (i : grid0.Coords) (x : Vec Ideal S2048x1024 .bf16) (w1 : Vec Ideal S1024x1024 .bf16)
    (w2 : Vec Ideal S1024x512 .bf16) (tg : Vec Ideal S2048x1 .i32) (s s1 : St0 Ideal)
    (hs1 : s1 = if first0 i then reset0 x w1 else s) (q : Fin 2048) :
    ((step0 (F := Ideal) i x w1 w2 tg s).tl (ix2 q 0) : EReal)
      = (s1.tl (ix2 q 0) : EReal) + ∑ j : Fin 512,
          if (BitVec.ofNat 32 (i 1).val * BitVec.ofNat 32 512 + BitVec.ofNat 32 j.val
                = (tg (ix2 q 0) : BitVec 32) - BitVec.ofNat 32 4000
              ∧ (i 1).val * 512 + j.val < 16000) then lg s1.h w2 (i 1).val q j else 0 := by
  subst hs1
  show k0_pay13 (F := Ideal) i _ w2 tg _ (ix2 q 0) = _
  rw [pay13_apply]

theorem target_test_iff (i : grid0.Coords) (j : Fin 512) (t : BitVec 32) (ht : 0 ≤ t.toInt ∧ t.toInt < 50000) :
    BitVec.ofNat 32 (i 1).val * BitVec.ofNat 32 512 + BitVec.ofNat 32 j.val = t - BitVec.ofNat 32 4000
      ↔ (((i 1).val * 512 + j.val : Nat) : Int) = t.toInt - 4000 := by
  have := col_lt i
  have := j.isLt
  exact colWord_eq_sub_iff _ _ _ _ t (by omega) (by omega) (by omega) (by omega) ht.1

theorem step0_tl (i : grid0.Coords) (x : Vec Ideal S2048x1024 .bf16) (w1 : Vec Ideal S1024x1024 .bf16)
    (w2 : Vec Ideal S1024x512 .bf16) (tg : Vec Ideal S2048x1 .i32) (s s1 : St0 Ideal)
    (hs1 : s1 = if first0 i then reset0 x w1 else s) (q : Fin 2048)
    (ht : 0 ≤ (tg (ix2 q 0) : BitVec 32).toInt ∧ (tg (ix2 q 0) : BitVec 32).toInt < 50000) :
    ((step0 (F := Ideal) i x w1 w2 tg s).tl (ix2 q 0) : EReal)
      = (s1.tl (ix2 q 0) : EReal) + ∑ j : Fin 512,
          if ((((i 1).val * 512 + j.val : Nat) : Int) = (tg (ix2 q 0) : BitVec 32).toInt - 4000
              ∧ (i 1).val * 512 + j.val < 16000) then lg s1.h w2 (i 1).val q j else 0 := by
  rw [step0_tl_word i x w1 w2 tg s s1 hs1 q]
  refine congrArg _ (Finset.sum_congr rfl fun j _ => ?_)
  exact if_congr (and_congr_left' (target_test_iff i j _ ht)) rfl rfl

end Cert.KernelIdeal.Val0

end
-- ==== Proof.LibOnlineLse.lean ====
import Idealize.ShloMosaic.PureOps.Ideal
import Idealize.ShloMosaic.PureOps.Ideal.Laws
import Mathlib.Data.EReal.Operations
import Mathlib.Data.Finset.Fold
import Mathlib.Data.Finset.Range
import Mathlib.Algebra.BigOperators.Fin
import Mathlib.Algebra.BigOperators.Group.Finset.Basic
import Mathlib.Analysis.SpecialFunctions.Exp
import Mathlib.Analysis.SpecialFunctions.Log.Basic

noncomputable section

namespace OnlineLse

open Idealize.ShloMosaic
open scoped BigOperators

section Recursion

variable {B : ℕ}

/-- The running maximum after `n` tiles. -/
def runMax (a : ℕ → Fin B → EReal) : ℕ → EReal
  | 0 => ⊥
  | n + 1 => max (runMax a n) ((Finset.univ : Finset (Fin B)).fold max ⊥ (a n))

/-- The running sum of exponentials after `n` tiles, taken relative to the running maximum and rescaled when it moves. -/
def runSum (a : ℕ → Fin B → EReal) : ℕ → EReal
  | 0 => 0
  | n + 1 => Ideal.exp (runMax a n - runMax a (n + 1)) * runSum a n
      + ∑ j : Fin B, Ideal.exp (a n j - runMax a (n + 1))

@[simp] theorem runMax_zero (a : ℕ → Fin B → EReal) : runMax a 0 = ⊥ := rfl

theorem runMax_succ (a : ℕ → Fin B → EReal) (n : ℕ) :
    runMax a (n + 1) = max (runMax a n) ((Finset.univ : Finset (Fin B)).fold max ⊥ (a n)) := rfl

@[simp] theorem runSum_zero (a : ℕ → Fin B → EReal) : runSum a 0 = 0 := rfl

theorem runSum_succ (a : ℕ → Fin B → EReal) (n : ℕ) :
    runSum a (n + 1) = Ideal.exp (runMax a n - runMax a (n + 1)) * runSum a n
      + ∑ j : Fin B, Ideal.exp (a n j - runMax a (n + 1)) := rfl

theorem runMax_one (a : ℕ → Fin B → EReal) :
    runMax a 1 = max ⊥ ((Finset.univ : Finset (Fin B)).fold max ⊥ (a 0)) := rfl

theorem runSum_one (a : ℕ → Fin B → EReal) :
    runSum a 1 = Ideal.exp (⊥ - runMax a 1) * 0 + ∑ j : Fin B, Ideal.exp (a 0 j - runMax a 1) := rfl

theorem runMax_congr {a a' : ℕ → Fin B → EReal} :
    ∀ n : ℕ, (∀ i, i < n → a i = a' i) → runMax a n = runMax a' n
  | 0, _ => rfl
  | n + 1, h => by
    rw [runMax_succ, runMax_succ, runMax_congr n (fun i hi => h i (Nat.lt_succ_of_lt hi)),
      h n (Nat.lt_succ_self n)]

theorem runSum_congr {a a' : ℕ → Fin B → EReal} :
    ∀ n : ℕ, (∀ i, i < n → a i = a' i) → runSum a n = runSum a' n
  | 0, _ => rfl
  | n + 1, h => by
    rw [runSum_succ, runSum_succ, runSum_congr n (fun i hi => h i (Nat.lt_succ_of_lt hi)),
      runMax_congr n (fun i hi => h i (Nat.lt_succ_of_lt hi)), runMax_congr (n + 1) h,
      h n (Nat.lt_succ_self n)]

end Recursion

theorem coe_sum {ι : Type} (s : Finset ι) (f : ι → ℝ) :
    ((∑ i ∈ s, f i : ℝ) : EReal) = ∑ i ∈ s, ((f i : ℝ) : EReal) := by
  induction s using Finset.cons_induction with
  | empty => rw [Finset.sum_empty, Finset.sum_empty, EReal.coe_zero]
  | cons i s hi ih => rw [Finset.sum_cons, Finset.sum_cons, EReal.coe_add, ih]

theorem fold_max_range_add (f : ℕ → EReal) (p q : ℕ) :
    (Finset.range (p + q)).fold max ⊥ f
      = max ((Finset.range p).fold max ⊥ f)
          ((Finset.univ : Finset (Fin q)).fold max ⊥ fun j => f (p + j.val)) := by
  apply le_antisymm
  · rw [Finset.fold_max_le]
    refine ⟨bot_le, fun k hk => ?_⟩
    rw [Finset.mem_range] at hk
    by_cases h : k < p
    · exact le_max_of_le_left
        ((Finset.le_fold_max _).mpr (Or.inr ⟨k, Finset.mem_range.mpr h, le_rfl⟩))
    · refine le_max_of_le_right
        ((Finset.le_fold_max _).mpr (Or.inr ⟨⟨k - p, by omega⟩, Finset.mem_univ _, ?_⟩))
      show f k ≤ f (p + (k - p))
      rw [Nat.add_sub_cancel' (not_lt.mp h)]
  · refine max_le ?_ ?_
    · rw [Finset.fold_max_le]
      exact ⟨bot_le, fun k hk => (Finset.le_fold_max _).mpr
        (Or.inr ⟨k, Finset.mem_range.mpr (by have := Finset.mem_range.mp hk; omega), le_rfl⟩)⟩
    · rw [Finset.fold_max_le]
      exact ⟨bot_le, fun j _ => (Finset.le_fold_max _).mpr
        (Or.inr ⟨p + j.val, Finset.mem_range.mpr (by have := j.isLt; omega), le_rfl⟩)⟩

def rowMax (x : ℕ → ℝ) (C : ℕ) : ℝ := (Finset.range C).fold max (x 0) x

def rowSumExp (x : ℕ → ℝ) (C : ℕ) : ℝ := ∑ k ∈ Finset.range C, Real.exp (x k - rowMax x C)

theorem le_rowMax (x : ℕ → ℝ) {C k : ℕ} (hk : k < C) : x k ≤ rowMax x C :=
  (Finset.le_fold_max _).mpr (Or.inr ⟨k, Finset.mem_range.mpr hk, le_rfl⟩)

theorem exists_rowMax_le (x : ℕ → ℝ) {C : ℕ} (hC : 0 < C) : ∃ k, k < C ∧ rowMax x C ≤ x k := by
  have h : rowMax x C ≤ (Finset.range C).fold max (x 0) x := le_rfl
  rcases (Finset.le_fold_max _).mp h with h0 | ⟨k, hk, hk'⟩
  · exact ⟨0, hC, h0⟩
  · exact ⟨k, Finset.mem_range.mp hk, hk'⟩

theorem rowSumExp_pos (x : ℕ → ℝ) {C : ℕ} (hC : 0 < C) : 0 < rowSumExp x C :=
  Finset.sum_pos (fun _ _ => Real.exp_pos _) ⟨0, Finset.mem_range.mpr hC⟩

def pad (x : ℕ → ℝ) (C k : ℕ) : EReal := if k < C then ((x k : ℝ) : EReal) else ⊥

def term (x : ℕ → ℝ) (C : ℕ) (μ : ℝ) (k : ℕ) : ℝ := if k < C then Real.exp (x k - μ) else 0

theorem exp_pad_sub (x : ℕ → ℝ) (C : ℕ) (μ : ℝ) (k : ℕ) :
    Ideal.exp (pad x C k - (μ : EReal)) = ((term x C μ k : ℝ) : EReal) := by
  unfold pad term
  split_ifs with h
  · rw [← EReal.coe_sub, Ideal.exp_coe]
  · rw [EReal.bot_sub, Ideal.exp_bot, EReal.coe_zero]

theorem fold_pad_eq (x : ℕ → ℝ) {C N : ℕ} (hC : 0 < C) (hN : 0 < N) :
    (Finset.range N).fold max ⊥ (pad x C) = ((rowMax x (min C N) : ℝ) : EReal) := by
  apply le_antisymm
  · rw [Finset.fold_max_le]
    refine ⟨bot_le, fun k hk => ?_⟩
    rw [Finset.mem_range] at hk
    unfold pad
    split_ifs with h
    · exact EReal.coe_le_coe_iff.mpr (le_rowMax x (lt_min h hk))
    · exact bot_le
  · obtain ⟨k, hk, h⟩ := exists_rowMax_le x (lt_min hC hN)
    have hkC : k < C := lt_of_lt_of_le hk (min_le_left _ _)
    have hkN : k < N := lt_of_lt_of_le hk (min_le_right _ _)
    rw [Finset.le_fold_max]
    refine Or.inr ⟨k, Finset.mem_range.mpr hkN, ?_⟩
    unfold pad
    rw [if_pos hkC]
    exact EReal.coe_le_coe_iff.mpr h

section Main

variable {B T C : ℕ} {x : ℕ → ℝ} {a : ℕ → Fin B → EReal}

theorem tile_eq_pad
    (ha : ∀ n, n < T → ∀ j : Fin B,
      a n j = if n * B + j.val < C then ((x (n * B + j.val) : ℝ) : EReal) else ⊥)
    {n : ℕ} (hn : n < T) : a n = fun j : Fin B => pad x C (n * B + j.val) :=
  funext fun j => ha n hn j

theorem runMax_eq_fold
    (ha : ∀ n, n < T → ∀ j : Fin B,
      a n j = if n * B + j.val < C then ((x (n * B + j.val) : ℝ) : EReal) else ⊥) :
    ∀ n : ℕ, n ≤ T → runMax a n = (Finset.range (n * B)).fold max ⊥ (pad x C)
  | 0, _ => by rw [Nat.zero_mul, Finset.range_zero, Finset.fold_empty, runMax_zero]
  | n + 1, h => by
    rw [runMax_succ, runMax_eq_fold ha n (Nat.le_of_succ_le h), Nat.add_mul, Nat.one_mul,
      fold_max_range_add, tile_eq_pad ha (Nat.lt_of_succ_le h)]

theorem runMax_eq_coe (hB : 0 < B) (hC : 0 < C)
    (ha : ∀ n, n < T → ∀ j : Fin B,
      a n j = if n * B + j.val < C then ((x (n * B + j.val) : ℝ) : EReal) else ⊥)
    {n : ℕ} (h1 : 0 < n) (hn : n ≤ T) :
    runMax a n = ((rowMax x (min C (n * B)) : ℝ) : EReal) := by
  rw [runMax_eq_fold ha n hn, fold_pad_eq x hC (Nat.mul_pos h1 hB)]

theorem runSum_eq_coe (hB : 0 < B) (hC : 0 < C)
    (ha : ∀ n, n < T → ∀ j : Fin B,
      a n j = if n * B + j.val < C then ((x (n * B + j.val) : ℝ) : EReal) else ⊥) :
    ∀ n : ℕ, n ≤ T → runSum a n
      = ((∑ k ∈ Finset.range (n * B), term x C (rowMax x (min C (n * B))) k : ℝ) : EReal)
  | 0, _ => by rw [Nat.zero_mul, Finset.range_zero, Finset.sum_empty, EReal.coe_zero, runSum_zero]
  | n + 1, h => by
    have hn : n ≤ T := Nat.le_of_succ_le h
    have hlt : n < T := Nat.lt_of_succ_le h
    obtain ⟨μ', hμ'⟩ : ∃ μ' : ℝ, μ' = rowMax x (min C ((n + 1) * B)) := ⟨_, rfl⟩
    have hm' : runMax a (n + 1) = (μ' : EReal) := by
      rw [hμ']; exact runMax_eq_coe hB hC ha (Nat.succ_pos n) h
    rw [← hμ', runSum_succ, hm', runSum_eq_coe hB hC ha n hn]

    have hA : Ideal.exp (runMax a n - (μ' : EReal))
          * ((∑ k ∈ Finset.range (n * B), term x C (rowMax x (min C (n * B))) k : ℝ) : EReal)
        = ((∑ k ∈ Finset.range (n * B), term x C μ' k : ℝ) : EReal) := by
      rcases Nat.eq_zero_or_pos n with h0 | hpos
      · subst h0
        rw [Nat.zero_mul, Finset.range_zero, Finset.sum_empty, Finset.sum_empty, EReal.coe_zero,
          mul_zero]
      · rw [runMax_eq_coe hB hC ha hpos hn, ← EReal.coe_sub, Ideal.exp_coe, ← EReal.coe_mul,
          Finset.mul_sum]
        congr 1
        refine Finset.sum_congr rfl fun k _ => ?_
        unfold term
        split_ifs
        · rw [← Real.exp_add]
          congr 1
          ring
        · rw [mul_zero]

    have hBsum : ∑ j : Fin B, Ideal.exp (a n j - (μ' : EReal))
        = ((∑ j ∈ Finset.range B, term x C μ' (n * B + j) : ℝ) : EReal) := by
      rw [Finset.sum_range (fun j => term x C μ' (n * B + j)), coe_sum]
      refine Finset.sum_congr rfl fun j _ => ?_
      rw [ha n hlt j]
      exact exp_pad_sub x C μ' (n * B + j.val)
    rw [hA, hBsum, ← EReal.coe_add, Nat.add_mul, Nat.one_mul, Finset.sum_range_add]

theorem tiles_pos (hC : 0 < C) (hCT : C ≤ T * B) : 0 < T := by
  rcases Nat.eq_zero_or_pos T with h | h
  · subst h
    rw [Nat.zero_mul] at hCT
    omega
  · exact h

theorem runMax_final (hB : 0 < B) (hC : 0 < C) (hCT : C ≤ T * B)
    (ha : ∀ n, n < T → ∀ j : Fin B,
      a n j = if n * B + j.val < C then ((x (n * B + j.val) : ℝ) : EReal) else ⊥) :
    runMax a T = ((rowMax x C : ℝ) : EReal) := by
  rw [runMax_eq_coe hB hC ha (tiles_pos hC hCT) le_rfl, min_eq_left hCT]

theorem runSum_final (hB : 0 < B) (hC : 0 < C) (hCT : C ≤ T * B)
    (ha : ∀ n, n < T → ∀ j : Fin B,
      a n j = if n * B + j.val < C then ((x (n * B + j.val) : ℝ) : EReal) else ⊥) :
    runSum a T = ((rowSumExp x C : ℝ) : EReal) := by
  rw [runSum_eq_coe hB hC ha T le_rfl, min_eq_left hCT]
  congr 1
  unfold rowSumExp
  rw [← Finset.sum_subset (Finset.range_subset_range.mpr hCT) (fun k _ hk => by
    unfold term
    rw [if_neg (fun hlt => hk (Finset.mem_range.mpr hlt))])]
  refine Finset.sum_congr rfl fun k hk => ?_
  unfold term
  rw [if_pos (Finset.mem_range.mp hk)]

end Main

section Reference

variable {C : ℕ} {x : ℕ → ℝ}

theorem refMax_eq (hC : 0 < C) (y : Fin C → EReal) (hy : ∀ k : Fin C, y k = ((x k.val : ℝ) : EReal)) :
    max ⊥ ((Finset.univ : Finset (Fin C)).fold max ⊥ y) = ((rowMax x C : ℝ) : EReal) := by
  rw [max_eq_right bot_le]
  apply le_antisymm
  · rw [Finset.fold_max_le]
    refine ⟨bot_le, fun k _ => ?_⟩
    rw [hy k]
    exact EReal.coe_le_coe_iff.mpr (le_rowMax x k.isLt)
  · obtain ⟨k, hk, h⟩ := exists_rowMax_le x hC
    rw [Finset.le_fold_max]
    refine Or.inr ⟨⟨k, hk⟩, Finset.mem_univ _, ?_⟩
    rw [hy]
    exact EReal.coe_le_coe_iff.mpr h

theorem refSum_eq (hC : 0 < C) (y : Fin C → EReal) (hy : ∀ k : Fin C, y k = ((x k.val : ℝ) : EReal)) :
    0 + ∑ k : Fin C, Ideal.exp (y k - max ⊥ ((Finset.univ : Finset (Fin C)).fold max ⊥ y))
      = ((rowSumExp x C : ℝ) : EReal) := by
  rw [refMax_eq hC y hy, zero_add]
  unfold rowSumExp
  rw [Finset.sum_range (fun k => Real.exp (x k - rowMax x C)), coe_sum]
  refine Finset.sum_congr rfl fun k _ => ?_
  rw [hy k, ← EReal.coe_sub, Ideal.exp_coe]

theorem refLogp_eq (hC : 0 < C) (y : Fin C → EReal) (hy : ∀ k : Fin C, y k = ((x k.val : ℝ) : EReal))
    (xt : ℝ) :
    ((xt : EReal) - max ⊥ ((Finset.univ : Finset (Fin C)).fold max ⊥ y))
        - Ideal.log (0 + ∑ k : Fin C,
            Ideal.exp (y k - max ⊥ ((Finset.univ : Finset (Fin C)).fold max ⊥ y)))
      = ((xt - rowMax x C - Real.log (rowSumExp x C) : ℝ) : EReal) := by
  rw [refSum_eq hC y hy, refMax_eq hC y hy, Ideal.log_coe,
    if_neg (not_le.mpr (rowSumExp_pos x hC)), ← EReal.coe_sub, ← EReal.coe_sub]

end Reference

section Equal

variable {B T C : ℕ} {x : ℕ → ℝ} {a : ℕ → Fin B → EReal}

theorem lse_sub_eq_coe (hB : 0 < B) (hC : 0 < C) (hCT : C ≤ T * B)
    (ha : ∀ n, n < T → ∀ j : Fin B,
      a n j = if n * B + j.val < C then ((x (n * B + j.val) : ℝ) : EReal) else ⊥)
    (xt : ℝ) :
    (runMax a T + Ideal.log (runSum a T)) - (xt : EReal)
      = ((rowMax x C + Real.log (rowSumExp x C) - xt : ℝ) : EReal) := by
  rw [runMax_final hB hC hCT ha, runSum_final hB hC hCT ha, Ideal.log_coe,
    if_neg (not_le.mpr (rowSumExp_pos x hC)), ← EReal.coe_add, ← EReal.coe_sub]

/-- The online maximum and rescaled sum over the tiles give the row's two-pass log-sum-exp: padding holds ⊥ and adds nothing to either. -/
theorem lse_sub_eq_neg_logp (hB : 0 < B) (hC : 0 < C) (hCT : C ≤ T * B)
    (ha : ∀ n, n < T → ∀ j : Fin B,
      a n j = if n * B + j.val < C then ((x (n * B + j.val) : ℝ) : EReal) else ⊥)
    (y : Fin C → EReal) (hy : ∀ k : Fin C, y k = ((x k.val : ℝ) : EReal)) (xt : ℝ) :
    (runMax a T + Ideal.log (runSum a T)) - (xt : EReal)
      = -(((xt : EReal) - max ⊥ ((Finset.univ : Finset (Fin C)).fold max ⊥ y))
          - Ideal.log (0 + ∑ k : Fin C,
              Ideal.exp (y k - max ⊥ ((Finset.univ : Finset (Fin C)).fold max ⊥ y)))) := by
  rw [lse_sub_eq_coe hB hC hCT ha, refLogp_eq hC y hy, ← EReal.coe_neg]
  congr 1
  ring

end Equal

section Forms

theorem ofBits_negInf_f32 : Ideal.ofBits .f32 0xFF800000#32 = (⊥ : EReal) := by
  simp [Ideal.ofBits, Ideal.ieee]

end Forms

end OnlineLse

end
-- ==== Proof.RowDefs.lean ====
import Idealize.ShloMosaic.PureOps.Ideal
import Idealize.ShloMosaic.Lib.ValueIdx

noncomputable section

namespace Cert.RowDefs

open Idealize.ShloMosaic Idealize.ShloMosaic.ValueIdx
open scoped BigOperators

def rowMax {C : Nat} (y : Fin C → EReal) : EReal := max ⊥ (Finset.univ.fold max ⊥ y)

def rowSum {C : Nat} (y : Fin C → EReal) : EReal := 0 + ∑ k : Fin C, Ideal.exp (y k - rowMax y)

def logSoftmax {C : Nat} (y : Fin C → EReal) (k : Fin C) : EReal := (y k - rowMax y) - Ideal.log (rowSum y)

def clipCol (C : Nat) (hC : 0 < C) (z : Int) : Fin C := ⟨(min ((C : Int) - 1) (max 0 z)).toNat, by omega⟩

def tailNll {C : Nat} (hC : 0 < C) (lo hi t : Int) (y : Fin C → EReal) : EReal :=
  if lo ≤ t ∧ t < hi then -(logSoftmax y (clipCol C hC (t - lo))) else 0

def lg2 {N D1 D2 C : Nat} (X : (⟨2, ![N, D1]⟩ : Shape).Idx → EReal) (W1 : (⟨2, ![D1, D2]⟩ : Shape).Idx → EReal)
    (W2 : (⟨2, ![D2, C]⟩ : Shape).Idx → EReal) (p : Fin N) (k : Fin C) : EReal :=
  ∑ d : Fin D2, (∑ e : Fin D1, X (ix2 p e) * W1 (ix2 e d)) * W2 (ix2 d k)

def lgBias {N D C : Nat} (X : (⟨2, ![N, D]⟩ : Shape).Idx → EReal) (W : (⟨2, ![D, C]⟩ : Shape).Idx → EReal)
    (B : (⟨1, ![C]⟩ : Shape).Idx → EReal) (p : Fin N) (k : Fin C) : EReal :=
  (∑ e : Fin D, X (ix2 p e) * W (ix2 e k)) + B (ix1 k)

end Cert.RowDefs

end
-- ==== Proof.LibRowNll.lean ====
import proofs.«422338_j11269994185272_3_alg».proof.Proof.LibOnlineLse
import proofs.«422338_j11269994185272_3_alg».proof.Proof.RowDefs

noncomputable section

namespace RowNll

open Idealize.ShloMosaic OnlineLse
open scoped BigOperators

section Recursion

variable {B : ℕ}

/-- The one-hot sum that picks the entry at the target column out of the tiles seen so far. -/
def pick (a : ℕ → Fin B → EReal) (C : ℕ) (z : Int) : ℕ → EReal
  | 0 => 0
  | n + 1 => pick a C z n
      + ∑ j : Fin B, (if ((n * B + j.val : ℕ) : Int) = z ∧ n * B + j.val < C then a n j else 0)

@[simp] theorem pick_zero (a : ℕ → Fin B → EReal) (C : ℕ) (z : Int) : pick a C z 0 = 0 := rfl

theorem pick_succ (a : ℕ → Fin B → EReal) (C : ℕ) (z : Int) (n : ℕ) :
    pick a C z (n + 1) = pick a C z n
      + ∑ j : Fin B, (if ((n * B + j.val : ℕ) : Int) = z ∧ n * B + j.val < C then a n j else 0) := rfl

theorem pick_one (a : ℕ → Fin B → EReal) (C : ℕ) (z : Int) :
    pick a C z 1
      = 0 + ∑ j : Fin B, (if ((0 * B + j.val : ℕ) : Int) = z ∧ 0 * B + j.val < C then a 0 j else 0) := rfl

theorem pick_congr {a a' : ℕ → Fin B → EReal} (C : ℕ) (z : Int) :
    ∀ n : ℕ, (∀ i, i < n → a i = a' i) → pick a C z n = pick a' C z n
  | 0, _ => rfl
  | n + 1, h => by
    rw [pick_succ, pick_succ, pick_congr C z n (fun i hi => h i (Nat.lt_succ_of_lt hi)),
      h n (Nat.lt_succ_self n)]

theorem pick_eq_zero (a : ℕ → Fin B → EReal) (C : ℕ) {z : Int} (hz : ¬ (0 ≤ z ∧ z < (C : Int))) :
    ∀ n : ℕ, pick a C z n = 0
  | 0 => rfl
  | n + 1 => by
    rw [pick_succ, pick_eq_zero a C hz n, zero_add]
    refine Finset.sum_eq_zero fun j _ => if_neg ?_
    intro hc
    apply hz
    omega

end Recursion

section Main

variable {B T C : ℕ} {x : ℕ → ℝ} {a : ℕ → Fin B → EReal}

theorem pick_eq_coe
    (ha : ∀ n, n < T → ∀ j : Fin B,
      a n j = if n * B + j.val < C then ((x (n * B + j.val) : ℝ) : EReal) else ⊥)
    {z : Int} (h0 : 0 ≤ z) (hz : z < (C : Int)) :
    ∀ n : ℕ, n ≤ T → pick a C z n
      = ((∑ i ∈ Finset.range (n * B), (if i = z.toNat then x i else 0) : ℝ) : EReal)
  | 0, _ => by rw [Nat.zero_mul, Finset.range_zero, Finset.sum_empty, EReal.coe_zero, pick_zero]
  | n + 1, h => by
    have hlt : n < T := Nat.lt_of_succ_le h
    rw [pick_succ, pick_eq_coe ha h0 hz n (Nat.le_of_succ_le h), Nat.add_mul, Nat.one_mul,
      Finset.sum_range_add, EReal.coe_add]
    congr 1
    rw [Finset.sum_range (fun j => if n * B + j = z.toNat then x (n * B + j) else 0), coe_sum]
    refine Finset.sum_congr rfl fun j _ => ?_
    generalize hp : n * B + j.val = p
    have haj : a n j = if p < C then ((x p : ℝ) : EReal) else ⊥ := by rw [← hp]; exact ha n hlt j
    by_cases hj : p = z.toNat
    · have hc : ((p : ℕ) : Int) = z ∧ p < C := by omega
      rw [if_pos hc, if_pos hj, haj, if_pos hc.2]
    · have hc : ¬ (((p : ℕ) : Int) = z ∧ p < C) := by omega
      rw [if_neg hc, if_neg hj, EReal.coe_zero]

theorem pick_final (hCT : C ≤ T * B)
    (ha : ∀ n, n < T → ∀ j : Fin B,
      a n j = if n * B + j.val < C then ((x (n * B + j.val) : ℝ) : EReal) else ⊥)
    {z : Int} (h0 : 0 ≤ z) (hz : z < (C : Int)) :
    pick a C z T = ((x z.toNat : ℝ) : EReal) := by
  rw [pick_eq_coe ha h0 hz T le_rfl,
    Finset.sum_ite_eq_of_mem' _ _ _ (Finset.mem_range.mpr (by omega))]

theorem clipCol_val {hC : 0 < C} {z : Int} (h0 : 0 ≤ z) (hz : z < (C : Int)) :
    (Cert.RowDefs.clipCol C hC z).val = z.toNat := by
  show (min ((C : Int) - 1) (max 0 z)).toNat = z.toNat
  omega

/-- The head's row: the online values give minus the log-softmax at the (in-range) target column. -/
theorem head_row (hB : 0 < B) (hC : 0 < C) (hCT : C ≤ T * B)
    (ha : ∀ n, n < T → ∀ j : Fin B,
      a n j = if n * B + j.val < C then ((x (n * B + j.val) : ℝ) : EReal) else ⊥)
    (y : Fin C → EReal) (hy : ∀ k : Fin C, y k = ((x k.val : ℝ) : EReal))
    {z : Int} (h0 : 0 ≤ z) (hz : z < (C : Int)) :
    (runMax a T + Ideal.log (runSum a T)) - pick a C z T
      = -(Cert.RowDefs.logSoftmax y (Cert.RowDefs.clipCol C hC z)) := by
  rw [pick_final hCT ha h0 hz]
  unfold Cert.RowDefs.logSoftmax
  rw [hy, clipCol_val h0 hz]
  exact lse_sub_eq_neg_logp hB hC hCT ha y hy (x z.toNat)

/-- A tail cluster's row: inside the cluster the online values give the cluster's cross-entropy at the shifted target, outside it the term is 0. -/
theorem tail_row (hB : 0 < B) (hC : 0 < C) (hCT : C ≤ T * B)
    (ha : ∀ n, n < T → ∀ j : Fin B,
      a n j = if n * B + j.val < C then ((x (n * B + j.val) : ℝ) : EReal) else ⊥)
    (y : Fin C → EReal) (hy : ∀ k : Fin C, y k = ((x k.val : ℝ) : EReal))
    {lo hi t : Int} (hlh : hi - lo = (C : Int)) :
    (if lo ≤ t ∧ t < hi then (runMax a T + Ideal.log (runSum a T)) - pick a C (t - lo) T else 0)
      = Cert.RowDefs.tailNll hC lo hi t y := by
  unfold Cert.RowDefs.tailNll
  by_cases h : lo ≤ t ∧ t < hi
  · rw [if_pos h, if_pos h]
    exact head_row hB hC hCT ha y hy (by omega) (by omega)
  · rw [if_neg h, if_neg h]

end Main

end RowNll

end
-- ==== Proof.KI.Row0.lean ====
import proofs.«422338_j11269994185272_3_alg».proof.Proof.KI.R0Frame
import proofs.«422338_j11269994185272_3_alg».proof.Proof.KI.Val0
import proofs.«422338_j11269994185272_3_alg».proof.Proof.LibRowNll
import proofs.«422338_j11269994185272_3_alg».proof.Proof.RowDefs
import Idealize.ShloMosaic.Lib.Pipeline.Value

set_option maxRecDepth 16384

noncomputable section

namespace Cert.KernelIdeal.Row0

open Idealize.ShloMosaic Idealize.ShloMosaic.ValueIdx Idealize.ShloMosaic.TcCoe Idealize.SL.Sem
open Cert.KernelIdeal Cert.KernelIdeal.Gen Cert.KernelIdeal.Val0
open Idealize.ShloMosaic.Pipeline (Dat)
open scoped BigOperators

def IsReal (z : EReal) : Prop := ∃ r : ℝ, z = ((r : ℝ) : EReal)

theorem IsReal.eq_coe_toReal {z : EReal} (h : IsReal z) : z = ((z.toReal : ℝ) : EReal) := by
  obtain ⟨r, rfl⟩ := h
  rw [EReal.toReal_coe]

theorem isReal_of_eq {z : EReal} (h : z = ((z.toReal : ℝ) : EReal)) : IsReal z := ⟨_, h⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem isReal_sum {ι : Type} (s : Finset ι) (g : ι → EReal) (h : ∀ i, IsReal (g i)) : IsReal (∑ i ∈ s, g i) := by
  choose f hf using h
  exact ⟨∑ i ∈ s, f i, by rw [OnlineLse.coe_sum]; exact Finset.sum_congr rfl fun i _ => hf i⟩

theorem lg2_isReal {N D1 D2 C : Nat} (X : (⟨2, ![N, D1]⟩ : Shape).Idx → EReal) (W1 : (⟨2, ![D1, D2]⟩ : Shape).Idx → EReal)
    (W2 : (⟨2, ![D2, C]⟩ : Shape).Idx → EReal)
    (hXr : ∀ i, X i = (((X i).toReal : ℝ) : EReal)) (hW1r : ∀ i, W1 i = (((W1 i).toReal : ℝ) : EReal))
    (hW2r : ∀ i, W2 i = (((W2 i).toReal : ℝ) : EReal)) (p : Fin N) (k : Fin C) :
    IsReal (Cert.RowDefs.lg2 X W1 W2 p k) := by
  unfold Cert.RowDefs.lg2
  exact isReal_sum _ _ fun d => (isReal_sum _ _ fun e => (isReal_of_eq (hXr _)).mul (isReal_of_eq (hW1r _))).mul
    (isReal_of_eq (hW2r _))

section Iterate

def tileLg (x : Vec Ideal S2048x1024 .bf16) (w1 : Vec Ideal S1024x1024 .bf16) (w2s : ℕ → Vec Ideal S1024x512 .bf16)
    (n : ℕ) (q : Fin 2048) (j : Fin 512) : EReal :=
  lg (reset0 (F := Ideal) x w1).h (w2s n) n q j

def tgtCol (tg : Vec Ideal S2048x1 .i32) (q : Fin 2048) : Int := (tg (ix2 q 0) : BitVec 32).toInt - 4000

structure Kept (x : Vec Ideal S2048x1024 .bf16) (w1 : Vec Ideal S1024x1024 .bf16) (w2s : ℕ → Vec Ideal S1024x512 .bf16)
    (tg : Vec Ideal S2048x1 .i32) (n : ℕ) (s : St0 Ideal) : Prop where
  h : s.h = (reset0 (F := Ideal) x w1).h
  mx : ∀ q : Fin 2048, (s.mx (ix2 q 0) : EReal) = OnlineLse.runMax (fun n' => tileLg x w1 w2s n' q) n
  sm : ∀ q : Fin 2048, (s.sm (ix2 q 0) : EReal) = OnlineLse.runSum (fun n' => tileLg x w1 w2s n' q) n
  tl : ∀ q : Fin 2048, (s.tl (ix2 q 0) : EReal)
    = RowNll.pick (fun n' => tileLg x w1 w2s n' q) 16000 (tgtCol tg q) n

theorem kept_reset (x : Vec Ideal S2048x1024 .bf16) (w1 : Vec Ideal S1024x1024 .bf16) (w2s : ℕ → Vec Ideal S1024x512 .bf16)
    (tg : Vec Ideal S2048x1 .i32) : Kept x w1 w2s tg 0 (reset0 (F := Ideal) x w1) where
  h := rfl
  mx q := reset0_mx x w1 q
  sm q := reset0_sm x w1 q
  tl q := reset0_tl x w1 q

theorem kept_step (x : Vec Ideal S2048x1024 .bf16) (w1 : Vec Ideal S1024x1024 .bf16) (w2s : ℕ → Vec Ideal S1024x512 .bf16)
    (tg : Vec Ideal S2048x1 .i32)
    (htg : ∀ q : Fin 2048, 0 ≤ (tg (ix2 q 0) : BitVec 32).toInt ∧ (tg (ix2 q 0) : BitVec 32).toInt < 50000)
    (i : grid0.Coords) (n : ℕ) (hi : (i 1).val = n) (s s1 : St0 Ideal)
    (hs1 : s1 = if first0 i then reset0 x w1 else s) (hk : Kept x w1 w2s tg n s1) :
    Kept x w1 w2s tg (n + 1) (step0 (F := Ideal) i x w1 (w2s n) tg s) where
  h := (step0_h i x w1 (w2s n) tg s s1 hs1).trans hk.h
  mx q := by
    rw [step0_mx i x w1 (w2s n) tg s s1 hs1 q, hk.mx q, hk.h, hi]
    rfl
  sm q := by
    rw [step0_sm i x w1 (w2s n) tg s s1 hs1 q, hk.mx q, hk.sm q, hk.h, hi]
    rfl
  tl q := by
    rw [step0_tl i x w1 (w2s n) tg s s1 hs1 q (htg q), hk.tl q, hk.h, hi]
    rfl

theorem step0_congr (i : grid0.Coords) {x x' : Vec Ideal S2048x1024 .bf16} {w1 w1' : Vec Ideal S1024x1024 .bf16}
    {w2 w2' : Vec Ideal S1024x512 .bf16} {tg tg' : Vec Ideal S2048x1 .i32} (hx : x = x') (hw1 : w1 = w1') (hw2 : w2 = w2')
    (htg : tg = tg') (s : St0 Ideal) :
    step0 (F := Ideal) i x w1 w2 tg s = step0 (F := Ideal) i x' w1' w2' tg' s := by
  rw [hx, hw1, hw2, htg]

end Iterate

def rowOf (r : Fin 2) (q : Fin 2048) : Fin 4096 := ⟨r.val * 2048 + q.val, by have := r.isLt; have := q.isLt; omega⟩

theorem rowOf_val (r : Fin 2) (q : Fin 2048) : (rowOf r q).val = r.val * 2048 + q.val := rfl

def xRows (X : S4096x1024.Idx → EReal) (r : Fin 2) : Vec Ideal S2048x1024 .bf16 :=
  fun j => X (ix2 (rowOf r (j 0)) (j 1))

def w2Tile (W2 : S1024x16000.Idx → EReal) (n : ℕ) : Vec Ideal S1024x512 .bf16 :=
  fun j => if h : n * 512 + (j 1).val < 16000 then W2 (ix2 (j 0) ⟨n * 512 + (j 1).val, h⟩) else (0 : EReal)

def tRows (T : S4096.Idx → BitVec 32) (r : Fin 2) : Vec Ideal S2048x1 .i32 :=
  fun j => T (ix1 (rowOf r (j 0)))

theorem tileLg_eq (X : S4096x1024.Idx → EReal) (W1 : S1024x1024.Idx → EReal) (W2 : S1024x16000.Idx → EReal)
    (r : Fin 2) (q : Fin 2048) (n : ℕ) (j : Fin 512) :
    tileLg (xRows X r) W1 (w2Tile W2) n q j
      = if h : n * 512 + j.val < 16000 then Cert.RowDefs.lg2 X W1 W2 (rowOf r q) ⟨n * 512 + j.val, h⟩ else ⊥ := by
  unfold tileLg lg
  by_cases h : n * 512 + j.val < 16000
  · rw [if_pos h, dif_pos h]
    unfold Cert.RowDefs.lg2
    refine Finset.sum_congr rfl fun k _ => ?_
    rw [reset0_h]
    show _ * (if h' : n * 512 + j.val < 16000 then W2 (ix2 k ⟨n * 512 + j.val, h'⟩) else (0 : EReal)) = _
    rw [dif_pos h]
    rfl
  · rw [if_neg h, dif_neg h]

def rowReal (X : S4096x1024.Idx → EReal) (W1 : S1024x1024.Idx → EReal) (W2 : S1024x16000.Idx → EReal)
    (p : Fin 4096) : ℕ → ℝ :=
  fun col => if h : col < 16000 then (Cert.RowDefs.lg2 X W1 W2 p ⟨col, h⟩).toReal else 0

theorem row_value (X : S4096x1024.Idx → EReal) (W1 : S1024x1024.Idx → EReal) (W2 : S1024x16000.Idx → EReal)
    (T : S4096.Idx → BitVec 32)
    (hXr : ∀ i, X i = (((X i).toReal : ℝ) : EReal)) (hW1r : ∀ i, W1 i = (((W1 i).toReal : ℝ) : EReal))
    (hW2r : ∀ i, W2 i = (((W2 i).toReal : ℝ) : EReal))
    (r : Fin 2) (q : Fin 2048) (s : St0 Ideal) (hk : Kept (xRows X r) W1 (w2Tile W2) (tRows T r) 32 s) :
    out0 (F := Ideal) (tRows T r) s (ix2 q 0)
      = Cert.RowDefs.tailNll (C := 16000) (by decide) 4000 20000 (T (ix1 (rowOf r q))).toInt
          (fun k => Cert.RowDefs.lg2 X W1 W2 (rowOf r q) k) := by
  rw [out0_apply, hk.mx q, hk.sm q, hk.tl q]
  have ha : ∀ n, n < 32 → ∀ j : Fin 512,
      (fun n' => tileLg (xRows X r) W1 (w2Tile W2) n' q) n j
        = if n * 512 + j.val < 16000 then ((rowReal X W1 W2 (rowOf r q) (n * 512 + j.val) : ℝ) : EReal) else ⊥ := by
    intro n _ j
    show tileLg (xRows X r) W1 (w2Tile W2) n q j = _
    rw [tileLg_eq]
    by_cases h : n * 512 + j.val < 16000
    · rw [dif_pos h, if_pos h]
      unfold rowReal
      rw [dif_pos h]
      exact (lg2_isReal X W1 W2 hXr hW1r hW2r _ _).eq_coe_toReal
    · rw [dif_neg h, if_neg h]
  have hy : ∀ k : Fin 16000, (fun k => Cert.RowDefs.lg2 X W1 W2 (rowOf r q) k) k
      = ((rowReal X W1 W2 (rowOf r q) k.val : ℝ) : EReal) := by
    intro k
    show Cert.RowDefs.lg2 X W1 W2 (rowOf r q) k = _
    unfold rowReal
    rw [dif_pos k.isLt]
    exact (lg2_isReal X W1 W2 hXr hW1r hW2r _ _).eq_coe_toReal
  exact RowNll.tail_row (B := 512) (T := 32) (C := 16000) (x := rowReal X W1 W2 (rowOf r q))
    (by decide) (by decide) (by decide) ha _ hy (lo := 4000) (hi := 20000)
    (t := (T (ix1 (rowOf r q))).toInt) (by norm_num)

theorem N0 : cfg0.N = 64 := (by decide +kernel : grid0.N = 64)

theorem lt64 (t : Fin cfg0.N) : t.val < 64 := by
  have h := t.isLt
  have e := N0
  omega

theorem coords0 : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)

theorem idx0 : ∀ t : Fin cfg0.N,
    win0_0.index t (0 : Fin 2) = t.val / 32 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 32
    ∧ win0_3.index t (0 : Fin 2) = t.val / 32 ∧ win0_3.index t (1 : Fin 2) = 0
    ∧ win0_4.index t (0 : Fin 2) = t.val / 32 ∧ win0_4.index t (1 : Fin 2) = 0 :=
  (by decide +kernel : ∀ t : Fin grid0.N, _)

section Blocks

variable (V : (c : Dev nD) → (b : Ref sig .tc) → Buf (Elt Ideal) ((c : Thread nD τ).loc b))

theorem xb0_apply (c : Dev nD) (t : Fin cfg0.N) (j : S2048x1024.Idx) (k : S4096x1024.Idx)
    (hk0 : (k 0).val = t.val / 32 * 2048 + (j 0).val) (hk1 : (k 1).val = (j 1).val) :
    (xb0 V c t : Vec Ideal S2048x1024 .bf16) j = (V c main_v0 : S4096x1024.Idx → EReal) k := by
  obtain ⟨e0, e1, -⟩ := idx0 t
  show (V c main_v0 : S4096x1024.Idx → EReal) (((cfg0.win 0).blk t).view.emb j) = _
  congr 1
  funext a
  apply Fin.ext
  match a with
  | ⟨0, _⟩ =>
    show win0_0.index t (0 : Fin 2) * 2048 + 1 * (j 0).val = (k 0).val
    rw [e0, hk0]; omega
  | ⟨1, _⟩ =>
    show win0_0.index t (1 : Fin 2) * 1024 + 1 * (j 1).val = (k 1).val
    rw [e1, hk1]; omega

theorem pb0_apply (c : Dev nD) (t : Fin cfg0.N) (j : S1024x1024.Idx) (k : S1024x1024.Idx)
    (hk0 : (k 0).val = (j 0).val) (hk1 : (k 1).val = (j 1).val) :
    (pb0 V c t : Vec Ideal S1024x1024 .bf16) j = (V c main_v2 : S1024x1024.Idx → EReal) k := by
  obtain ⟨-, -, e0, e1, -⟩ := idx0 t
  show (V c main_v2 : S1024x1024.Idx → EReal) (((cfg0.win 1).blk t).view.emb j) = _
  congr 1
  funext a
  apply Fin.ext
  match a with
  | ⟨0, _⟩ =>
    show win0_1.index t (0 : Fin 2) * 1024 + 1 * (j 0).val = (k 0).val
    rw [e0, hk0]; omega
  | ⟨1, _⟩ =>
    show win0_1.index t (1 : Fin 2) * 1024 + 1 * (j 1).val = (k 1).val
    rw [e1, hk1]; omega

theorem wb0_apply (c : Dev nD) (t : Fin cfg0.N) (j : S1024x512.Idx) (k : S1024x16384.Idx)
    (hk0 : (k 0).val = (j 0).val) (hk1 : (k 1).val = t.val % 32 * 512 + (j 1).val) :
    (wb0 V c t : Vec Ideal S1024x512 .bf16) j = (V c main_v4 : S1024x16384.Idx → EReal) k := by
  obtain ⟨-, -, -, -, e0, e1, -⟩ := idx0 t
  show (V c main_v4 : S1024x16384.Idx → EReal) (((cfg0.win 2).blk t).view.emb j) = _
  congr 1
  funext a
  apply Fin.ext
  match a with
  | ⟨0, _⟩ =>
    show win0_2.index t (0 : Fin 2) * 1024 + 1 * (j 0).val = (k 0).val
    rw [e0, hk0]; omega
  | ⟨1, _⟩ =>
    show win0_2.index t (1 : Fin 2) * 512 + 1 * (j 1).val = (k 1).val
    rw [e1, hk1]; omega

theorem tb0_apply (c : Dev nD) (t : Fin cfg0.N) (j : S2048x1.Idx) (k : S4096x1.Idx)
    (hk0 : (k 0).val = t.val / 32 * 2048 + (j 0).val) (hk1 : (k 1).val = (j 1).val) :
    (tb0 V c t : Vec Ideal S2048x1 .i32) j = (V c main_v1 : S4096x1.Idx → BitVec 32) k := by
  obtain ⟨-, -, -, -, -, -, e0, e1, -⟩ := idx0 t
  show (V c main_v1 : S4096x1.Idx → BitVec 32) (((cfg0.win 3).blk t).view.emb j) = _
  congr 1
  funext a
  apply Fin.ext
  match a with
  | ⟨0, _⟩ =>
    show win0_3.index t (0 : Fin 2) * 2048 + 1 * (j 0).val = (k 0).val
    rw [e0, hk0]; omega
  | ⟨1, _⟩ =>
    show win0_3.index t (1 : Fin 2) * 1 + 1 * (j 1).val = (k 1).val
    rw [e1, hk1]; omega

variable (X : S4096x1024.Idx → EReal) (W1 : S1024x1024.Idx → EReal) (W2 : S1024x16000.Idx → EReal)
  (T : S4096.Idx → BitVec 32)

theorem xb0_eq (c : Dev nD)
    (hX : ∀ (p : Fin 4096) (e : Fin 1024), (V c main_v0 : S4096x1024.Idx → EReal) (ix2 p e) = X (ix2 p e))
    (t : Fin cfg0.N) (r : Fin 2) (hr : t.val / 32 = r.val) :
    (xb0 V c t : Vec Ideal S2048x1024 .bf16) = xRows X r := by
  funext j
  refine (xb0_apply V c t j (ix2 (rowOf r (j 0)) (j 1)) ?_ rfl).trans (hX _ _)
  show r.val * 2048 + (j 0).val = t.val / 32 * 2048 + (j 0).val
  rw [hr]

theorem pb0_eq (c : Dev nD)
    (hW1 : ∀ (e : Fin 1024) (d : Fin 1024), (V c main_v2 : S1024x1024.Idx → EReal) (ix2 e d) = W1 (ix2 e d))
    (t : Fin cfg0.N) : (pb0 V c t : Vec Ideal S1024x1024 .bf16) = W1 := by
  funext j
  exact (pb0_apply V c t j (ix2 (j 0) (j 1)) rfl rfl).trans ((hW1 _ _).trans (congrArg W1 (eq_ix2 j).symm))

theorem wb0_eq (c : Dev nD)
    (hW2 : ∀ (d : Fin 1024) (k : Fin 16384), (V c main_v4 : S1024x16384.Idx → EReal) (ix2 d k)
      = if h : k.val < 16000 then W2 (ix2 d ⟨k.val, h⟩) else 0)
    (t : Fin cfg0.N) (n : ℕ) (hn : t.val % 32 = n) :
    (wb0 V c t : Vec Ideal S1024x512 .bf16) = w2Tile W2 n := by
  funext j
  have hj : (j 1).val < 512 := idx2_lt1 j
  have hlt : n * 512 + (j 1).val < 16384 := by omega
  refine (wb0_apply V c t j (ix2 (j 0) (⟨n * 512 + (j 1).val, hlt⟩ : Fin 16384)) rfl ?_).trans ((hW2 _ _).trans ?_)
  · show n * 512 + (j 1).val = _
    rw [hn]
  · rfl

theorem tb0_eq (c : Dev nD)
    (hT : ∀ p : Fin 4096, (V c main_v1 : S4096x1.Idx → BitVec 32) (ix2 p (0 : Fin 1)) = T (ix1 p))
    (t : Fin cfg0.N) (r : Fin 2) (hr : t.val / 32 = r.val) :
    (tb0 V c t : Vec Ideal S2048x1 .i32) = tRows T r := by
  funext j
  refine (tb0_apply V c t j (ix2 (rowOf r (j 0)) (0 : Fin 1)) ?_ ?_).trans (hT _)
  · show r.val * 2048 + (j 0).val = t.val / 32 * 2048 + (j 0).val
    rw [hr]
  · show (0 : ℕ) = (j 1).val
    have := idx2_lt1 j
    omega

end Blocks

def G (X : S4096x1024.Idx → EReal) (W1 : S1024x1024.Idx → EReal) (W2 : S1024x16000.Idx → EReal)
    (T : S4096.Idx → BitVec 32) : S4096x1.Idx → EReal :=
  fun i => Cert.RowDefs.tailNll (C := 16000) (by decide) 4000 20000 (T (ix1 (i 0))).toInt
    (fun k => Cert.RowDefs.lg2 X W1 W2 (i 0) k)

section Region

variable (V : (c : Dev nD) → (b : Ref sig .tc) → Buf (Elt Ideal) ((c : Thread nD τ).loc b))

theorem stAt0_is_step (c : Dev nD) : ∀ (t : ℕ) (ht : t < cfg0.N), ∃ s : St0 Ideal,
    stAt0 (F := Ideal) V c t ht = step0 (grid0.coords ⟨t, ht⟩) (xb0 V c ⟨t, ht⟩) (pb0 V c ⟨t, ht⟩) (wb0 V c ⟨t, ht⟩)
      (tb0 V c ⟨t, ht⟩) s
  | 0, ht => ⟨_, rfl⟩
  | t + 1, ht => ⟨_, stAt0_succ V c t ht⟩

variable (X : S4096x1024.Idx → EReal) (W1 : S1024x1024.Idx → EReal) (W2 : S1024x16000.Idx → EReal)
  (T : S4096.Idx → BitVec 32)

/-- The kept values after a point are the online recursions over the tiles of the row block seen so far. -/
theorem stAt0_kept (c : Dev nD)
    (hX : ∀ (p : Fin 4096) (e : Fin 1024), (V c main_v0 : S4096x1024.Idx → EReal) (ix2 p e) = X (ix2 p e))
    (hW1 : ∀ (e : Fin 1024) (d : Fin 1024), (V c main_v2 : S1024x1024.Idx → EReal) (ix2 e d) = W1 (ix2 e d))
    (hW2 : ∀ (d : Fin 1024) (k : Fin 16384), (V c main_v4 : S1024x16384.Idx → EReal) (ix2 d k)
      = if h : k.val < 16000 then W2 (ix2 d ⟨k.val, h⟩) else 0)
    (hT : ∀ p : Fin 4096, (V c main_v1 : S4096x1.Idx → BitVec 32) (ix2 p (0 : Fin 1)) = T (ix1 p))
    (hrange : ∀ p : Fin 4096, 0 ≤ (T (ix1 p)).toInt ∧ (T (ix1 p)).toInt < 50000)
    (r : Fin 2) (n : ℕ) : n < 32 → ∀ (t : ℕ) (ht : t < cfg0.N), t = r.val * 32 + n →
      Kept (xRows X r) W1 (w2Tile W2) (tRows T r) (n + 1) (stAt0 (F := Ideal) V c t ht) := by
  have htg : ∀ q : Fin 2048, 0 ≤ (tRows T r (ix2 q 0) : BitVec 32).toInt ∧ (tRows T r (ix2 q 0) : BitVec 32).toInt < 50000 :=
    fun q => hrange (rowOf r q)
  have hr2 := r.isLt
  induction n with
  | zero =>
    intro _ t ht e
    obtain ⟨s, hs⟩ := stAt0_is_step V c t ht
    have hc : (grid0.coords ⟨t, ht⟩ 1).val = t % 32 := (coords0 ⟨t, ht⟩).2
    have hi : (grid0.coords ⟨t, ht⟩ 1).val = 0 := by rw [hc]; omega
    have e2 := step0_congr (grid0.coords ⟨t, ht⟩)
      (xb0_eq V X c hX ⟨t, ht⟩ r (by show t / 32 = r.val; omega)) (pb0_eq V W1 c hW1 ⟨t, ht⟩)
      (wb0_eq V W2 c hW2 ⟨t, ht⟩ 0 (by show t % 32 = 0; omega))
      (tb0_eq V T c hT ⟨t, ht⟩ r (by show t / 32 = r.val; omega)) s
    rw [hs.trans e2]
    exact kept_step (xRows X r) W1 (w2Tile W2) (tRows T r) htg (grid0.coords ⟨t, ht⟩) 0 hi s _
      (if_pos ((first0_iff _).mpr hi)).symm (kept_reset _ _ _ _)
  | succ n ih =>
    intro hn t ht e
    obtain rfl : t = r.val * 32 + n + 1 := e
    have ht' : r.val * 32 + n < cfg0.N := Nat.lt_of_succ_lt ht
    have hk := ih (by omega) (r.val * 32 + n) ht' rfl
    have hc : (grid0.coords ⟨r.val * 32 + n + 1, ht⟩ 1).val = (r.val * 32 + n + 1) % 32 := (coords0 ⟨r.val * 32 + n + 1, ht⟩).2
    have hi : (grid0.coords ⟨r.val * 32 + n + 1, ht⟩ 1).val = n + 1 := by rw [hc]; omega
    have e1 := stAt0_succ V c (r.val * 32 + n) ht
    have e2 := step0_congr (grid0.coords ⟨r.val * 32 + n + 1, ht⟩)
      (xb0_eq V X c hX ⟨r.val * 32 + n + 1, ht⟩ r (by show (r.val * 32 + n + 1) / 32 = r.val; omega))
      (pb0_eq V W1 c hW1 ⟨r.val * 32 + n + 1, ht⟩)
      (wb0_eq V W2 c hW2 ⟨r.val * 32 + n + 1, ht⟩ (n + 1) (by show (r.val * 32 + n + 1) % 32 = n + 1; omega))
      (tb0_eq V T c hT ⟨r.val * 32 + n + 1, ht⟩ r (by show (r.val * 32 + n + 1) / 32 = r.val; omega))
      (stAt0 (F := Ideal) V c (r.val * 32 + n) (Nat.lt_of_succ_lt ht))
    rw [e1.trans e2]
    exact kept_step (xRows X r) W1 (w2Tile W2) (tRows T r) htg (grid0.coords ⟨r.val * 32 + n + 1, ht⟩) (n + 1) hi
      (stAt0 (F := Ideal) V c (r.val * 32 + n) (Nat.lt_of_succ_lt ht)) _
      (if_neg (fun hf => by have := (first0_iff _).mp hf; omega)).symm hk

theorem out_block (c : Dev nD)
    (hX : ∀ (p : Fin 4096) (e : Fin 1024), (V c main_v0 : S4096x1024.Idx → EReal) (ix2 p e) = X (ix2 p e))
    (hW1 : ∀ (e : Fin 1024) (d : Fin 1024), (V c main_v2 : S1024x1024.Idx → EReal) (ix2 e d) = W1 (ix2 e d))
    (hW2 : ∀ (d : Fin 1024) (k : Fin 16384), (V c main_v4 : S1024x16384.Idx → EReal) (ix2 d k)
      = if h : k.val < 16000 then W2 (ix2 d ⟨k.val, h⟩) else 0)
    (hT : ∀ p : Fin 4096, (V c main_v1 : S4096x1.Idx → BitVec 32) (ix2 p (0 : Fin 1)) = T (ix1 p))
    (hXr : ∀ i, X i = (((X i).toReal : ℝ) : EReal)) (hW1r : ∀ i, W1 i = (((W1 i).toReal : ℝ) : EReal))
    (hW2r : ∀ i, W2 i = (((W2 i).toReal : ℝ) : EReal))
    (hrange : ∀ p : Fin 4096, 0 ≤ (T (ix1 p)).toInt ∧ (T (ix1 p)).toInt < 50000)
    (t : Fin cfg0.N) (h31 : t.val % 32 = 31) (j : S2048x1.Idx) (p : Fin 4096)
    (hp : p.val = t.val / 32 * 2048 + (j 0).val) :
    out0 (F := Ideal) (tb0 V c t) (stAt0 (F := Ideal) V c t.val t.isLt) j
      = Cert.RowDefs.tailNll (C := 16000) (by decide) 4000 20000 (T (ix1 p)).toInt
          (fun k => Cert.RowDefs.lg2 X W1 W2 p k) := by
  have h64 := lt64 t
  obtain ⟨r, hr⟩ : ∃ r : Fin 2, t.val / 32 = r.val := ⟨⟨t.val / 32, by omega⟩, rfl⟩
  have hk := stAt0_kept V X W1 W2 T c hX hW1 hW2 hT hrange r 31 (by omega) t.val t.isLt (by omega)
  have hj : j = ix2 (j 0) (0 : Fin 1) := by
    funext a
    match a with
    | ⟨0, _⟩ => rfl
    | ⟨1, _⟩ => exact Fin.ext (by have := idx2_lt1 j; show (j 1).val = 0; omega)
  have hpq : p = rowOf r (j 0) := Fin.ext (by show p.val = r.val * 2048 + (j 0).val; rw [hp, hr])
  rw [tb0_eq V T c hT t r hr, hj, hpq]
  exact row_value X W1 W2 T hXr hW1r hW2r r (j 0) _ hk

theorem flushed_eq (c : Dev nD)
    (hX : ∀ (p : Fin 4096) (e : Fin 1024), (V c main_v0 : S4096x1024.Idx → EReal) (ix2 p e) = X (ix2 p e))
    (hW1 : ∀ (e : Fin 1024) (d : Fin 1024), (V c main_v2 : S1024x1024.Idx → EReal) (ix2 e d) = W1 (ix2 e d))
    (hW2 : ∀ (d : Fin 1024) (k : Fin 16384), (V c main_v4 : S1024x16384.Idx → EReal) (ix2 d k)
      = if h : k.val < 16000 then W2 (ix2 d ⟨k.val, h⟩) else 0)
    (hT : ∀ p : Fin 4096, (V c main_v1 : S4096x1.Idx → BitVec 32) (ix2 p (0 : Fin 1)) = T (ix1 p))
    (hXr : ∀ i, X i = (((X i).toReal : ℝ) : EReal)) (hW1r : ∀ i, W1 i = (((W1 i).toReal : ℝ) : EReal))
    (hW2r : ∀ i, W2 i = (((W2 i).toReal : ℝ) : EReal))
    (hrange : ∀ p : Fin 4096, 0 ≤ (T (ix1 p)).toInt ∧ (T (ix1 p)).toInt < 50000)
    (t : Fin cfg0.N) (hf : (cfg0.win 4).flush t = true) :
    (dat0 (F := Ideal) V c).flushed 4 t = ((cfg0.win 4).blk t).view.read (Elt Ideal) (G X W1 W2 T) := by
  have h31 := (flush0_4 t).mp hf
  obtain ⟨-, -, -, -, -, -, -, -, e0, e1⟩ := idx0 t
  show (cfg0.win 4).cut (grid0.coords t) ((dat0 (F := Ideal) V c).after 4 t) = _
  rw [after0_4]
  funext j
  show out0 (F := Ideal) (tb0 V c t) (stAt0 (F := Ideal) V c t.val t.isLt) j
    = G X W1 W2 T (((cfg0.win 4).blk t).view.emb j)
  refine out_block V X W1 W2 T c hX hW1 hW2 hT hXr hW1r hW2r hrange t h31 j _ ?_
  show win0_4.index t (0 : Fin 2) * 2048 + 1 * (j 0).val = t.val / 32 * 2048 + (j 0).val
  rw [e0]; omega

theorem cover (i : S4096x1.Idx) :
    ∃ t : Fin cfg0.N, (cfg0.win 4).flush t = true ∧ i ∈ ((cfg0.win 4).blk t).view.set := by
  have hi0 : (i 0).val < 4096 := idx2_lt0 i
  have hi1 : (i 1).val < 1 := idx2_lt1 i
  obtain ⟨t, ht⟩ : ∃ t : Fin cfg0.N, t.val = (i 0).val / 2048 * 32 + 31 :=
    ⟨⟨(i 0).val / 2048 * 32 + 31, by rw [N0]; omega⟩, rfl⟩
  obtain ⟨-, -, -, -, -, -, -, -, e0, e1⟩ := idx0 t
  refine ⟨t, (flush0_4 t).mpr (by rw [ht]; omega), ?_⟩
  show i ∈ ((View.whole main_v5).slice (win0_4.rect t)).set
  rw [View.set_slice_whole, Rect.mem_set_unit]
  intro a
  match a with
  | ⟨0, _⟩ =>
    show win0_4.index t (0 : Fin 2) * 2048 ≤ (i 0).val ∧ (i 0).val < win0_4.index t (0 : Fin 2) * 2048 + 2048
    rw [e0, ht]; omega
  | ⟨1, _⟩ =>
    show win0_4.index t (1 : Fin 2) * 1 ≤ (i 1).val ∧ (i 1).val < win0_4.index t (1 : Fin 2) * 1 + 1
    rw [e1]; omega

/-- After the cluster's grid the result array holds, row by row, the cluster's term of the row's real logits. -/
theorem region0_value (c : Dev nD)
    (hX : ∀ (p : Fin 4096) (e : Fin 1024), (V c main_v0 : S4096x1024.Idx → EReal) (ix2 p e) = X (ix2 p e))
    (hW1 : ∀ (e : Fin 1024) (d : Fin 1024), (V c main_v2 : S1024x1024.Idx → EReal) (ix2 e d) = W1 (ix2 e d))
    (hW2 : ∀ (d : Fin 1024) (k : Fin 16384), (V c main_v4 : S1024x16384.Idx → EReal) (ix2 d k)
      = if h : k.val < 16000 then W2 (ix2 d ⟨k.val, h⟩) else 0)
    (hT : ∀ p : Fin 4096, (V c main_v1 : S4096x1.Idx → BitVec 32) (ix2 p (0 : Fin 1)) = T (ix1 p))
    (hXr : ∀ i, X i = (((X i).toReal : ℝ) : EReal)) (hW1r : ∀ i, W1 i = (((W1 i).toReal : ℝ) : EReal))
    (hW2r : ∀ i, W2 i = (((W2 i).toReal : ℝ) : EReal))
    (hrange : ∀ p : Fin 4096, 0 ≤ (T (ix1 p)).toInt ∧ (T (ix1 p)).toInt < 50000) :
    ∀ p : Fin 4096, ((dat0 (F := Ideal) V c).arrAt 4 cfg0.N : S4096x1.Idx → EReal) (ix2 p (0 : Fin 1))
      = Cert.RowDefs.tailNll (C := 16000) (by decide) 4000 20000 (T (ix1 p)).toInt
          (fun k => Cert.RowDefs.lg2 X W1 W2 p k) := by
  intro p
  have hfin := (dat0 (F := Ideal) V c).arrAt_eq_of_cover 4 (G X W1 W2 T)
    (fun t hf => flushed_eq V X W1 W2 T c hX hW1 hW2 hT hXr hW1r hW2r hrange t hf) cover
  exact congrFun hfin (ix2 p (0 : Fin 1))

end Region

end Cert.KernelIdeal.Row0

end
-- ==== Proof.KI.Val1.lean ====
import proofs.«422338_j11269994185272_3_alg».proof.Proof.KI.Step
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val1

open Idealize.ShloMosaic Idealize.ShloMosaic.ValueIdx Cert.KernelIdeal Cert.KernelIdeal.Gen

section Layout
variable {α : Type}

theorem shapeCast_a_a1_apply {a : Nat} (v : (⟨1, ![a]⟩ : Shape).Idx → α)
    (h : (⟨1, ![a]⟩ : Shape).ShapeCasts ⟨2, ![a, 1]⟩) (q : Fin a) (u : Fin 1) :
    shapeCast ⟨2, ![a, 1]⟩ v h (ix2 q u) = v (ix1 q) :=
  shapeCast_apply v h (ix2 q u) (ix1 q) (by
    rw [Shape.rowMajor_val_one, Shape.rowMajor_val_two]
    show q.val = q.val * 1 + u.val
    have := u.isLt
    omega)

theorem broadcastTo_a1_ab_apply {a b : Nat} (v : (⟨2, ![a, 1]⟩ : Shape).Idx → α)
    (h : (⟨2, ![a, 1]⟩ : Shape).Broadcasts ⟨2, ![a, b]⟩) (q : Fin a) (j : Fin b) :
    broadcastTo ⟨2, ![a, b]⟩ v h (ix2 q j) = v (ix2 q (0 : Fin 1)) :=
  broadcastTo_apply v h (ix2 q j) (ix2 q (0 : Fin 1)) (fun ax => by
    match ax with
    | ⟨0, _⟩ =>
      by_cases h1 : a = 1
      · subst h1
        show q.val = if (1 : Nat) = 1 then 0 else q.val
        rw [if_pos rfl]; have := q.isLt; omega
      · show q.val = if a = 1 then 0 else q.val
        rw [if_neg h1]
    | ⟨1, _⟩ => rfl)

end Layout

theorem colWord_toInt (c w j : Nat) (h : c * w + j < 2 ^ 31) (hc : c < 2 ^ 31) (hw : w < 2 ^ 31) :
    (BitVec.ofNat 32 c * BitVec.ofNat 32 w + BitVec.ofNat 32 j).toInt = ((c * w + j : Nat) : Int) := by
  have hj : j < 2 ^ 31 := by omega
  have hcw : c * w < 2 ^ 31 := by omega
  rw [BitVec.toInt_eq_toNat_cond]
  simp only [BitVec.toNat_add, BitVec.toNat_mul, BitVec.toNat_ofNat]
  rw [Nat.mod_eq_of_lt (show c < 2 ^ 32 by omega), Nat.mod_eq_of_lt (show w < 2 ^ 32 by omega),
    Nat.mod_eq_of_lt (show j < 2 ^ 32 by omega), Nat.mod_eq_of_lt (show c * w < 2 ^ 32 by omega),
    Nat.mod_eq_of_lt (show c * w + j < 2 ^ 32 by omega)]
  rw [if_pos (by omega)]

theorem sub_toInt (t : BitVec 32) (lo : Nat) (ht0 : 0 ≤ t.toInt) (hlo : lo < 2 ^ 31) :
    (t - BitVec.ofNat 32 lo).toInt = t.toInt - (lo : Int) := by
  have h1 := BitVec.toInt_eq_toNat_cond t
  have h2 := BitVec.toInt_eq_toNat_cond (t - BitVec.ofNat 32 lo)
  have h3 := t.isLt
  rw [BitVec.toNat_sub, BitVec.toNat_ofNat, Nat.mod_eq_of_lt (show lo < 2 ^ 32 by omega)] at h2
  split_ifs at h1 h2 <;> omega

theorem colWord_eq_sub_iff (c w j lo : Nat) (t : BitVec 32) (h : c * w + j < 2 ^ 31) (hc : c < 2 ^ 31) (hw : w < 2 ^ 31)
    (hlo : lo < 2 ^ 31) (ht0 : 0 ≤ t.toInt) :
    BitVec.ofNat 32 c * BitVec.ofNat 32 w + BitVec.ofNat 32 j = t - BitVec.ofNat 32 lo
      ↔ ((c * w + j : Nat) : Int) = t.toInt - (lo : Int) := by
  rw [← BitVec.toInt_inj, colWord_toInt c w j h hc hw, sub_toInt t lo ht0 hlo]

theorem lhsW2_0 (i : S2048x768.Idx) (k : dot_S2048x256_S256x768_S2048x768_1_0_0_1_n_n.contr.Idx) :
    (dot_S2048x256_S256x768_S2048x768_1_0_0_1_n_n.lhsIdx i k 0).val = (i 0).val := by
  unfold DotDims.lhsIdx
  rw [dif_neg (show ¬(0 : Fin S2048x256.rank) ∈ dot_S2048x256_S256x768_S2048x768_1_0_0_1_n_n.lhsBatch by decide),
    dif_pos (show (0 : Fin S2048x256.rank) ∈ dot_S2048x256_S256x768_S2048x768_1_0_0_1_n_n.lhsNonContracting by decide)]
  rfl
theorem lhsW2_1 (i : S2048x768.Idx) (k : dot_S2048x256_S256x768_S2048x768_1_0_0_1_n_n.contr.Idx) :
    (dot_S2048x256_S256x768_S2048x768_1_0_0_1_n_n.lhsIdx i k 1).val = (k ⟨0, by decide⟩).val :=
  dot_S2048x256_S256x768_S2048x768_1_0_0_1_n_n.lhsIdx_val_of_single rfl i k
theorem rhsW2_0 (i : S2048x768.Idx) (k : dot_S2048x256_S256x768_S2048x768_1_0_0_1_n_n.contr.Idx) :
    (dot_S2048x256_S256x768_S2048x768_1_0_0_1_n_n.rhsIdx i k 0).val = (k ⟨0, by decide⟩).val :=
  dot_S2048x256_S256x768_S2048x768_1_0_0_1_n_n.rhsIdx_val_of_single rfl i k
theorem rhsW2_1 (i : S2048x768.Idx) (k : dot_S2048x256_S256x768_S2048x768_1_0_0_1_n_n.contr.Idx) :
    (dot_S2048x256_S256x768_S2048x768_1_0_0_1_n_n.rhsIdx i k 1).val = (i 1).val := by
  unfold DotDims.rhsIdx
  rw [dif_neg (show ¬(1 : Fin S256x768.rank) ∈ dot_S2048x256_S256x768_S2048x768_1_0_0_1_n_n.rhsBatch by decide),
    dif_pos (show (1 : Fin S256x768.rank) ∈ dot_S2048x256_S256x768_S2048x768_1_0_0_1_n_n.rhsNonContracting by decide)]
  rfl

theorem matmulW2_apply (a : FVec Ideal S2048x256 .bf16) (b : FVec Ideal S256x768 .bf16) (q : Fin 2048) (j : Fin 768) :
    matmul (F := Ideal) dot_S2048x256_S256x768_S2048x768_1_0_0_1_n_n none a b
        (constant (F := Ideal) S2048x768 .f32 0x00000000#32) (ix2 q j)
      = ∑ k : Fin 256, a (ix2 q k) * b (ix2 k j) := by
  simp only [matmul]
  rw [Ideal.matmul_constant_zero_apply,
    ← Equiv.sum_comp (contrEquiv1 dot_S2048x256_S256x768_S2048x768_1_0_0_1_n_n 256 rfl rfl).symm]
  refine Finset.sum_congr rfl fun k _ => ?_
  have hk := contrEquiv1_symm_val dot_S2048x256_S256x768_S2048x768_1_0_0_1_n_n 256 rfl rfl k
  have el : dot_S2048x256_S256x768_S2048x768_1_0_0_1_n_n.lhsIdx (ix2 q j)
      ((contrEquiv1 dot_S2048x256_S256x768_S2048x768_1_0_0_1_n_n 256 rfl rfl).symm k) = ix2 q k :=
    funext fun ax => Fin.ext (by
      match ax with
      | ⟨0, _⟩ => exact lhsW2_0 _ _
      | ⟨1, _⟩ => exact (lhsW2_1 _ _).trans hk)
  have er : dot_S2048x256_S256x768_S2048x768_1_0_0_1_n_n.rhsIdx (ix2 q j)
      ((contrEquiv1 dot_S2048x256_S256x768_S2048x768_1_0_0_1_n_n 256 rfl rfl).symm k) = ix2 k j :=
    funext fun ax => Fin.ext (by
      match ax with
      | ⟨0, _⟩ => exact (rhsW2_0 _ _).trans hk
      | ⟨1, _⟩ => exact rhsW2_1 _ _)
  rw [el, er]

theorem lhsW1_0 (i : S2048x256.Idx) (r : dot_S2048x1024_S1024x256_S2048x256_1_0_0_1_n_n.contr.Idx) :
    (dot_S2048x1024_S1024x256_S2048x256_1_0_0_1_n_n.lhsIdx i r 0).val = (i 0).val := by
  unfold DotDims.lhsIdx
  rw [dif_neg (show ¬(0 : Fin S2048x1024.rank) ∈ dot_S2048x1024_S1024x256_S2048x256_1_0_0_1_n_n.lhsBatch by decide),
    dif_pos (show (0 : Fin S2048x1024.rank) ∈ dot_S2048x1024_S1024x256_S2048x256_1_0_0_1_n_n.lhsNonContracting by decide)]
  rfl
theorem lhsW1_1 (i : S2048x256.Idx) (r : dot_S2048x1024_S1024x256_S2048x256_1_0_0_1_n_n.contr.Idx) :
    (dot_S2048x1024_S1024x256_S2048x256_1_0_0_1_n_n.lhsIdx i r 1).val = (r ⟨0, by decide⟩).val :=
  dot_S2048x1024_S1024x256_S2048x256_1_0_0_1_n_n.lhsIdx_val_of_single rfl i r
theorem rhsW1_0 (i : S2048x256.Idx) (r : dot_S2048x1024_S1024x256_S2048x256_1_0_0_1_n_n.contr.Idx) :
    (dot_S2048x1024_S1024x256_S2048x256_1_0_0_1_n_n.rhsIdx i r 0).val = (r ⟨0, by decide⟩).val :=
  dot_S2048x1024_S1024x256_S2048x256_1_0_0_1_n_n.rhsIdx_val_of_single rfl i r
theorem rhsW1_1 (i : S2048x256.Idx) (r : dot_S2048x1024_S1024x256_S2048x256_1_0_0_1_n_n.contr.Idx) :
    (dot_S2048x1024_S1024x256_S2048x256_1_0_0_1_n_n.rhsIdx i r 1).val = (i 1).val := by
  unfold DotDims.rhsIdx
  rw [dif_neg (show ¬(1 : Fin S1024x256.rank) ∈ dot_S2048x1024_S1024x256_S2048x256_1_0_0_1_n_n.rhsBatch by decide),
    dif_pos (show (1 : Fin S1024x256.rank) ∈ dot_S2048x1024_S1024x256_S2048x256_1_0_0_1_n_n.rhsNonContracting by decide)]
  rfl

theorem matmulW1_apply (xa : FVec Ideal S2048x1024 .bf16) (wb : FVec Ideal S1024x256 .bf16) (q : Fin 2048) (d : Fin 256) :
    matmul (F := Ideal) dot_S2048x1024_S1024x256_S2048x256_1_0_0_1_n_n none xa wb
        (constant (F := Ideal) S2048x256 .f32 0x00000000#32) (ix2 q d)
      = ∑ r : Fin 1024, xa (ix2 q r) * wb (ix2 r d) := by
  simp only [matmul]
  rw [Ideal.matmul_constant_zero_apply,
    ← Equiv.sum_comp (contrEquiv1 dot_S2048x1024_S1024x256_S2048x256_1_0_0_1_n_n 1024 rfl rfl).symm]
  refine Finset.sum_congr rfl fun r _ => ?_
  have hr := contrEquiv1_symm_val dot_S2048x1024_S1024x256_S2048x256_1_0_0_1_n_n 1024 rfl rfl r
  have el : dot_S2048x1024_S1024x256_S2048x256_1_0_0_1_n_n.lhsIdx (ix2 q d)
      ((contrEquiv1 dot_S2048x1024_S1024x256_S2048x256_1_0_0_1_n_n 1024 rfl rfl).symm r) = ix2 q r :=
    funext fun ax => Fin.ext (by
      match ax with
      | ⟨0, _⟩ => exact lhsW1_0 _ _
      | ⟨1, _⟩ => exact (lhsW1_1 _ _).trans hr)
  have er : dot_S2048x1024_S1024x256_S2048x256_1_0_0_1_n_n.rhsIdx (ix2 q d)
      ((contrEquiv1 dot_S2048x1024_S1024x256_S2048x256_1_0_0_1_n_n 1024 rfl rfl).symm r) = ix2 r d :=
    funext fun ax => Fin.ext (by
      match ax with
      | ⟨0, _⟩ => exact (rhsW1_0 _ _).trans hr
      | ⟨1, _⟩ => exact rhsW1_1 _ _)
  rw [el, er]

theorem lift_lane (q : Fin 2048) (j : Fin 768) : reduces_S2048x768_S2048.lift (ix1 q) j = ix2 q j :=
  funext fun ax => Fin.ext (by
    match ax with
    | ⟨0, _⟩ => rfl
    | ⟨1, _⟩ => rfl)

theorem ofBits_negInf : Ideal.ofBits .f32 0xFF800000#32 = (⊥ : EReal) := by
  simp [Ideal.ofBits, Ideal.ieee]

theorem rowMax_apply (src : FVec Ideal S2048x768 .f32) (q : Fin 2048) :
    shapeCast S2048x1 (multiReduction (F := Ideal) .maximumf [1] S2048 src 0xFF800000#32
        reduces_S2048x768_S2048 (.inl rfl) rfl) shapeCasts_S2048_S2048x1 (ix2 q 0)
      = (Finset.univ : Finset (Fin 768)).fold max ⊥ (fun j => src (ix2 q j)) := by
  rw [shapeCast_a_a1_apply]
  refine (Ideal.multiReduction_maximumf_single _ _ _ _ _ (ix1 q)).trans ?_
  rw [Ideal.ofBits_def, ofBits_negInf]
  exact Finset.fold_congr (fun j _ => congrArg src (lift_lane q j))

theorem rowSum_apply (src : FVec Ideal S2048x768 .f32) (q : Fin 2048) :
    shapeCast S2048x1 (multiReduction (F := Ideal) .add [1] S2048 src 0x00000000#32
        reduces_S2048x768_S2048 (.inl rfl) rfl) shapeCasts_S2048_S2048x1 (ix2 q 0)
      = ∑ j : Fin 768, src (ix2 q j) := by
  rw [shapeCast_a_a1_apply]
  refine (Ideal.multiReduction_add_single _ _ _ _ _ (ix1 q)).trans ?_
  exact Finset.sum_congr rfl (fun j _ => congrArg src (lift_lane q j))

def lg (h : Vec Ideal S2048x256 .bf16) (w2 : Vec Ideal S256x768 .bf16) (col : ℕ) (q : Fin 2048) (j : Fin 768) : EReal :=
  if col * 768 + j.val < 30000 then ∑ k : Fin 256, (h (ix2 q k) : EReal) * (w2 (ix2 k j) : EReal) else ⊥

theorem negBig_eq_bot : Named.named (F := Ideal) Cert.KernelIdeal.κ "neg_big" (φ := .f32) 0xF149F2CA#32 = (⊥ : EReal) :=
  IdealRules.named_const.ideal_named_scalar _ _ _ _ rfl

theorem col_lt (i : grid1.Coords) : (i 1).val < 40 := (i 1).isLt

theorem pay9_apply (i : grid1.Coords) (q : Fin 2048) (j : Fin 768) :
    k1_pay9 i (ix2 q j) = BitVec.ofNat 32 (i 1).val * BitVec.ofNat 32 768 + BitVec.ofNat 32 j.val := by
  unfold k1_pay9
  show IntOp.addi (Scalar.muli (BitVec.ofNat 32 (i 1).val) 768#32)
    (iota .tc S2048x768 32 [1] iota_S2048x768_d1_w32 (ix2 q j)) = _
  rw [iota_single_apply]
  rfl

theorem pay9_toInt (i : grid1.Coords) (q : Fin 2048) (j : Fin 768) :
    (k1_pay9 i (ix2 q j)).toInt = (((i 1).val * 768 + j.val : Nat) : Int) := by
  have := col_lt i
  have := j.isLt
  rw [pay9_apply, colWord_toInt _ _ _ (by omega) (by omega) (by omega)]

theorem pay10_apply (i : grid1.Coords) (q : Fin 2048) (j : Fin 768) :
    k1_pay10 i (ix2 q j) = 1#1 ↔ (i 1).val * 768 + j.val < 30000 := by
  unfold k1_pay10
  show IntOp.cmpi .slt (k1_pay9 i (ix2 q j)) 30000#32 = 1#1 ↔ _
  rw [IntOp.cmpi_slt, pay9_toInt]
  show (((i 1).val * 768 + j.val : Nat) : Int) < 30000 ↔ _
  omega

theorem pay11_apply (i : grid1.Coords) (h : Vec Ideal S2048x256 .bf16) (w2 : Vec Ideal S256x768 .bf16)
    (q : Fin 2048) (j : Fin 768) :
    k1_pay11 (F := Ideal) i h w2 (ix2 q j) = lg h w2 (i 1).val q j := by
  unfold k1_pay11
  show Scalar.select (k1_pay10 i (ix2 q j))
    (matmul (F := Ideal) dot_S2048x256_S256x768_S2048x768_1_0_0_1_n_n none h
      (shapeCast S256x768 w2 shapeCasts_S256x768_S256x768) (constant (F := Ideal) S2048x768 .f32 0x00000000#32) (ix2 q j))
    (Named.named (F := Ideal) Cert.KernelIdeal.κ "neg_big" (φ := .f32) 0xF149F2CA#32) = _
  rw [shapeCast_self, matmulW2_apply, negBig_eq_bot]
  unfold lg
  by_cases hv : (i 1).val * 768 + j.val < 30000
  · rw [(pay10_apply i q j).mpr hv, select_one, if_pos hv]
  · rw [eq_zero_of_ne_one (fun hc => hv ((pay10_apply i q j).mp hc)), select_zero, if_neg hv]

theorem pay14_apply (i : grid1.Coords) (h : Vec Ideal S2048x256 .bf16) (w2 : Vec Ideal S256x768 .bf16) (q : Fin 2048) :
    k1_pay14 (F := Ideal) i h w2 (ix2 q 0)
      = (Finset.univ : Finset (Fin 768)).fold max ⊥ (fun j => lg h w2 (i 1).val q j) := by
  unfold k1_pay14
  refine (rowMax_apply (k1_pay11 (F := Ideal) i h w2) q).trans ?_
  exact Finset.fold_congr (fun j _ => pay11_apply i h w2 q j)

theorem pay3_apply (mx : Vec Ideal S2048x1 .f32) (tm : FVec Ideal S2048x1 .f32) (q : Fin 2048) :
    k1_pay3 (F := Ideal) mx tm (ix2 q 0) = max (mx (ix2 q 0) : EReal) (tm (ix2 q 0)) := by
  unfold k1_pay3 k1_pay1
  rw [shapeCast_self]
  rfl

theorem pay2_apply (v : FVec Ideal S2048x768 .f32) (mx : Vec Ideal S2048x1 .f32) (tm : FVec Ideal S2048x1 .f32)
    (mx' sm : Vec Ideal S2048x1 .f32) (q : Fin 2048) :
    k1_pay2 (F := Ideal) v mx tm mx' sm (ix2 q 0)
      = Ideal.exp ((mx' (ix2 q 0) : EReal) - max (mx (ix2 q 0) : EReal) (tm (ix2 q 0))) * (sm (ix2 q 0) : EReal)
        + ∑ j : Fin 768, Ideal.exp (v (ix2 q j) - max (mx (ix2 q 0) : EReal) (tm (ix2 q 0))) := by
  unfold k1_pay2 k1_pay1
  rw [shapeCast_self]
  show Ideal.exp ((mx' (ix2 q 0) : EReal) - max (mx (ix2 q 0) : EReal) (tm (ix2 q 0))) * (sm (ix2 q 0) : EReal)
      + shapeCast S2048x1 (multiReduction (F := Ideal) .add [1] S2048
          (exp (subf v (broadcastTo S2048x768 (maximumf (F := Ideal) mx tm) broadcasts_S2048x1_S2048x768)))
          0x00000000#32 reduces_S2048x768_S2048 (.inl rfl) rfl) shapeCasts_S2048_S2048x1 (ix2 q 0) = _
  rw [rowSum_apply]
  refine congrArg _ (Finset.sum_congr rfl fun j _ => ?_)
  show Ideal.exp (v (ix2 q j) - broadcastTo S2048x768 (maximumf (F := Ideal) mx tm) broadcasts_S2048x1_S2048x768 (ix2 q j)) = _
  rw [broadcastTo_a1_ab_apply]
  rfl

theorem pay12_apply (tg : Vec Ideal S2048x1 .i32) : k1_pay12 (F := Ideal) tg = tg := by
  unfold k1_pay12
  exact shapeCast_self _ _

theorem pay13_apply (i : grid1.Coords) (h : Vec Ideal S2048x256 .bf16) (w2 : Vec Ideal S256x768 .bf16)
    (tg : Vec Ideal S2048x1 .i32) (tl : Vec Ideal S2048x1 .f32) (q : Fin 2048) :
    k1_pay13 (F := Ideal) i h w2 tg tl (ix2 q 0)
      = (tl (ix2 q 0) : EReal) + ∑ j : Fin 768,
          if (BitVec.ofNat 32 (i 1).val * BitVec.ofNat 32 768 + BitVec.ofNat 32 j.val
                = (tg (ix2 q 0) : BitVec 32) - BitVec.ofNat 32 20000
              ∧ (i 1).val * 768 + j.val < 30000) then lg h w2 (i 1).val q j else 0 := by
  unfold k1_pay13
  rw [shapeCast_self]
  show (tl (ix2 q 0) : EReal) + shapeCast S2048x1 (multiReduction (F := Ideal) .add [1] S2048
      (select (andi (cmpi .eq (k1_pay9 i)
            (broadcastTo S2048x768 (subi (k1_pay12 (F := Ideal) tg) (broadcast S2048x1 20000#32)) broadcasts_S2048x1_S2048x768))
          (k1_pay10 i))
        (k1_pay11 (F := Ideal) i h w2) (broadcast S2048x768 (Scalar.ofBits (F := Ideal) .f32 0x00000000#32)))
      0x00000000#32 reduces_S2048x768_S2048 (.inl rfl) rfl) shapeCasts_S2048_S2048x1 (ix2 q 0) = _
  rw [rowSum_apply]
  refine congrArg _ (Finset.sum_congr rfl fun j _ => ?_)
  show Scalar.select (IntOp.andi (IntOp.cmpi .eq (k1_pay9 i (ix2 q j))
        (broadcastTo S2048x768 (subi (k1_pay12 (F := Ideal) tg) (broadcast S2048x1 20000#32)) broadcasts_S2048x1_S2048x768 (ix2 q j)))
      (k1_pay10 i (ix2 q j))) (k1_pay11 (F := Ideal) i h w2 (ix2 q j)) (Ideal.ofBits .f32 0x00000000#32) = _
  rw [broadcastTo_a1_ab_apply, pay11_apply, Ideal.ofBits_zero_f32, pay12_apply]
  show Scalar.select (IntOp.andi (IntOp.cmpi .eq (k1_pay9 i (ix2 q j)) ((tg (ix2 q 0) : BitVec 32) - BitVec.ofNat 32 20000))
      (k1_pay10 i (ix2 q j))) _ _ = _
  by_cases hh : BitVec.ofNat 32 (i 1).val * BitVec.ofNat 32 768 + BitVec.ofNat 32 j.val
        = (tg (ix2 q 0) : BitVec 32) - BitVec.ofNat 32 20000 ∧ (i 1).val * 768 + j.val < 30000
  · rw [IntOp.andi_eq_one.mpr ⟨IntOp.cmpi_eq.mpr ((pay9_apply i q j).trans hh.1), (pay10_apply i q j).mpr hh.2⟩,
      select_one, if_pos hh]
  · rw [eq_zero_of_ne_one (fun hc => hh ⟨(pay9_apply i q j).symm.trans (IntOp.cmpi_eq.mp (IntOp.andi_eq_one.mp hc).1),
        (pay10_apply i q j).mp (IntOp.andi_eq_one.mp hc).2⟩), select_zero, if_neg hh]

theorem toInt_lo : (BitVec.ofNat 32 20000).toInt = 20000 := by decide
theorem toInt_hi : (BitVec.ofNat 32 50000).toInt = 50000 := by decide

theorem pay4_apply (tgv : IVec S2048x1 32) (mx sm tl : Vec Ideal S2048x1 .f32) (q : Fin 2048) :
    k1_pay4 (F := Ideal) tgv mx sm tl (ix2 q 0)
      = if (20000 ≤ (tgv (ix2 q 0)).toInt ∧ (tgv (ix2 q 0)).toInt < 50000)
          then ((mx (ix2 q 0) : EReal) + Ideal.log (sm (ix2 q 0))) - (tl (ix2 q 0) : EReal) else 0 := by
  unfold k1_pay4
  show Scalar.select (IntOp.andi (IntOp.cmpi .sge (tgv (ix2 q 0)) (BitVec.ofNat 32 20000))
        (IntOp.cmpi .slt (tgv (ix2 q 0)) (BitVec.ofNat 32 50000)))
      (((mx (ix2 q 0) : EReal) + Ideal.log (sm (ix2 q 0))) - (tl (ix2 q 0) : EReal)) (Ideal.ofBits .f32 0x00000000#32) = _
  rw [Ideal.ofBits_zero_f32]
  by_cases hh : 20000 ≤ (tgv (ix2 q 0)).toInt ∧ (tgv (ix2 q 0)).toInt < 50000
  · rw [IntOp.andi_eq_one.mpr ⟨IntOp.cmpi_sge.mpr (toInt_lo ▸ hh.1), IntOp.cmpi_slt.mpr (toInt_hi ▸ hh.2)⟩,
      select_one, if_pos hh]
  · rw [eq_zero_of_ne_one (fun hc => hh ⟨toInt_lo ▸ IntOp.cmpi_sge.mp (IntOp.andi_eq_one.mp hc).1,
        toInt_hi ▸ IntOp.cmpi_slt.mp (IntOp.andi_eq_one.mp hc).2⟩), select_zero, if_neg hh]

theorem out1_apply (tg : Vec Ideal S2048x1 .i32) (s : St1 Ideal) (q : Fin 2048) :
    out1 (F := Ideal) tg s (ix2 q 0)
      = if (20000 ≤ (tg (ix2 q 0) : BitVec 32).toInt ∧ (tg (ix2 q 0) : BitVec 32).toInt < 50000)
          then ((s.mx (ix2 q 0) : EReal) + Ideal.log (s.sm (ix2 q 0))) - (s.tl (ix2 q 0) : EReal) else 0 := by
  unfold out1
  rw [pay4_apply, pay12_apply]

theorem reset1_h (x : Vec Ideal S2048x1024 .bf16) (w1 : Vec Ideal S1024x256 .bf16) (q : Fin 2048) (d : Fin 256) :
    ((reset1 (F := Ideal) x w1).h (ix2 q d) : EReal) = ∑ r : Fin 1024, (x (ix2 q r) : EReal) * (w1 (ix2 r d) : EReal) := by
  show k1_pay8 (F := Ideal) x w1 (ix2 q d) = _
  unfold k1_pay8
  rw [shapeCast_self, shapeCast_self, shapeCast_self]
  exact matmulW1_apply x w1 q d

theorem reset1_mx (x : Vec Ideal S2048x1024 .bf16) (w1 : Vec Ideal S1024x256 .bf16) (q : Fin 2048) :
    ((reset1 (F := Ideal) x w1).mx (ix2 q 0) : EReal) = ⊥ := by
  show k1_pay5 (F := Ideal) (ix2 q 0) = _
  unfold k1_pay5
  rw [shapeCast_self]
  exact ofBits_negInf

theorem reset1_sm (x : Vec Ideal S2048x1024 .bf16) (w1 : Vec Ideal S1024x256 .bf16) (q : Fin 2048) :
    ((reset1 (F := Ideal) x w1).sm (ix2 q 0) : EReal) = 0 := by
  show k1_pay6 (F := Ideal) (ix2 q 0) = _
  unfold k1_pay6
  rw [shapeCast_self]
  exact Ideal.ofBits_zero_f32

theorem reset1_tl (x : Vec Ideal S2048x1024 .bf16) (w1 : Vec Ideal S1024x256 .bf16) (q : Fin 2048) :
    ((reset1 (F := Ideal) x w1).tl (ix2 q 0) : EReal) = 0 := by
  show k1_pay7 (F := Ideal) (ix2 q 0) = _
  unfold k1_pay7
  rw [shapeCast_self]
  exact Ideal.ofBits_zero_f32

theorem step1_h (i : grid1.Coords) (x : Vec Ideal S2048x1024 .bf16) (w1 : Vec Ideal S1024x256 .bf16)
    (w2 : Vec Ideal S256x768 .bf16) (tg : Vec Ideal S2048x1 .i32) (s s1 : St1 Ideal)
    (hs1 : s1 = if first1 i then reset1 x w1 else s) :
    (step1 (F := Ideal) i x w1 w2 tg s).h = s1.h := by
  subst hs1; rfl

theorem step1_mx (i : grid1.Coords) (x : Vec Ideal S2048x1024 .bf16) (w1 : Vec Ideal S1024x256 .bf16)
    (w2 : Vec Ideal S256x768 .bf16) (tg : Vec Ideal S2048x1 .i32) (s s1 : St1 Ideal)
    (hs1 : s1 = if first1 i then reset1 x w1 else s) (q : Fin 2048) :
    ((step1 (F := Ideal) i x w1 w2 tg s).mx (ix2 q 0) : EReal)
      = max (s1.mx (ix2 q 0) : EReal) ((Finset.univ : Finset (Fin 768)).fold max ⊥ (fun j => lg s1.h w2 (i 1).val q j)) := by
  subst hs1
  show k1_pay3 (F := Ideal) _ (k1_pay14 (F := Ideal) i _ w2) (ix2 q 0) = _
  rw [pay3_apply, pay14_apply]

theorem step1_sm (i : grid1.Coords) (x : Vec Ideal S2048x1024 .bf16) (w1 : Vec Ideal S1024x256 .bf16)
    (w2 : Vec Ideal S256x768 .bf16) (tg : Vec Ideal S2048x1 .i32) (s s1 : St1 Ideal)
    (hs1 : s1 = if first1 i then reset1 x w1 else s) (q : Fin 2048) :
    ((step1 (F := Ideal) i x w1 w2 tg s).sm (ix2 q 0) : EReal)
      = Ideal.exp ((s1.mx (ix2 q 0) : EReal)
            - max (s1.mx (ix2 q 0) : EReal) ((Finset.univ : Finset (Fin 768)).fold max ⊥ (fun j => lg s1.h w2 (i 1).val q j)))
          * (s1.sm (ix2 q 0) : EReal)
        + ∑ j : Fin 768, Ideal.exp (lg s1.h w2 (i 1).val q j
            - max (s1.mx (ix2 q 0) : EReal) ((Finset.univ : Finset (Fin 768)).fold max ⊥ (fun j => lg s1.h w2 (i 1).val q j))) := by
  subst hs1
  show k1_pay2 (F := Ideal) (k1_pay11 (F := Ideal) i _ w2) _ (k1_pay14 (F := Ideal) i _ w2) _ _ (ix2 q 0) = _
  rw [pay2_apply, pay14_apply]
  refine congrArg _ (Finset.sum_congr rfl fun j _ => ?_)
  rw [pay11_apply]

theorem step1_tl_word (i : grid1.Coords) (x : Vec Ideal S2048x1024 .bf16) (w1 : Vec Ideal S1024x256 .bf16)
    (w2 : Vec Ideal S256x768 .bf16) (tg : Vec Ideal S2048x1 .i32) (s s1 : St1 Ideal)
    (hs1 : s1 = if first1 i then reset1 x w1 else s) (q : Fin 2048) :
    ((step1 (F := Ideal) i x w1 w2 tg s).tl (ix2 q 0) : EReal)
      = (s1.tl (ix2 q 0) : EReal) + ∑ j : Fin 768,
          if (BitVec.ofNat 32 (i 1).val * BitVec.ofNat 32 768 + BitVec.ofNat 32 j.val
                = (tg (ix2 q 0) : BitVec 32) - BitVec.ofNat 32 20000
              ∧ (i 1).val * 768 + j.val < 30000) then lg s1.h w2 (i 1).val q j else 0 := by
  subst hs1
  show k1_pay13 (F := Ideal) i _ w2 tg _ (ix2 q 0) = _
  rw [pay13_apply]

theorem target_test_iff (i : grid1.Coords) (j : Fin 768) (t : BitVec 32) (ht : 0 ≤ t.toInt ∧ t.toInt < 50000) :
    BitVec.ofNat 32 (i 1).val * BitVec.ofNat 32 768 + BitVec.ofNat 32 j.val = t - BitVec.ofNat 32 20000
      ↔ (((i 1).val * 768 + j.val : Nat) : Int) = t.toInt - 20000 := by
  have := col_lt i
  have := j.isLt
  exact colWord_eq_sub_iff _ _ _ _ t (by omega) (by omega) (by omega) (by omega) ht.1

theorem step1_tl (i : grid1.Coords) (x : Vec Ideal S2048x1024 .bf16) (w1 : Vec Ideal S1024x256 .bf16)
    (w2 : Vec Ideal S256x768 .bf16) (tg : Vec Ideal S2048x1 .i32) (s s1 : St1 Ideal)
    (hs1 : s1 = if first1 i then reset1 x w1 else s) (q : Fin 2048)
    (ht : 0 ≤ (tg (ix2 q 0) : BitVec 32).toInt ∧ (tg (ix2 q 0) : BitVec 32).toInt < 50000) :
    ((step1 (F := Ideal) i x w1 w2 tg s).tl (ix2 q 0) : EReal)
      = (s1.tl (ix2 q 0) : EReal) + ∑ j : Fin 768,
          if ((((i 1).val * 768 + j.val : Nat) : Int) = (tg (ix2 q 0) : BitVec 32).toInt - 20000
              ∧ (i 1).val * 768 + j.val < 30000) then lg s1.h w2 (i 1).val q j else 0 := by
  rw [step1_tl_word i x w1 w2 tg s s1 hs1 q]
  refine congrArg _ (Finset.sum_congr rfl fun j _ => ?_)
  exact if_congr (and_congr_left' (target_test_iff i j _ ht)) rfl rfl

end Cert.KernelIdeal.Val1

end
-- ==== Proof.KI.Row1.lean ====
import proofs.«422338_j11269994185272_3_alg».proof.Proof.KI.R1Frame
import proofs.«422338_j11269994185272_3_alg».proof.Proof.KI.Val1
import proofs.«422338_j11269994185272_3_alg».proof.Proof.LibRowNll
import proofs.«422338_j11269994185272_3_alg».proof.Proof.RowDefs
import Idealize.ShloMosaic.Lib.Pipeline.Value

set_option maxRecDepth 16384

noncomputable section

namespace Cert.KernelIdeal.Row1

open Idealize.ShloMosaic Idealize.ShloMosaic.ValueIdx Idealize.ShloMosaic.TcCoe Idealize.SL.Sem
open Cert.KernelIdeal Cert.KernelIdeal.Gen Cert.KernelIdeal.Val1
open Idealize.ShloMosaic.Pipeline (Dat)
open scoped BigOperators

def IsReal (z : EReal) : Prop := ∃ r : ℝ, z = ((r : ℝ) : EReal)

theorem IsReal.eq_coe_toReal {z : EReal} (h : IsReal z) : z = ((z.toReal : ℝ) : EReal) := by
  obtain ⟨r, rfl⟩ := h
  rw [EReal.toReal_coe]

theorem isReal_of_eq {z : EReal} (h : z = ((z.toReal : ℝ) : EReal)) : IsReal z := ⟨_, h⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem isReal_sum {ι : Type} (s : Finset ι) (g : ι → EReal) (h : ∀ i, IsReal (g i)) : IsReal (∑ i ∈ s, g i) := by
  choose f hf using h
  exact ⟨∑ i ∈ s, f i, by rw [OnlineLse.coe_sum]; exact Finset.sum_congr rfl fun i _ => hf i⟩

theorem lg2_isReal {N D1 D2 C : Nat} (X : (⟨2, ![N, D1]⟩ : Shape).Idx → EReal) (W1 : (⟨2, ![D1, D2]⟩ : Shape).Idx → EReal)
    (W2 : (⟨2, ![D2, C]⟩ : Shape).Idx → EReal)
    (hXr : ∀ i, X i = (((X i).toReal : ℝ) : EReal)) (hW1r : ∀ i, W1 i = (((W1 i).toReal : ℝ) : EReal))
    (hW2r : ∀ i, W2 i = (((W2 i).toReal : ℝ) : EReal)) (p : Fin N) (k : Fin C) :
    IsReal (Cert.RowDefs.lg2 X W1 W2 p k) := by
  unfold Cert.RowDefs.lg2
  exact isReal_sum _ _ fun d => (isReal_sum _ _ fun e => (isReal_of_eq (hXr _)).mul (isReal_of_eq (hW1r _))).mul
    (isReal_of_eq (hW2r _))

section Iterate

def tileLg (x : Vec Ideal S2048x1024 .bf16) (w1 : Vec Ideal S1024x256 .bf16) (w2s : ℕ → Vec Ideal S256x768 .bf16)
    (n : ℕ) (q : Fin 2048) (j : Fin 768) : EReal :=
  lg (reset1 (F := Ideal) x w1).h (w2s n) n q j

def tgtCol (tg : Vec Ideal S2048x1 .i32) (q : Fin 2048) : Int := (tg (ix2 q 0) : BitVec 32).toInt - 20000

structure Kept (x : Vec Ideal S2048x1024 .bf16) (w1 : Vec Ideal S1024x256 .bf16) (w2s : ℕ → Vec Ideal S256x768 .bf16)
    (tg : Vec Ideal S2048x1 .i32) (n : ℕ) (s : St1 Ideal) : Prop where
  h : s.h = (reset1 (F := Ideal) x w1).h
  mx : ∀ q : Fin 2048, (s.mx (ix2 q 0) : EReal) = OnlineLse.runMax (fun n' => tileLg x w1 w2s n' q) n
  sm : ∀ q : Fin 2048, (s.sm (ix2 q 0) : EReal) = OnlineLse.runSum (fun n' => tileLg x w1 w2s n' q) n
  tl : ∀ q : Fin 2048, (s.tl (ix2 q 0) : EReal)
    = RowNll.pick (fun n' => tileLg x w1 w2s n' q) 30000 (tgtCol tg q) n

theorem kept_reset (x : Vec Ideal S2048x1024 .bf16) (w1 : Vec Ideal S1024x256 .bf16) (w2s : ℕ → Vec Ideal S256x768 .bf16)
    (tg : Vec Ideal S2048x1 .i32) : Kept x w1 w2s tg 0 (reset1 (F := Ideal) x w1) where
  h := rfl
  mx q := reset1_mx x w1 q
  sm q := reset1_sm x w1 q
  tl q := reset1_tl x w1 q

theorem kept_step (x : Vec Ideal S2048x1024 .bf16) (w1 : Vec Ideal S1024x256 .bf16) (w2s : ℕ → Vec Ideal S256x768 .bf16)
    (tg : Vec Ideal S2048x1 .i32)
    (htg : ∀ q : Fin 2048, 0 ≤ (tg (ix2 q 0) : BitVec 32).toInt ∧ (tg (ix2 q 0) : BitVec 32).toInt < 50000)
    (i : grid1.Coords) (n : ℕ) (hi : (i 1).val = n) (s s1 : St1 Ideal)
    (hs1 : s1 = if first1 i then reset1 x w1 else s) (hk : Kept x w1 w2s tg n s1) :
    Kept x w1 w2s tg (n + 1) (step1 (F := Ideal) i x w1 (w2s n) tg s) where
  h := (step1_h i x w1 (w2s n) tg s s1 hs1).trans hk.h
  mx q := by
    rw [step1_mx i x w1 (w2s n) tg s s1 hs1 q, hk.mx q, hk.h, hi]
    rfl
  sm q := by
    rw [step1_sm i x w1 (w2s n) tg s s1 hs1 q, hk.mx q, hk.sm q, hk.h, hi]
    rfl
  tl q := by
    rw [step1_tl i x w1 (w2s n) tg s s1 hs1 q (htg q), hk.tl q, hk.h, hi]
    rfl

theorem step1_congr (i : grid1.Coords) {x x' : Vec Ideal S2048x1024 .bf16} {w1 w1' : Vec Ideal S1024x256 .bf16}
    {w2 w2' : Vec Ideal S256x768 .bf16} {tg tg' : Vec Ideal S2048x1 .i32} (hx : x = x') (hw1 : w1 = w1') (hw2 : w2 = w2')
    (htg : tg = tg') (s : St1 Ideal) :
    step1 (F := Ideal) i x w1 w2 tg s = step1 (F := Ideal) i x' w1' w2' tg' s := by
  rw [hx, hw1, hw2, htg]

end Iterate

def rowOf (r : Fin 2) (q : Fin 2048) : Fin 4096 := ⟨r.val * 2048 + q.val, by have := r.isLt; have := q.isLt; omega⟩

theorem rowOf_val (r : Fin 2) (q : Fin 2048) : (rowOf r q).val = r.val * 2048 + q.val := rfl

def xRows (X : S4096x1024.Idx → EReal) (r : Fin 2) : Vec Ideal S2048x1024 .bf16 :=
  fun j => X (ix2 (rowOf r (j 0)) (j 1))

def w2Tile (W2 : S256x30000.Idx → EReal) (n : ℕ) : Vec Ideal S256x768 .bf16 :=
  fun j => if h : n * 768 + (j 1).val < 30000 then W2 (ix2 (j 0) ⟨n * 768 + (j 1).val, h⟩) else (0 : EReal)

def tRows (T : S4096.Idx → BitVec 32) (r : Fin 2) : Vec Ideal S2048x1 .i32 :=
  fun j => T (ix1 (rowOf r (j 0)))

theorem tileLg_eq (X : S4096x1024.Idx → EReal) (W1 : S1024x256.Idx → EReal) (W2 : S256x30000.Idx → EReal)
    (r : Fin 2) (q : Fin 2048) (n : ℕ) (j : Fin 768) :
    tileLg (xRows X r) W1 (w2Tile W2) n q j
      = if h : n * 768 + j.val < 30000 then Cert.RowDefs.lg2 X W1 W2 (rowOf r q) ⟨n * 768 + j.val, h⟩ else ⊥ := by
  unfold tileLg lg
  by_cases h : n * 768 + j.val < 30000
  · rw [if_pos h, dif_pos h]
    unfold Cert.RowDefs.lg2
    refine Finset.sum_congr rfl fun k _ => ?_
    rw [reset1_h]
    show _ * (if h' : n * 768 + j.val < 30000 then W2 (ix2 k ⟨n * 768 + j.val, h'⟩) else (0 : EReal)) = _
    rw [dif_pos h]
    rfl
  · rw [if_neg h, dif_neg h]

def rowReal (X : S4096x1024.Idx → EReal) (W1 : S1024x256.Idx → EReal) (W2 : S256x30000.Idx → EReal)
    (p : Fin 4096) : ℕ → ℝ :=
  fun col => if h : col < 30000 then (Cert.RowDefs.lg2 X W1 W2 p ⟨col, h⟩).toReal else 0

theorem row_value (X : S4096x1024.Idx → EReal) (W1 : S1024x256.Idx → EReal) (W2 : S256x30000.Idx → EReal)
    (T : S4096.Idx → BitVec 32)
    (hXr : ∀ i, X i = (((X i).toReal : ℝ) : EReal)) (hW1r : ∀ i, W1 i = (((W1 i).toReal : ℝ) : EReal))
    (hW2r : ∀ i, W2 i = (((W2 i).toReal : ℝ) : EReal))
    (r : Fin 2) (q : Fin 2048) (s : St1 Ideal) (hk : Kept (xRows X r) W1 (w2Tile W2) (tRows T r) 40 s) :
    out1 (F := Ideal) (tRows T r) s (ix2 q 0)
      = Cert.RowDefs.tailNll (C := 30000) (by decide) 20000 50000 (T (ix1 (rowOf r q))).toInt
          (fun k => Cert.RowDefs.lg2 X W1 W2 (rowOf r q) k) := by
  rw [out1_apply, hk.mx q, hk.sm q, hk.tl q]
  have ha : ∀ n, n < 40 → ∀ j : Fin 768,
      (fun n' => tileLg (xRows X r) W1 (w2Tile W2) n' q) n j
        = if n * 768 + j.val < 30000 then ((rowReal X W1 W2 (rowOf r q) (n * 768 + j.val) : ℝ) : EReal) else ⊥ := by
    intro n _ j
    show tileLg (xRows X r) W1 (w2Tile W2) n q j = _
    rw [tileLg_eq]
    by_cases h : n * 768 + j.val < 30000
    · rw [dif_pos h, if_pos h]
      unfold rowReal
      rw [dif_pos h]
      exact (lg2_isReal X W1 W2 hXr hW1r hW2r _ _).eq_coe_toReal
    · rw [dif_neg h, if_neg h]
  have hy : ∀ k : Fin 30000, (fun k => Cert.RowDefs.lg2 X W1 W2 (rowOf r q) k) k
      = ((rowReal X W1 W2 (rowOf r q) k.val : ℝ) : EReal) := by
    intro k
    show Cert.RowDefs.lg2 X W1 W2 (rowOf r q) k = _
    unfold rowReal
    rw [dif_pos k.isLt]
    exact (lg2_isReal X W1 W2 hXr hW1r hW2r _ _).eq_coe_toReal
  exact RowNll.tail_row (B := 768) (T := 40) (C := 30000) (x := rowReal X W1 W2 (rowOf r q))
    (by decide) (by decide) (by decide) ha _ hy (lo := 20000) (hi := 50000)
    (t := (T (ix1 (rowOf r q))).toInt) (by norm_num)

theorem N1 : cfg1.N = 80 := (by decide +kernel : grid1.N = 80)

theorem lt80 (t : Fin cfg1.N) : t.val < 80 := by
  have h := t.isLt
  have e := N1
  omega

theorem coords1 : ∀ t : Fin cfg1.N, (grid1.coords t 0).val = t.val / 40 ∧ (grid1.coords t 1).val = t.val % 40 :=
  (by decide +kernel : ∀ t : Fin grid1.N, (grid1.coords t 0).val = t.val / 40 ∧ (grid1.coords t 1).val = t.val % 40)

theorem idx1 : ∀ t : Fin cfg1.N,
    win1_0.index t (0 : Fin 2) = t.val / 40 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val % 40
    ∧ win1_3.index t (0 : Fin 2) = t.val / 40 ∧ win1_3.index t (1 : Fin 2) = 0
    ∧ win1_4.index t (0 : Fin 2) = t.val / 40 ∧ win1_4.index t (1 : Fin 2) = 0 :=
  (by decide +kernel : ∀ t : Fin grid1.N, _)

section Blocks

variable (V : (c : Dev nD) → (b : Ref sig .tc) → Buf (Elt Ideal) ((c : Thread nD τ).loc b))

theorem xb1_apply (c : Dev nD) (t : Fin cfg1.N) (j : S2048x1024.Idx) (k : S4096x1024.Idx)
    (hk0 : (k 0).val = t.val / 40 * 2048 + (j 0).val) (hk1 : (k 1).val = (j 1).val) :
    (xb1 V c t : Vec Ideal S2048x1024 .bf16) j = (V c main_v0 : S4096x1024.Idx → EReal) k := by
  obtain ⟨e0, e1, -⟩ := idx1 t
  show (V c main_v0 : S4096x1024.Idx → EReal) (((cfg1.win 0).blk t).view.emb j) = _
  congr 1
  funext a
  apply Fin.ext
  match a with
  | ⟨0, _⟩ =>
    show win1_0.index t (0 : Fin 2) * 2048 + 1 * (j 0).val = (k 0).val
    rw [e0, hk0]; omega
  | ⟨1, _⟩ =>
    show win1_0.index t (1 : Fin 2) * 1024 + 1 * (j 1).val = (k 1).val
    rw [e1, hk1]; omega

theorem pb1_apply (c : Dev nD) (t : Fin cfg1.N) (j : S1024x256.Idx) (k : S1024x256.Idx)
    (hk0 : (k 0).val = (j 0).val) (hk1 : (k 1).val = (j 1).val) :
    (pb1 V c t : Vec Ideal S1024x256 .bf16) j = (V c main_v6 : S1024x256.Idx → EReal) k := by
  obtain ⟨-, -, e0, e1, -⟩ := idx1 t
  show (V c main_v6 : S1024x256.Idx → EReal) (((cfg1.win 1).blk t).view.emb j) = _
  congr 1
  funext a
  apply Fin.ext
  match a with
  | ⟨0, _⟩ =>
    show win1_1.index t (0 : Fin 2) * 1024 + 1 * (j 0).val = (k 0).val
    rw [e0, hk0]; omega
  | ⟨1, _⟩ =>
    show win1_1.index t (1 : Fin 2) * 256 + 1 * (j 1).val = (k 1).val
    rw [e1, hk1]; omega

theorem wb1_apply (c : Dev nD) (t : Fin cfg1.N) (j : S256x768.Idx) (k : S256x30720.Idx)
    (hk0 : (k 0).val = (j 0).val) (hk1 : (k 1).val = t.val % 40 * 768 + (j 1).val) :
    (wb1 V c t : Vec Ideal S256x768 .bf16) j = (V c main_v8 : S256x30720.Idx → EReal) k := by
  obtain ⟨-, -, -, -, e0, e1, -⟩ := idx1 t
  show (V c main_v8 : S256x30720.Idx → EReal) (((cfg1.win 2).blk t).view.emb j) = _
  congr 1
  funext a
  apply Fin.ext
  match a with
  | ⟨0, _⟩ =>
    show win1_2.index t (0 : Fin 2) * 256 + 1 * (j 0).val = (k 0).val
    rw [e0, hk0]; omega
  | ⟨1, _⟩ =>
    show win1_2.index t (1 : Fin 2) * 768 + 1 * (j 1).val = (k 1).val
    rw [e1, hk1]; omega

theorem tb1_apply (c : Dev nD) (t : Fin cfg1.N) (j : S2048x1.Idx) (k : S4096x1.Idx)
    (hk0 : (k 0).val = t.val / 40 * 2048 + (j 0).val) (hk1 : (k 1).val = (j 1).val) :
    (tb1 V c t : Vec Ideal S2048x1 .i32) j = (V c main_v1 : S4096x1.Idx → BitVec 32) k := by
  obtain ⟨-, -, -, -, -, -, e0, e1, -⟩ := idx1 t
  show (V c main_v1 : S4096x1.Idx → BitVec 32) (((cfg1.win 3).blk t).view.emb j) = _
  congr 1
  funext a
  apply Fin.ext
  match a with
  | ⟨0, _⟩ =>
    show win1_3.index t (0 : Fin 2) * 2048 + 1 * (j 0).val = (k 0).val
    rw [e0, hk0]; omega
  | ⟨1, _⟩ =>
    show win1_3.index t (1 : Fin 2) * 1 + 1 * (j 1).val = (k 1).val
    rw [e1, hk1]; omega

variable (X : S4096x1024.Idx → EReal) (W1 : S1024x256.Idx → EReal) (W2 : S256x30000.Idx → EReal)
  (T : S4096.Idx → BitVec 32)

theorem xb1_eq (c : Dev nD)
    (hX : ∀ (p : Fin 4096) (e : Fin 1024), (V c main_v0 : S4096x1024.Idx → EReal) (ix2 p e) = X (ix2 p e))
    (t : Fin cfg1.N) (r : Fin 2) (hr : t.val / 40 = r.val) :
    (xb1 V c t : Vec Ideal S2048x1024 .bf16) = xRows X r := by
  funext j
  refine (xb1_apply V c t j (ix2 (rowOf r (j 0)) (j 1)) ?_ rfl).trans (hX _ _)
  show r.val * 2048 + (j 0).val = t.val / 40 * 2048 + (j 0).val
  rw [hr]

theorem pb1_eq (c : Dev nD)
    (hW1 : ∀ (e : Fin 1024) (d : Fin 256), (V c main_v6 : S1024x256.Idx → EReal) (ix2 e d) = W1 (ix2 e d))
    (t : Fin cfg1.N) : (pb1 V c t : Vec Ideal S1024x256 .bf16) = W1 := by
  funext j
  exact (pb1_apply V c t j (ix2 (j 0) (j 1)) rfl rfl).trans ((hW1 _ _).trans (congrArg W1 (eq_ix2 j).symm))

theorem wb1_eq (c : Dev nD)
    (hW2 : ∀ (d : Fin 256) (k : Fin 30720), (V c main_v8 : S256x30720.Idx → EReal) (ix2 d k)
      = if h : k.val < 30000 then W2 (ix2 d ⟨k.val, h⟩) else 0)
    (t : Fin cfg1.N) (n : ℕ) (hn : t.val % 40 = n) :
    (wb1 V c t : Vec Ideal S256x768 .bf16) = w2Tile W2 n := by
  funext j
  have hj : (j 1).val < 768 := idx2_lt1 j
  have hlt : n * 768 + (j 1).val < 30720 := by omega
  refine (wb1_apply V c t j (ix2 (j 0) (⟨n * 768 + (j 1).val, hlt⟩ : Fin 30720)) rfl ?_).trans ((hW2 _ _).trans ?_)
  · show n * 768 + (j 1).val = _
    rw [hn]
  · rfl

theorem tb1_eq (c : Dev nD)
    (hT : ∀ p : Fin 4096, (V c main_v1 : S4096x1.Idx → BitVec 32) (ix2 p (0 : Fin 1)) = T (ix1 p))
    (t : Fin cfg1.N) (r : Fin 2) (hr : t.val / 40 = r.val) :
    (tb1 V c t : Vec Ideal S2048x1 .i32) = tRows T r := by
  funext j
  refine (tb1_apply V c t j (ix2 (rowOf r (j 0)) (0 : Fin 1)) ?_ ?_).trans (hT _)
  · show r.val * 2048 + (j 0).val = t.val / 40 * 2048 + (j 0).val
    rw [hr]
  · show (0 : ℕ) = (j 1).val
    have := idx2_lt1 j
    omega

end Blocks

def G (X : S4096x1024.Idx → EReal) (W1 : S1024x256.Idx → EReal) (W2 : S256x30000.Idx → EReal)
    (T : S4096.Idx → BitVec 32) : S4096x1.Idx → EReal :=
  fun i => Cert.RowDefs.tailNll (C := 30000) (by decide) 20000 50000 (T (ix1 (i 0))).toInt
    (fun k => Cert.RowDefs.lg2 X W1 W2 (i 0) k)

section Region

variable (V : (c : Dev nD) → (b : Ref sig .tc) → Buf (Elt Ideal) ((c : Thread nD τ).loc b))

theorem stAt1_is_step (c : Dev nD) : ∀ (t : ℕ) (ht : t < cfg1.N), ∃ s : St1 Ideal,
    stAt1 (F := Ideal) V c t ht = step1 (grid1.coords ⟨t, ht⟩) (xb1 V c ⟨t, ht⟩) (pb1 V c ⟨t, ht⟩) (wb1 V c ⟨t, ht⟩)
      (tb1 V c ⟨t, ht⟩) s
  | 0, ht => ⟨_, rfl⟩
  | t + 1, ht => ⟨_, stAt1_succ V c t ht⟩

variable (X : S4096x1024.Idx → EReal) (W1 : S1024x256.Idx → EReal) (W2 : S256x30000.Idx → EReal)
  (T : S4096.Idx → BitVec 32)

/-- The kept values after a point are the online recursions over the tiles of the row block seen so far. -/
theorem stAt1_kept (c : Dev nD)
    (hX : ∀ (p : Fin 4096) (e : Fin 1024), (V c main_v0 : S4096x1024.Idx → EReal) (ix2 p e) = X (ix2 p e))
    (hW1 : ∀ (e : Fin 1024) (d : Fin 256), (V c main_v6 : S1024x256.Idx → EReal) (ix2 e d) = W1 (ix2 e d))
    (hW2 : ∀ (d : Fin 256) (k : Fin 30720), (V c main_v8 : S256x30720.Idx → EReal) (ix2 d k)
      = if h : k.val < 30000 then W2 (ix2 d ⟨k.val, h⟩) else 0)
    (hT : ∀ p : Fin 4096, (V c main_v1 : S4096x1.Idx → BitVec 32) (ix2 p (0 : Fin 1)) = T (ix1 p))
    (hrange : ∀ p : Fin 4096, 0 ≤ (T (ix1 p)).toInt ∧ (T (ix1 p)).toInt < 50000)
    (r : Fin 2) (n : ℕ) : n < 40 → ∀ (t : ℕ) (ht : t < cfg1.N), t = r.val * 40 + n →
      Kept (xRows X r) W1 (w2Tile W2) (tRows T r) (n + 1) (stAt1 (F := Ideal) V c t ht) := by
  have htg : ∀ q : Fin 2048, 0 ≤ (tRows T r (ix2 q 0) : BitVec 32).toInt ∧ (tRows T r (ix2 q 0) : BitVec 32).toInt < 50000 :=
    fun q => hrange (rowOf r q)
  have hr2 := r.isLt
  induction n with
  | zero =>
    intro _ t ht e
    obtain ⟨s, hs⟩ := stAt1_is_step V c t ht
    have hc : (grid1.coords ⟨t, ht⟩ 1).val = t % 40 := (coords1 ⟨t, ht⟩).2
    have hi : (grid1.coords ⟨t, ht⟩ 1).val = 0 := by rw [hc]; omega
    have e2 := step1_congr (grid1.coords ⟨t, ht⟩)
      (xb1_eq V X c hX ⟨t, ht⟩ r (by show t / 40 = r.val; omega)) (pb1_eq V W1 c hW1 ⟨t, ht⟩)
      (wb1_eq V W2 c hW2 ⟨t, ht⟩ 0 (by show t % 40 = 0; omega))
      (tb1_eq V T c hT ⟨t, ht⟩ r (by show t / 40 = r.val; omega)) s
    rw [hs.trans e2]
    exact kept_step (xRows X r) W1 (w2Tile W2) (tRows T r) htg (grid1.coords ⟨t, ht⟩) 0 hi s _
      (if_pos ((first1_iff _).mpr hi)).symm (kept_reset _ _ _ _)
  | succ n ih =>
    intro hn t ht e
    obtain rfl : t = r.val * 40 + n + 1 := e
    have ht' : r.val * 40 + n < cfg1.N := Nat.lt_of_succ_lt ht
    have hk := ih (by omega) (r.val * 40 + n) ht' rfl
    have hc : (grid1.coords ⟨r.val * 40 + n + 1, ht⟩ 1).val = (r.val * 40 + n + 1) % 40 := (coords1 ⟨r.val * 40 + n + 1, ht⟩).2
    have hi : (grid1.coords ⟨r.val * 40 + n + 1, ht⟩ 1).val = n + 1 := by rw [hc]; omega
    have e1 := stAt1_succ V c (r.val * 40 + n) ht
    have e2 := step1_congr (grid1.coords ⟨r.val * 40 + n + 1, ht⟩)
      (xb1_eq V X c hX ⟨r.val * 40 + n + 1, ht⟩ r (by show (r.val * 40 + n + 1) / 40 = r.val; omega))
      (pb1_eq V W1 c hW1 ⟨r.val * 40 + n + 1, ht⟩)
      (wb1_eq V W2 c hW2 ⟨r.val * 40 + n + 1, ht⟩ (n + 1) (by show (r.val * 40 + n + 1) % 40 = n + 1; omega))
      (tb1_eq V T c hT ⟨r.val * 40 + n + 1, ht⟩ r (by show (r.val * 40 + n + 1) / 40 = r.val; omega))
      (stAt1 (F := Ideal) V c (r.val * 40 + n) (Nat.lt_of_succ_lt ht))
    rw [e1.trans e2]
    exact kept_step (xRows X r) W1 (w2Tile W2) (tRows T r) htg (grid1.coords ⟨r.val * 40 + n + 1, ht⟩) (n + 1) hi
      (stAt1 (F := Ideal) V c (r.val * 40 + n) (Nat.lt_of_succ_lt ht)) _
      (if_neg (fun hf => by have := (first1_iff _).mp hf; omega)).symm hk

theorem out_block (c : Dev nD)
    (hX : ∀ (p : Fin 4096) (e : Fin 1024), (V c main_v0 : S4096x1024.Idx → EReal) (ix2 p e) = X (ix2 p e))
    (hW1 : ∀ (e : Fin 1024) (d : Fin 256), (V c main_v6 : S1024x256.Idx → EReal) (ix2 e d) = W1 (ix2 e d))
    (hW2 : ∀ (d : Fin 256) (k : Fin 30720), (V c main_v8 : S256x30720.Idx → EReal) (ix2 d k)
      = if h : k.val < 30000 then W2 (ix2 d ⟨k.val, h⟩) else 0)
    (hT : ∀ p : Fin 4096, (V c main_v1 : S4096x1.Idx → BitVec 32) (ix2 p (0 : Fin 1)) = T (ix1 p))
    (hXr : ∀ i, X i = (((X i).toReal : ℝ) : EReal)) (hW1r : ∀ i, W1 i = (((W1 i).toReal : ℝ) : EReal))
    (hW2r : ∀ i, W2 i = (((W2 i).toReal : ℝ) : EReal))
    (hrange : ∀ p : Fin 4096, 0 ≤ (T (ix1 p)).toInt ∧ (T (ix1 p)).toInt < 50000)
    (t : Fin cfg1.N) (h39 : t.val % 40 = 39) (j : S2048x1.Idx) (p : Fin 4096)
    (hp : p.val = t.val / 40 * 2048 + (j 0).val) :
    out1 (F := Ideal) (tb1 V c t) (stAt1 (F := Ideal) V c t.val t.isLt) j
      = Cert.RowDefs.tailNll (C := 30000) (by decide) 20000 50000 (T (ix1 p)).toInt
          (fun k => Cert.RowDefs.lg2 X W1 W2 p k) := by
  have h64 := lt80 t
  obtain ⟨r, hr⟩ : ∃ r : Fin 2, t.val / 40 = r.val := ⟨⟨t.val / 40, by omega⟩, rfl⟩
  have hk := stAt1_kept V X W1 W2 T c hX hW1 hW2 hT hrange r 39 (by omega) t.val t.isLt (by omega)
  have hj : j = ix2 (j 0) (0 : Fin 1) := by
    funext a
    match a with
    | ⟨0, _⟩ => rfl
    | ⟨1, _⟩ => exact Fin.ext (by have := idx2_lt1 j; show (j 1).val = 0; omega)
  have hpq : p = rowOf r (j 0) := Fin.ext (by show p.val = r.val * 2048 + (j 0).val; rw [hp, hr])
  rw [tb1_eq V T c hT t r hr, hj, hpq]
  exact row_value X W1 W2 T hXr hW1r hW2r r (j 0) _ hk

theorem flushed_eq (c : Dev nD)
    (hX : ∀ (p : Fin 4096) (e : Fin 1024), (V c main_v0 : S4096x1024.Idx → EReal) (ix2 p e) = X (ix2 p e))
    (hW1 : ∀ (e : Fin 1024) (d : Fin 256), (V c main_v6 : S1024x256.Idx → EReal) (ix2 e d) = W1 (ix2 e d))
    (hW2 : ∀ (d : Fin 256) (k : Fin 30720), (V c main_v8 : S256x30720.Idx → EReal) (ix2 d k)
      = if h : k.val < 30000 then W2 (ix2 d ⟨k.val, h⟩) else 0)
    (hT : ∀ p : Fin 4096, (V c main_v1 : S4096x1.Idx → BitVec 32) (ix2 p (0 : Fin 1)) = T (ix1 p))
    (hXr : ∀ i, X i = (((X i).toReal : ℝ) : EReal)) (hW1r : ∀ i, W1 i = (((W1 i).toReal : ℝ) : EReal))
    (hW2r : ∀ i, W2 i = (((W2 i).toReal : ℝ) : EReal))
    (hrange : ∀ p : Fin 4096, 0 ≤ (T (ix1 p)).toInt ∧ (T (ix1 p)).toInt < 50000)
    (t : Fin cfg1.N) (hf : (cfg1.win 4).flush t = true) :
    (dat1 (F := Ideal) V c).flushed 4 t = ((cfg1.win 4).blk t).view.read (Elt Ideal) (G X W1 W2 T) := by
  have h39 := (flush1_4 t).mp hf
  obtain ⟨-, -, -, -, -, -, -, -, e0, e1⟩ := idx1 t
  show (cfg1.win 4).cut (grid1.coords t) ((dat1 (F := Ideal) V c).after 4 t) = _
  rw [after1_4]
  funext j
  show out1 (F := Ideal) (tb1 V c t) (stAt1 (F := Ideal) V c t.val t.isLt) j
    = G X W1 W2 T (((cfg1.win 4).blk t).view.emb j)
  refine out_block V X W1 W2 T c hX hW1 hW2 hT hXr hW1r hW2r hrange t h39 j _ ?_
  show win1_4.index t (0 : Fin 2) * 2048 + 1 * (j 0).val = t.val / 40 * 2048 + (j 0).val
  rw [e0]; omega

theorem cover (i : S4096x1.Idx) :
    ∃ t : Fin cfg1.N, (cfg1.win 4).flush t = true ∧ i ∈ ((cfg1.win 4).blk t).view.set := by
  have hi0 : (i 0).val < 4096 := idx2_lt0 i
  have hi1 : (i 1).val < 1 := idx2_lt1 i
  obtain ⟨t, ht⟩ : ∃ t : Fin cfg1.N, t.val = (i 0).val / 2048 * 40 + 39 :=
    ⟨⟨(i 0).val / 2048 * 40 + 39, by rw [N1]; omega⟩, rfl⟩
  obtain ⟨-, -, -, -, -, -, -, -, e0, e1⟩ := idx1 t
  refine ⟨t, (flush1_4 t).mpr (by rw [ht]; omega), ?_⟩
  show i ∈ ((View.whole main_v9).slice (win1_4.rect t)).set
  rw [View.set_slice_whole, Rect.mem_set_unit]
  intro a
  match a with
  | ⟨0, _⟩ =>
    show win1_4.index t (0 : Fin 2) * 2048 ≤ (i 0).val ∧ (i 0).val < win1_4.index t (0 : Fin 2) * 2048 + 2048
    rw [e0, ht]; omega
  | ⟨1, _⟩ =>
    show win1_4.index t (1 : Fin 2) * 1 ≤ (i 1).val ∧ (i 1).val < win1_4.index t (1 : Fin 2) * 1 + 1
    rw [e1]; omega

/-- After the cluster's grid the result array holds, row by row, the cluster's term of the row's real logits. -/
theorem region1_value (c : Dev nD)
    (hX : ∀ (p : Fin 4096) (e : Fin 1024), (V c main_v0 : S4096x1024.Idx → EReal) (ix2 p e) = X (ix2 p e))
    (hW1 : ∀ (e : Fin 1024) (d : Fin 256), (V c main_v6 : S1024x256.Idx → EReal) (ix2 e d) = W1 (ix2 e d))
    (hW2 : ∀ (d : Fin 256) (k : Fin 30720), (V c main_v8 : S256x30720.Idx → EReal) (ix2 d k)
      = if h : k.val < 30000 then W2 (ix2 d ⟨k.val, h⟩) else 0)
    (hT : ∀ p : Fin 4096, (V c main_v1 : S4096x1.Idx → BitVec 32) (ix2 p (0 : Fin 1)) = T (ix1 p))
    (hXr : ∀ i, X i = (((X i).toReal : ℝ) : EReal)) (hW1r : ∀ i, W1 i = (((W1 i).toReal : ℝ) : EReal))
    (hW2r : ∀ i, W2 i = (((W2 i).toReal : ℝ) : EReal))
    (hrange : ∀ p : Fin 4096, 0 ≤ (T (ix1 p)).toInt ∧ (T (ix1 p)).toInt < 50000) :
    ∀ p : Fin 4096, ((dat1 (F := Ideal) V c).arrAt 4 cfg1.N : S4096x1.Idx → EReal) (ix2 p (0 : Fin 1))
      = Cert.RowDefs.tailNll (C := 30000) (by decide) 20000 50000 (T (ix1 p)).toInt
          (fun k => Cert.RowDefs.lg2 X W1 W2 p k) := by
  intro p
  have hfin := (dat1 (F := Ideal) V c).arrAt_eq_of_cover 4 (G X W1 W2 T)
    (fun t hf => flushed_eq V X W1 W2 T c hX hW1 hW2 hT hXr hW1r hW2r hrange t hf) cover
  exact congrFun hfin (ix2 p (0 : Fin 1))

end Region

end Cert.KernelIdeal.Row1

end
-- ==== Proof.KI.Val2.lean ====
import proofs.«422338_j11269994185272_3_alg».proof.Proof.KI.Step
import proofs.«422338_j11269994185272_3_alg».proof.Proof.LibOnlineLse
import proofs.«422338_j11269994185272_3_alg».proof.Proof.LibRowNll
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val2

open Idealize.ShloMosaic Idealize.ShloMosaic.ValueIdx Cert.KernelIdeal Cert.KernelIdeal.Gen

section Layout
variable {α : Type}

theorem vec_as_col_apply {a : Nat} (v : (⟨1, ![a]⟩ : Shape).Idx → α)
    (h : (⟨1, ![a]⟩ : Shape).ShapeCasts ⟨2, ![a, 1]⟩) (q : Fin a) (u : Fin 1) :
    shapeCast ⟨2, ![a, 1]⟩ v h (ix2 q u) = v (ix1 q) := by
  refine shapeCast_apply v h (ix2 q u) (ix1 q) ?_
  rw [Shape.rowMajor_val_one, Shape.rowMajor_val_two]
  show q.val = q.val * 1 + u.val
  have := u.isLt
  omega

theorem col_along_lanes_apply {a b : Nat} (v : (⟨2, ![a, 1]⟩ : Shape).Idx → α)
    (h : (⟨2, ![a, 1]⟩ : Shape).Broadcasts ⟨2, ![a, b]⟩) (q : Fin a) (j : Fin b) :
    broadcastTo ⟨2, ![a, b]⟩ v h (ix2 q j) = v (ix2 q (0 : Fin 1)) := by
  refine broadcastTo_apply v h (ix2 q j) (ix2 q (0 : Fin 1)) (fun ax => ?_)
  match ax with
  | ⟨0, _⟩ =>
    show q.val = if a = 1 then 0 else q.val
    split_ifs with h1
    · have := q.isLt; omega
    · rfl
  | ⟨1, _⟩ => rfl

end Layout

theorem ofNat_toInt_small (j : Nat) (h : j < 2 ^ 31) : (BitVec.ofNat 32 j).toInt = (j : Int) := by
  rw [BitVec.toInt_eq_toNat_cond, BitVec.toNat_ofNat, Nat.mod_eq_of_lt (show j < 2 ^ 32 by omega)]
  rw [if_pos (by omega)]

def ftWord (t : BitVec 32) : BitVec 32 :=
  Scalar.select (IntOp.cmpi .sge t (BitVec.ofNat 32 20000)) (BitVec.ofNat 32 4001)
    (Scalar.select (IntOp.cmpi .sge t (BitVec.ofNat 32 4000)) (BitVec.ofNat 32 4000) t)

def ftInt (z : Int) : Int :=
  if 20000 ≤ z ∧ z < 50000 then 4001 else if 4000 ≤ z ∧ z < 20000 then 4000 else z

theorem toInt_4000 : (BitVec.ofNat 32 4000).toInt = 4000 := by decide
theorem toInt_20000 : (BitVec.ofNat 32 20000).toInt = 20000 := by decide
theorem toInt_4001 : (BitVec.ofNat 32 4001).toInt = 4001 := by decide

theorem ftWord_toInt (t : BitVec 32) (ht : 0 ≤ t.toInt ∧ t.toInt < 50000) : (ftWord t).toInt = ftInt t.toInt := by
  unfold ftWord ftInt
  by_cases h2 : 20000 ≤ t.toInt
  · rw [IntOp.cmpi_sge.mpr (toInt_20000 ▸ h2), select_one, if_pos ⟨h2, ht.2⟩, toInt_4001]
  · rw [eq_zero_of_ne_one (fun hc => h2 (toInt_20000 ▸ IntOp.cmpi_sge.mp hc)), select_zero, if_neg (fun h => h2 h.1)]
    by_cases h1 : 4000 ≤ t.toInt
    · rw [IntOp.cmpi_sge.mpr (toInt_4000 ▸ h1), select_one, if_pos ⟨h1, by omega⟩, toInt_4000]
    · rw [eq_zero_of_ne_one (fun hc => h1 (toInt_4000 ▸ IntOp.cmpi_sge.mp hc)), select_zero, if_neg (fun h => h1 h.1)]

theorem ftInt_range (z : Int) (hz : 0 ≤ z ∧ z < 50000) : 0 ≤ ftInt z ∧ ftInt z < 4002 := by
  unfold ftInt
  split_ifs <;> omega

theorem lane_eq_ftWord_iff (j : Fin 4096) (t : BitVec 32) (ht : 0 ≤ t.toInt ∧ t.toInt < 50000) :
    BitVec.ofNat 32 j.val = ftWord t ↔ ((j.val : Nat) : Int) = ftInt t.toInt := by
  have := j.isLt
  rw [← BitVec.toInt_inj, ofNat_toInt_small j.val (by omega), ftWord_toInt t ht]

theorem lhsH_0 (i : S256x4096.Idx) (k : dot_S256x1024_S1024x4096_S256x4096_1_0_0_1_n_n.contr.Idx) :
    (dot_S256x1024_S1024x4096_S256x4096_1_0_0_1_n_n.lhsIdx i k 0).val = (i 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl
theorem lhsH_1 (i : S256x4096.Idx) (k : dot_S256x1024_S1024x4096_S256x4096_1_0_0_1_n_n.contr.Idx) :
    (dot_S256x1024_S1024x4096_S256x4096_1_0_0_1_n_n.lhsIdx i k 1).val = (k ⟨0, by decide⟩).val :=
  dot_S256x1024_S1024x4096_S256x4096_1_0_0_1_n_n.lhsIdx_val_of_single rfl i k
theorem rhsH_0 (i : S256x4096.Idx) (k : dot_S256x1024_S1024x4096_S256x4096_1_0_0_1_n_n.contr.Idx) :
    (dot_S256x1024_S1024x4096_S256x4096_1_0_0_1_n_n.rhsIdx i k 0).val = (k ⟨0, by decide⟩).val :=
  dot_S256x1024_S1024x4096_S256x4096_1_0_0_1_n_n.rhsIdx_val_of_single rfl i k
theorem rhsH_1 (i : S256x4096.Idx) (k : dot_S256x1024_S1024x4096_S256x4096_1_0_0_1_n_n.contr.Idx) :
    (dot_S256x1024_S1024x4096_S256x4096_1_0_0_1_n_n.rhsIdx i k 1).val = (i 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

theorem matmulH_apply (a : FVec Ideal S256x1024 .bf16) (b : FVec Ideal S1024x4096 .bf16) (q : Fin 256) (j : Fin 4096) :
    matmul (F := Ideal) dot_S256x1024_S1024x4096_S256x4096_1_0_0_1_n_n none a b
        (constant (F := Ideal) S256x4096 .f32 0x00000000#32) (ix2 q j)
      = ∑ k : Fin 1024, a (ix2 q k) * b (ix2 k j) := by
  simp only [matmul]
  rw [Ideal.matmul_constant_zero_apply,
    ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 q j)
      ((contrEquiv1 dot_S256x1024_S1024x4096_S256x4096_1_0_0_1_n_n 1024 rfl rfl).symm k) = ix2 q k :=
    funext fun ax => Fin.ext (by
      match ax with
      | ⟨0, _⟩ => exact lhsH_0 _ _
      | ⟨1, _⟩ => exact (lhsH_1 _ _).trans hk)
  have er : dot_S256x1024_S1024x4096_S256x4096_1_0_0_1_n_n.rhsIdx (ix2 q j)
      ((contrEquiv1 dot_S256x1024_S1024x4096_S256x4096_1_0_0_1_n_n 1024 rfl rfl).symm k) = ix2 k j :=
    funext fun ax => Fin.ext (by
      match ax with
      | ⟨0, _⟩ => exact (rhsH_0 _ _).trans hk
      | ⟨1, _⟩ => exact rhsH_1 _ _)
  rw [el, er]

theorem lift_lane (q : Fin 256) (j : Fin 4096) : reduces_S256x4096_S256.lift (ix1 q) j = ix2 q j :=
  funext fun ax => Fin.ext (by
    match ax with
    | ⟨0, _⟩ => rfl
    | ⟨1, _⟩ => rfl)

theorem rowMax_apply (src : FVec Ideal S256x4096 .f32) (q : Fin 256) :
    shapeCast S256x1 (multiReduction (F := Ideal) .maximumf [1] S256 src 0xFF800000#32
        reduces_S256x4096_S256 (.inl rfl) rfl) shapeCasts_S256_S256x1 (ix2 q 0)
      = (Finset.univ : Finset (Fin 4096)).fold max ⊥ (fun j => src (ix2 q j)) := by
  rw [vec_as_col_apply]
  refine (Ideal.multiReduction_maximumf_single _ _ _ _ _ (ix1 q)).trans ?_
  rw [Ideal.ofBits_def, OnlineLse.ofBits_negInf_f32]
  exact Finset.fold_congr (fun j _ => congrArg src (lift_lane q j))

theorem rowSum_apply (src : FVec Ideal S256x4096 .f32) (q : Fin 256) :
    shapeCast S256x1 (multiReduction (F := Ideal) .add [1] S256 src 0x00000000#32
        reduces_S256x4096_S256 (.inl rfl) rfl) shapeCasts_S256_S256x1 (ix2 q 0)
      = ∑ j : Fin 4096, src (ix2 q j) := by
  rw [vec_as_col_apply]
  refine (Ideal.multiReduction_add_single _ _ _ _ _ (ix1 q)).trans ?_
  exact Finset.sum_congr rfl (fun j _ => congrArg src (lift_lane q j))

def lgH (x : Vec Ideal S256x1024 .bf16) (w : Vec Ideal S1024x4096 .bf16) (b : Vec Ideal S1x4096 .f32)
    (q : Fin 256) (j : Fin 4096) : EReal :=
  if j.val < 4002 then (∑ k : Fin 1024, (x (ix2 q k) : EReal) * (w (ix2 k j) : EReal)) + (b (ix2 (0 : Fin 1) j) : EReal) else ⊥

def tile (x : Vec Ideal S256x1024 .bf16) (w : Vec Ideal S1024x4096 .bf16) (b : Vec Ideal S1x4096 .f32)
    (q : Fin 256) : ℕ → Fin 4096 → EReal := fun _ j => lgH x w b q j

theorem negBig_eq_bot : Named.named (F := Ideal) Cert.KernelIdeal.κ "neg_big" (φ := .f32) 0xF149F2CA#32 = (⊥ : EReal) :=
  IdealRules.named_const.ideal_named_scalar _ _ _ _ rfl

theorem col_zero (i : grid2.Coords) : (i 1).val = 0 := by
  have h : (i 1).val < 1 := (i 1).isLt
  omega

theorem pay9_apply (i : grid2.Coords) (q : Fin 256) (j : Fin 4096) :
    k2_pay9 i (ix2 q j) = BitVec.ofNat 32 j.val := by
  unfold k2_pay9
  show IntOp.addi (Scalar.muli (BitVec.ofNat 32 (i 1).val) 4096#32)
    (iota .tc S256x4096 32 [1] iota_S256x4096_d1_w32 (ix2 q j)) = _
  rw [iota_single_apply, col_zero i]
  show BitVec.ofNat 32 0 * 4096#32 + BitVec.ofNat 32 j.val = _
  rw [BitVec.zero_mul, BitVec.zero_add]

theorem pay10_apply (i : grid2.Coords) (q : Fin 256) (j : Fin 4096) :
    k2_pay10 i (ix2 q j) = 1#1 ↔ j.val < 4002 := by
  have := j.isLt
  unfold k2_pay10
  show IntOp.cmpi .slt (k2_pay9 i (ix2 q j)) 4002#32 = 1#1 ↔ _
  rw [IntOp.cmpi_slt, pay9_apply, ofNat_toInt_small j.val (by omega)]
  show ((j.val : Nat) : Int) < 4002 ↔ _
  omega

theorem pay11_apply (i : grid2.Coords) (x : Vec Ideal S256x1024 .bf16) (w : Vec Ideal S1024x4096 .bf16)
    (b : Vec Ideal S1x4096 .f32) (q : Fin 256) (j : Fin 4096) :
    k2_pay11 (F := Ideal) i x w b (ix2 q j) = lgH x w b q j := by
  unfold k2_pay11
  show Scalar.select (k2_pay10 i (ix2 q j))
    (matmul (F := Ideal) dot_S256x1024_S1024x4096_S256x4096_1_0_0_1_n_n none
        (shapeCast S256x1024 x shapeCasts_S256x1024_S256x1024) (shapeCast S1024x4096 w shapeCasts_S1024x4096_S1024x4096)
        (constant (F := Ideal) S256x4096 .f32 0x00000000#32) (ix2 q j)
      + broadcastTo S256x4096 (shapeCast S1x4096 b shapeCasts_S1x4096_S1x4096) broadcasts_S1x4096_S256x4096 (ix2 q j))
    (Named.named (F := Ideal) Cert.KernelIdeal.κ "neg_big" (φ := .f32) 0xF149F2CA#32) = _
  rw [shapeCast_self, shapeCast_self, shapeCast_self, matmulH_apply, broadcastTo_1b_ab_apply, negBig_eq_bot]
  unfold lgH
  by_cases hv : j.val < 4002
  · rw [(pay10_apply i q j).mpr hv, select_one, if_pos hv]
  · rw [eq_zero_of_ne_one (fun hc => hv ((pay10_apply i q j).mp hc)), select_zero, if_neg hv]

theorem pay2_apply (v : FVec Ideal S256x4096 .f32) (mx : Vec Ideal S256x1 .f32) (q : Fin 256) :
    k2_pay2 (F := Ideal) v mx (ix2 q 0)
      = max (mx (ix2 q 0) : EReal) ((Finset.univ : Finset (Fin 4096)).fold max ⊥ (fun j => v (ix2 q j))) := by
  unfold k2_pay2
  refine (maximumf_apply (s := S256x1) (φ := .f32) mx _ (ix2 q 0)).trans ?_
  exact congrArg (max (mx (ix2 q 0) : EReal)) (rowMax_apply v q)

theorem pay4_apply (v : FVec Ideal S256x4096 .f32) (mx : Vec Ideal S256x1 .f32) (q : Fin 256) :
    k2_pay4 (F := Ideal) v mx (ix2 q 0)
      = max (mx (ix2 q 0) : EReal) ((Finset.univ : Finset (Fin 4096)).fold max ⊥ (fun j => v (ix2 q j))) := by
  unfold k2_pay4
  rw [shapeCast_self, pay2_apply]

theorem pay3_apply (v : FVec Ideal S256x4096 .f32) (mx mx' sm : Vec Ideal S256x1 .f32) (q : Fin 256) :
    k2_pay3 (F := Ideal) v mx mx' sm (ix2 q 0)
      = Ideal.exp ((mx' (ix2 q 0) : EReal) - k2_pay2 (F := Ideal) v mx (ix2 q 0)) * (sm (ix2 q 0) : EReal)
        + ∑ j : Fin 4096, Ideal.exp (v (ix2 q j) - k2_pay2 (F := Ideal) v mx (ix2 q 0)) := by
  unfold k2_pay3
  rw [shapeCast_self]
  show Ideal.exp ((mx' (ix2 q 0) : EReal) - k2_pay2 (F := Ideal) v mx (ix2 q 0)) * (sm (ix2 q 0) : EReal)
      + shapeCast S256x1 (multiReduction (F := Ideal) .add [1] S256
          (exp (subf v (broadcastTo S256x4096 (k2_pay2 (F := Ideal) v mx) broadcasts_S256x1_S256x4096)))
          0x00000000#32 reduces_S256x4096_S256 (.inl rfl) rfl) shapeCasts_S256_S256x1 (ix2 q 0) = _
  rw [rowSum_apply]
  refine congrArg _ (Finset.sum_congr rfl fun j _ => ?_)
  show Ideal.exp (v (ix2 q j) - broadcastTo S256x4096 (k2_pay2 (F := Ideal) v mx) broadcasts_S256x1_S256x4096 (ix2 q j)) = _
  rw [col_along_lanes_apply]

theorem pay1_apply (tl : Vec Ideal S256x1 .f32) (v : FVec Ideal S256x4096 .f32) (q : Fin 256) :
    k2_pay1 (F := Ideal) tl v (ix2 q 0) = (tl (ix2 q 0) : EReal) + ∑ j : Fin 4096, v (ix2 q j) := by
  unfold k2_pay1
  rw [shapeCast_self]
  show (tl (ix2 q 0) : EReal) + shapeCast S256x1 (multiReduction (F := Ideal) .add [1] S256 v 0x00000000#32
      reduces_S256x4096_S256 (.inl rfl) rfl) shapeCasts_S256_S256x1 (ix2 q 0) = _
  rw [rowSum_apply]

theorem pay12_apply (i : grid2.Coords) (x : Vec Ideal S256x1024 .bf16) (w : Vec Ideal S1024x4096 .bf16)
    (b : Vec Ideal S1x4096 .f32) (tg : Vec Ideal S256x1 .i32) (q : Fin 256) (j : Fin 4096) :
    k2_pay12 (F := Ideal) i x w b tg (ix2 q j)
      = if (BitVec.ofNat 32 j.val = ftWord (tg (ix2 q 0) : BitVec 32) ∧ j.val < 4002) then lgH x w b q j else 0 := by
  unfold k2_pay12
  rw [shapeCast_self]
  show Scalar.select (IntOp.andi (IntOp.cmpi .eq (k2_pay9 i (ix2 q j))
        (broadcastTo S256x4096 (select (cmpi .sge tg (broadcast S256x1 20000#32)) (broadcast S256x1 4001#32)
            (select (cmpi .sge tg (broadcast S256x1 4000#32)) (broadcast S256x1 4000#32) tg))
          broadcasts_S256x1_S256x4096 (ix2 q j)))
      (k2_pay10 i (ix2 q j))) (k2_pay11 (F := Ideal) i x w b (ix2 q j)) (Ideal.ofBits .f32 0x00000000#32) = _
  rw [col_along_lanes_apply, pay11_apply, Ideal.ofBits_zero_f32, pay9_apply]
  show Scalar.select (IntOp.andi (IntOp.cmpi .eq (BitVec.ofNat 32 j.val) (ftWord (tg (ix2 q 0) : BitVec 32)))
      (k2_pay10 i (ix2 q j))) _ _ = _
  by_cases hh : BitVec.ofNat 32 j.val = ftWord (tg (ix2 q 0) : BitVec 32) ∧ j.val < 4002
  · rw [IntOp.andi_eq_one.mpr ⟨IntOp.cmpi_eq.mpr hh.1, (pay10_apply i q j).mpr hh.2⟩, select_one, if_pos hh]
  · rw [eq_zero_of_ne_one (fun hc => hh ⟨IntOp.cmpi_eq.mp (IntOp.andi_eq_one.mp hc).1,
        (pay10_apply i q j).mp (IntOp.andi_eq_one.mp hc).2⟩), select_zero, if_neg hh]

theorem reset2_mx (q : Fin 256) : ((reset2 (F := Ideal)).mx (ix2 q 0) : EReal) = ⊥ := by
  show k2_pay6 (F := Ideal) (ix2 q 0) = _
  unfold k2_pay6
  rw [shapeCast_self]
  exact OnlineLse.ofBits_negInf_f32

theorem reset2_sm (q : Fin 256) : ((reset2 (F := Ideal)).sm (ix2 q 0) : EReal) = 0 := by
  show k2_pay7 (F := Ideal) (ix2 q 0) = _
  unfold k2_pay7
  rw [shapeCast_self]
  exact Ideal.ofBits_zero_f32

theorem reset2_tl (q : Fin 256) : ((reset2 (F := Ideal)).tl (ix2 q 0) : EReal) = 0 := by
  show k2_pay8 (F := Ideal) (ix2 q 0) = _
  unfold k2_pay8
  rw [shapeCast_self]
  exact Ideal.ofBits_zero_f32

theorem step2_eq (i : grid2.Coords) (x : Vec Ideal S256x1024 .bf16) (w : Vec Ideal S1024x4096 .bf16)
    (b : Vec Ideal S1x4096 .f32) (tg : Vec Ideal S256x1 .i32) (s : St2 Ideal) :
    step2 (F := Ideal) i x w b tg s
      = ⟨k2_pay4 (k2_pay11 i x w b) (reset2 (F := Ideal)).mx,
         k2_pay3 (k2_pay11 i x w b) (reset2 (F := Ideal)).mx (reset2 (F := Ideal)).mx (reset2 (F := Ideal)).sm,
         k2_pay1 (reset2 (F := Ideal)).tl (k2_pay12 i x w b tg)⟩ := by
  unfold step2
  simp only [if_pos (first2_all i)]

theorem step2_mx (i : grid2.Coords) (x : Vec Ideal S256x1024 .bf16) (w : Vec Ideal S1024x4096 .bf16)
    (b : Vec Ideal S1x4096 .f32) (tg : Vec Ideal S256x1 .i32) (s : St2 Ideal) (q : Fin 256) :
    ((step2 (F := Ideal) i x w b tg s).mx (ix2 q 0) : EReal) = OnlineLse.runMax (tile x w b q) 1 := by
  rw [step2_eq]
  show k2_pay4 (F := Ideal) (k2_pay11 (F := Ideal) i x w b) (reset2 (F := Ideal)).mx (ix2 q 0) = _
  rw [pay4_apply, reset2_mx, OnlineLse.runMax_one]
  exact congrArg (max ⊥) (Finset.fold_congr fun j _ => pay11_apply i x w b q j)

theorem step2_sm (i : grid2.Coords) (x : Vec Ideal S256x1024 .bf16) (w : Vec Ideal S1024x4096 .bf16)
    (b : Vec Ideal S1x4096 .f32) (tg : Vec Ideal S256x1 .i32) (s : St2 Ideal) (q : Fin 256) :
    ((step2 (F := Ideal) i x w b tg s).sm (ix2 q 0) : EReal) = OnlineLse.runSum (tile x w b q) 1 := by
  have hm : k2_pay2 (F := Ideal) (k2_pay11 (F := Ideal) i x w b) (reset2 (F := Ideal)).mx (ix2 q 0)
      = OnlineLse.runMax (tile x w b q) 1 := by
    rw [pay2_apply, reset2_mx, OnlineLse.runMax_one]
    exact congrArg (max ⊥) (Finset.fold_congr fun j _ => pay11_apply i x w b q j)
  rw [step2_eq]
  show k2_pay3 (F := Ideal) (k2_pay11 (F := Ideal) i x w b) (reset2 (F := Ideal)).mx (reset2 (F := Ideal)).mx
    (reset2 (F := Ideal)).sm (ix2 q 0) = _
  rw [pay3_apply, hm, reset2_mx, reset2_sm, OnlineLse.runSum_one]
  refine congrArg _ (Finset.sum_congr rfl fun j _ => ?_)
  exact congrArg (fun v : EReal => Ideal.exp (v - OnlineLse.runMax (tile x w b q) 1)) (pay11_apply i x w b q j)

theorem step2_tl_word (i : grid2.Coords) (x : Vec Ideal S256x1024 .bf16) (w : Vec Ideal S1024x4096 .bf16)
    (b : Vec Ideal S1x4096 .f32) (tg : Vec Ideal S256x1 .i32) (s : St2 Ideal) (q : Fin 256) :
    ((step2 (F := Ideal) i x w b tg s).tl (ix2 q 0) : EReal)
      = 0 + ∑ j : Fin 4096,
          if (BitVec.ofNat 32 j.val = ftWord (tg (ix2 q 0) : BitVec 32) ∧ j.val < 4002) then lgH x w b q j else 0 := by
  rw [step2_eq]
  show k2_pay1 (F := Ideal) (reset2 (F := Ideal)).tl (k2_pay12 (F := Ideal) i x w b tg) (ix2 q 0) = _
  rw [pay1_apply, reset2_tl]
  refine congrArg _ (Finset.sum_congr rfl fun j _ => ?_)
  rw [pay12_apply]

theorem step2_tl (i : grid2.Coords) (x : Vec Ideal S256x1024 .bf16) (w : Vec Ideal S1024x4096 .bf16)
    (b : Vec Ideal S1x4096 .f32) (tg : Vec Ideal S256x1 .i32) (s : St2 Ideal) (q : Fin 256)
    (ht : 0 ≤ (tg (ix2 q 0) : BitVec 32).toInt ∧ (tg (ix2 q 0) : BitVec 32).toInt < 50000) :
    ((step2 (F := Ideal) i x w b tg s).tl (ix2 q 0) : EReal)
      = RowNll.pick (tile x w b q) 4002 (ftInt (tg (ix2 q 0) : BitVec 32).toInt) 1 := by
  rw [step2_tl_word, RowNll.pick_one]
  refine congrArg _ (Finset.sum_congr rfl fun j _ => ?_)
  have e : 0 * 4096 + j.val = j.val := by omega
  rw [e]
  exact if_congr (and_congr_left' (lane_eq_ftWord_iff j _ ht)) rfl rfl

theorem out2_apply (s : St2 Ideal) (q : Fin 256) :
    out2 (F := Ideal) s (ix2 q 0)
      = ((s.mx (ix2 q 0) : EReal) + Ideal.log (s.sm (ix2 q 0))) - (s.tl (ix2 q 0) : EReal) := by
  unfold out2 k2_pay5
  rfl

end Cert.KernelIdeal.Val2

end
-- ==== Proof.KI.Row2.lean ====
import proofs.«422338_j11269994185272_3_alg».proof.Proof.KI.R2Frame
import proofs.«422338_j11269994185272_3_alg».proof.Proof.KI.Val2
import proofs.«422338_j11269994185272_3_alg».proof.Proof.LibRowNll
import proofs.«422338_j11269994185272_3_alg».proof.Proof.RowDefs
import Idealize.ShloMosaic.Lib.Pipeline.Value

set_option maxRecDepth 16384

noncomputable section

namespace Cert.KernelIdeal.Row2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Val2

section Row

variable (X : (⟨2, ![4096, 1024]⟩ : Shape).Idx → EReal) (HW : (⟨2, ![1024, 4002]⟩ : Shape).Idx → EReal)
  (HB : (⟨1, ![4002]⟩ : Shape).Idx → EReal)

def nllRow (T : (⟨1, ![4096]⟩ : Shape).Idx → BitVec 32) (p : Fin 4096) : EReal :=
  -(Cert.RowDefs.logSoftmax (fun k : Fin 4002 => Cert.RowDefs.lgBias X HW HB p k)
      (Cert.RowDefs.clipCol 4002 (by decide) (ftInt (T (ix1 p)).toInt)))

def realRow (p : Fin 4096) (k : ℕ) : ℝ :=
  if h : k < 4002 then (∑ e : Fin 1024, (X (ix2 p e)).toReal * (HW (ix2 e ⟨k, h⟩)).toReal) + (HB (ix1 ⟨k, h⟩)).toReal else 0

theorem lgBias_eq_coe (hXr : ∀ i, X i = (((X i).toReal : ℝ) : EReal)) (hWr : ∀ i, HW i = (((HW i).toReal : ℝ) : EReal))
    (hBr : ∀ i, HB i = (((HB i).toReal : ℝ) : EReal)) (p : Fin 4096) (k : Fin 4002) :
    Cert.RowDefs.lgBias X HW HB p k = ((realRow X HW HB p k.val : ℝ) : EReal) := by
  unfold Cert.RowDefs.lgBias realRow
  rw [dif_pos k.isLt, EReal.coe_add, OnlineLse.coe_sum]
  refine congrArg₂ (· + ·) (Finset.sum_congr rfl fun e _ => ?_) (hBr (ix1 k))
  rw [EReal.coe_mul]
  exact congrArg₂ (· * ·) (hXr (ix2 p e)) (hWr (ix2 e k))

theorem point_row (i : grid2.Coords) (x : Vec Ideal S256x1024 .bf16) (w : Vec Ideal S1024x4096 .bf16)
    (b : Vec Ideal S1x4096 .f32) (tg : Vec Ideal S256x1 .i32) (s : St2 Ideal) (q : Fin 256) (p : Fin 4096)
    (T : (⟨1, ![4096]⟩ : Shape).Idx → BitVec 32)
    (hx : ∀ e : Fin 1024, (x (ix2 q e) : EReal) = X (ix2 p e))
    (hw : ∀ (e : Fin 1024) (k : Fin 4096), (w (ix2 e k) : EReal) = if h : k.val < 4002 then HW (ix2 e ⟨k.val, h⟩) else 0)
    (hb : ∀ k : Fin 4096, (b (ix2 (0 : Fin 1) k) : EReal) = if h : k.val < 4002 then HB (ix1 ⟨k.val, h⟩) else 0)
    (ht : (tg (ix2 q 0) : BitVec 32) = T (ix1 p))
    (hXr : ∀ i, X i = (((X i).toReal : ℝ) : EReal)) (hWr : ∀ i, HW i = (((HW i).toReal : ℝ) : EReal))
    (hBr : ∀ i, HB i = (((HB i).toReal : ℝ) : EReal))
    (htr : 0 ≤ (T (ix1 p)).toInt ∧ (T (ix1 p)).toInt < 50000) :
    out2 (F := Ideal) (step2 (F := Ideal) i x w b tg s) (ix2 q 0) = nllRow X HW HB T p := by
  have htr' : 0 ≤ (tg (ix2 q 0) : BitVec 32).toInt ∧ (tg (ix2 q 0) : BitVec 32).toInt < 50000 := by rw [ht]; exact htr
  rw [out2_apply, step2_mx, step2_sm, step2_tl i x w b tg s q htr', ht]

  have ha : ∀ n, n < 1 → ∀ j : Fin 4096, tile x w b q n j
      = if n * 4096 + j.val < 4002 then ((realRow X HW HB p (n * 4096 + j.val) : ℝ) : EReal) else ⊥ := by
    intro n hn j
    obtain rfl : n = 0 := by omega
    have e0 : 0 * 4096 + j.val = j.val := by omega
    rw [e0]
    show lgH x w b q j = _
    unfold lgH
    by_cases h : j.val < 4002
    · rw [if_pos h, if_pos h]
      refine Eq.trans ?_ (lgBias_eq_coe X HW HB hXr hWr hBr p ⟨j.val, h⟩)
      unfold Cert.RowDefs.lgBias
      rw [hb j, dif_pos h]
      refine congrArg₂ (· + ·) (Finset.sum_congr rfl fun e _ => ?_) rfl
      rw [hx e, hw e j, dif_pos h]
    · rw [if_neg h, if_neg h]
  have hy : ∀ k : Fin 4002, (fun k : Fin 4002 => Cert.RowDefs.lgBias X HW HB p k) k
      = ((realRow X HW HB p k.val : ℝ) : EReal) := fun k => lgBias_eq_coe X HW HB hXr hWr hBr p k
  have hz := ftInt_range (T (ix1 p)).toInt htr
  unfold nllRow
  exact RowNll.head_row (B := 4096) (T := 1) (C := 4002) (by decide) (by decide) (by decide) ha _ hy hz.1
    (by exact_mod_cast hz.2)

end Row

section Blocks

variable (V : (c : Dev nD) → (b : Ref sig .tc) → Buf (Elt Ideal) ((c : Thread nD τ).loc b))

theorem N16 : cfg2.N = 16 := N_2

def rowOf (t : Fin cfg2.N) (q : Fin 256) : Fin 4096 :=
  ⟨t.val * 256 + q.val, by have := t.isLt; have := N16; have := q.isLt; omega⟩

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem xb2_apply (c : Dev nD) (t : Fin cfg2.N) (q : Fin 256) (e : Fin 1024) :
    xb2 (F := Ideal) V c t (ix2 q e) = V c main_v0 (ix2 (rowOf t q) e) := by
  show V c main_v0 (((cfg2.win 0).blk t).view.emb (ix2 q e)) = _
  refine congrArg (V c main_v0) (funext fun a => Fin.ext ?_)
  obtain ⟨f0, f1, -⟩ := idx_facts t
  match a with
  | ⟨0, _⟩ => show win2_0.index t (0 : Fin 2) * 256 + 1 * q.val = t.val * 256 + q.val; rw [f0]; omega
  | ⟨1, _⟩ => show win2_0.index t (1 : Fin 2) * 1024 + 1 * e.val = e.val; rw [f1]; omega

theorem wb2_apply (c : Dev nD) (t : Fin cfg2.N) (e : Fin 1024) (k : Fin 4096) :
    wb2 (F := Ideal) V c t (ix2 e k) = V c main_v11 (ix2 e k) := by
  show V c main_v11 (((cfg2.win 1).blk t).view.emb (ix2 e k)) = _
  refine congrArg (V c main_v11) (funext fun a => Fin.ext ?_)
  obtain ⟨-, -, f0, f1, -⟩ := idx_facts t
  match a with
  | ⟨0, _⟩ => show win2_1.index t (0 : Fin 2) * 1024 + 1 * e.val = e.val; rw [f0]; omega
  | ⟨1, _⟩ => show win2_1.index t (1 : Fin 2) * 4096 + 1 * k.val = k.val; rw [f1]; omega

theorem bb2_apply (c : Dev nD) (t : Fin cfg2.N) (k : Fin 4096) :
    bb2 (F := Ideal) V c t (ix2 (0 : Fin 1) k) = V c main_v13 (ix2 (0 : Fin 1) k) := by
  show V c main_v13 (((cfg2.win 2).blk t).view.emb (ix2 (0 : Fin 1) k)) = _
  refine congrArg (V c main_v13) (funext fun a => Fin.ext ?_)
  obtain ⟨-, -, -, -, f0, f1, -⟩ := idx_facts t
  match a with
  | ⟨0, _⟩ => show win2_2.index t (0 : Fin 2) * 1 + 1 * 0 = 0; rw [f0]
  | ⟨1, _⟩ => show win2_2.index t (1 : Fin 2) * 4096 + 1 * k.val = k.val; rw [f1]; omega

theorem tb2_apply (c : Dev nD) (t : Fin cfg2.N) (q : Fin 256) :
    tb2 (F := Ideal) V c t (ix2 q (0 : Fin 1)) = V c main_v1 (ix2 (rowOf t q) (0 : Fin 1)) := by
  show V c main_v1 (((cfg2.win 3).blk t).view.emb (ix2 q (0 : Fin 1))) = _
  refine congrArg (V c main_v1) (funext fun a => Fin.ext ?_)
  obtain ⟨-, -, -, -, -, -, f0, f1, -⟩ := idx_facts t
  match a with
  | ⟨0, _⟩ => show win2_3.index t (0 : Fin 2) * 256 + 1 * q.val = t.val * 256 + q.val; rw [f0]; omega
  | ⟨1, _⟩ => show win2_3.index t (1 : Fin 2) * 1 + 1 * 0 = 0; rw [f1]

theorem stAt2_eq (c : Dev nD) : ∀ (n : ℕ) (hn : n < cfg2.N), stAt2 (F := Ideal) V c n hn
    = step2 (grid2.coords ⟨n, hn⟩) (xb2 V c ⟨n, hn⟩) (wb2 V c ⟨n, hn⟩) (bb2 V c ⟨n, hn⟩) (tb2 V c ⟨n, hn⟩) reset2
  | 0, _ => rfl
  | n + 1, hn => (stAt2_succ V c n hn).trans (step2_first _ _ _ _ _ _ _)

end Blocks

section Array

variable (V : (c : Dev nD) → (b : Ref sig .tc) → Buf (Elt Ideal) ((c : Thread nD τ).loc b)) (c : Dev nD)
  (X : (⟨2, ![4096, 1024]⟩ : Shape).Idx → EReal) (HW : (⟨2, ![1024, 4002]⟩ : Shape).Idx → EReal)
  (HB : (⟨1, ![4002]⟩ : Shape).Idx → EReal) (T : (⟨1, ![4096]⟩ : Shape).Idx → BitVec 32)

def G : S4096x1.Idx → EReal := fun i => nllRow X HW HB T ⟨(i 0).val, idx2_lt0 i⟩

variable (hX : ∀ (p : Fin 4096) (e : Fin 1024), V c main_v0 (ix2 p e) = X (ix2 p e))
  (hW : ∀ (e : Fin 1024) (k : Fin 4096), V c main_v11 (ix2 e k) = if h : k.val < 4002 then HW (ix2 e ⟨k.val, h⟩) else 0)
  (hB : ∀ k : Fin 4096, V c main_v13 (ix2 (0 : Fin 1) k) = if h : k.val < 4002 then HB (ix1 ⟨k.val, h⟩) else 0)
  (hT : ∀ p : Fin 4096, V c main_v1 (ix2 p (0 : Fin 1)) = T (ix1 p))
  (hXr : ∀ i, X i = (((X i).toReal : ℝ) : EReal)) (hWr : ∀ i, HW i = (((HW i).toReal : ℝ) : EReal))
  (hBr : ∀ i, HB i = (((HB i).toReal : ℝ) : EReal))
  (hTr : ∀ p : Fin 4096, 0 ≤ (T (ix1 p)).toInt ∧ (T (ix1 p)).toInt < 50000)

include hX hW hB hT hXr hWr hBr hTr in

theorem flushed_eq (t : Fin cfg2.N) :
    (dat2 (F := Ideal) V c).flushed 4 t = ((cfg2.win 4).blk t).view.read (Elt Ideal) (G X HW HB T) := by
  show (cfg2.win 4).cut (grid2.coords t) ((dat2 (F := Ideal) V c).after 4 t) = _
  rw [after2_4]
  funext j
  have hj0 : (j 0).val < 256 := (j 0).isLt
  have hj1 : (j 1).val < 1 := (j 1).isLt
  have hxj : (ix2 (⟨(j 0).val, hj0⟩ : Fin 256) (0 : Fin 1) : S256x1.Idx) = (cfg2.win 4).xinj (grid2.coords t) j :=
    funext fun a => Fin.ext (by
      match a with
      | ⟨0, _⟩ => rfl
      | ⟨1, _⟩ => show 0 = (j 1).val; omega)
  obtain ⟨-, -, -, -, -, -, -, -, f0, f1⟩ := idx_facts t
  have hemb : (ix2 (rowOf t ⟨(j 0).val, hj0⟩) (0 : Fin 1) : S4096x1.Idx) = ((cfg2.win 4).blk t).view.emb j :=
    funext fun a => Fin.ext (by
      match a with
      | ⟨0, _⟩ => show t.val * 256 + (j 0).val = win2_4.index t (0 : Fin 2) * 256 + 1 * (j 0).val; rw [f0]; omega
      | ⟨1, _⟩ => show 0 = win2_4.index t (1 : Fin 2) * 1 + 1 * (j 1).val; rw [f1]; omega)
  have key : out2 (F := Ideal) (stAt2 (F := Ideal) V c t.val t.isLt) (ix2 (⟨(j 0).val, hj0⟩ : Fin 256) (0 : Fin 1))
      = G X HW HB T (ix2 (rowOf t ⟨(j 0).val, hj0⟩) (0 : Fin 1)) := by
    rw [stAt2_eq]
    exact point_row X HW HB _ _ _ _ _ _ ⟨(j 0).val, hj0⟩ (rowOf t ⟨(j 0).val, hj0⟩) T
      (fun e => (xb2_apply V c t _ e).trans (hX _ e))
      (fun e k => (wb2_apply V c t e k).trans (hW e k))
      (fun k => (bb2_apply V c t k).trans (hB k))
      ((tb2_apply V c t _).trans (hT _)) hXr hWr hBr (hTr _)
  show out2 (F := Ideal) (stAt2 (F := Ideal) V c t.val t.isLt) ((cfg2.win 4).xinj (grid2.coords t) j)
    = G X HW HB T (((cfg2.win 4).blk t).view.emb j)
  exact (congrArg (out2 (F := Ideal) (stAt2 (F := Ideal) V c t.val t.isLt)) hxj).symm.trans
    (key.trans (congrArg (G X HW HB T) hemb))

theorem mem_blk (t : Fin cfg2.N) (i : S4096x1.Idx) :
    i ∈ ((cfg2.win 4).blk t).view.set ↔ ∀ a : Fin 2, win2_4.index t a * S256x1.size a ≤ (i a).val
      ∧ (i a).val < win2_4.index t a * S256x1.size a + S256x1.size a := by
  show i ∈ ((View.whole main_v14).slice (win2_4.rect t)).set ↔ _
  rw [View.set_slice_whole, Rect.mem_set_unit]
  exact Iff.rfl

theorem cover (i : S4096x1.Idx) : ∃ t : Fin cfg2.N, (cfg2.win 4).flush t = true ∧ i ∈ ((cfg2.win 4).blk t).view.set := by
  have hi0 : (i 0).val < 4096 := (i 0).isLt
  have hi1 : (i 1).val < 1 := (i 1).isLt
  have hN := N16
  let t : Fin cfg2.N := ⟨(i 0).val / 256, by omega⟩
  obtain ⟨-, -, -, -, -, -, -, -, f0, f1⟩ := idx_facts t
  have ht : t.val = (i 0).val / 256 := rfl
  refine ⟨t, flush2_4 t, ?_⟩
  rw [mem_blk]
  intro a
  match a with
  | ⟨0, _⟩ =>
    show win2_4.index t (0 : Fin 2) * 256 ≤ (i 0).val ∧ (i 0).val < win2_4.index t (0 : Fin 2) * 256 + 256
    rw [f0, ht]; omega
  | ⟨1, _⟩ =>
    show win2_4.index t (1 : Fin 2) * 1 ≤ (i 1).val ∧ (i 1).val < win2_4.index t (1 : Fin 2) * 1 + 1
    rw [f1]; omega

include hX hW hB hT hXr hWr hBr hTr in

/-- After the head's grid the result array holds, row by row, minus the log-softmax of the row's logits at its target column. -/
theorem region2_value : ∀ p : Fin 4096, (dat2 (F := Ideal) V c).arrAt 4 cfg2.N (ix2 p (0 : Fin 1))
    = -(Cert.RowDefs.logSoftmax (fun k : Fin 4002 => Cert.RowDefs.lgBias X HW HB p k)
        (Cert.RowDefs.clipCol 4002 (by decide) (ftInt (T (ix1 p)).toInt))) := by
  intro p
  have h := (dat2 (F := Ideal) V c).arrAt_eq_of_cover 4 (G X HW HB T)
    (fun t _ => flushed_eq V c X HW HB T hX hW hB hT hXr hWr hBr hTr t) (cover)
  exact congrFun h (ix2 p (0 : Fin 1))

end Array

end Cert.KernelIdeal.Row2

end
-- ==== Proof.Ref.Value.lean ====
import proofs.«422338_j11269994185272_3_alg».proof.Proof.Ref.Run
import proofs.«422338_j11269994185272_3_alg».proof.Proof.Ref.Read
import proofs.«422338_j11269994185272_3_alg».proof.Proof.RowDefs

noncomputable section

namespace Cert.ReferenceIdeal.RefValue

open Idealize.ShloMosaic Idealize.ShloMosaic.ValueIdx Cert.ReferenceIdeal Cert.RowDefs
open scoped BigOperators

section Arrays

variable (X : (⟨S4096x1024, .f32⟩ : BufTy).Contents (Elt Ideal)) (T : (⟨S4096, .i32⟩ : BufTy).Contents (Elt Ideal))
  (HW : (⟨S1024x4002, .f32⟩ : BufTy).Contents (Elt Ideal)) (HB : (⟨S4002, .f32⟩ : BufTy).Contents (Elt Ideal))
  (W01 : (⟨S1024x1024, .f32⟩ : BufTy).Contents (Elt Ideal)) (W02 : (⟨S1024x16000, .f32⟩ : BufTy).Contents (Elt Ideal))
  (W11 : (⟨S1024x256, .f32⟩ : BufTy).Contents (Elt Ideal)) (W12 : (⟨S256x30000, .f32⟩ : BufTy).Contents (Elt Ideal))

def tgt (p : Fin 4096) : Int := (T (ix1 p)).toInt

def lg0 (p : Fin 4096) (k : Fin 16000) : EReal := lg2 X W01 W02 p k

def M0 (p : Fin 4096) : EReal := rowMax (lg0 X W01 W02 p)

def S0 (p : Fin 4096) : EReal := rowSum (lg0 X W01 W02 p)

def nll0 (p : Fin 4096) : EReal := tailNll (C := 16000) (by decide) 4000 20000 (tgt T p) (lg0 X W01 W02 p)

def lg1 (p : Fin 4096) (k : Fin 30000) : EReal := lg2 X W11 W12 p k

def M1 (p : Fin 4096) : EReal := rowMax (lg1 X W11 W12 p)

def S1 (p : Fin 4096) : EReal := rowSum (lg1 X W11 W12 p)

def nll1 (p : Fin 4096) : EReal := tailNll (C := 30000) (by decide) 20000 50000 (tgt T p) (lg1 X W11 W12 p)

def lgH (p : Fin 4096) (k : Fin 4002) : EReal := lgBias X HW HB p k

def MH (p : Fin 4096) : EReal := rowMax (lgH X HW HB p)

def SH (p : Fin 4096) : EReal := rowSum (lgH X HW HB p)

def ft (p : Fin 4096) : Int :=
  if 20000 ≤ tgt T p ∧ tgt T p < 50000 then 4001 else if 4000 ≤ tgt T p ∧ tgt T p < 20000 then 4000 else tgt T p

def nll2 (p : Fin 4096) : EReal := -(logSoftmax (lgH X HW HB p) (clipCol 4002 (by decide) (ft T p)))

def loss : EReal :=
  Ideal.div (((0 + (0 + ∑ p : Fin 4096, nll0 X T W01 W02 p)) + (0 + ∑ p : Fin 4096, nll1 X T W11 W12 p))
    + (0 + ∑ p : Fin 4096, nll2 X T HW HB p)) 4096

end Arrays

open Cert.ReferenceIdeal.Gen Idealize.ShloMosaic.TcCoe Idealize.SL.Sem Idealize.ShloMosaic.StableHlo Cert.ReferenceIdeal.Read

theorem toInt_maxsi (a b : BitVec 32) : (IntOp.maxsi a b).toInt = max a.toInt b.toInt := by
  unfold IntOp.maxsi
  by_cases hs : b.slt a
  · rw [if_pos hs]; rw [BitVec.slt_iff_toInt_lt] at hs; omega
  · rw [if_neg hs]; rw [BitVec.slt_iff_toInt_lt] at hs; omega

theorem toInt_minsi (a b : BitVec 32) : (IntOp.minsi a b).toInt = min a.toInt b.toInt := by
  unfold IntOp.minsi
  by_cases hs : a.slt b
  · rw [if_pos hs]; rw [BitVec.slt_iff_toInt_lt] at hs; omega
  · rw [if_neg hs]; rw [BitVec.slt_iff_toInt_lt] at hs; omega

theorem toInt_subi (a b : BitVec 32) (h₁ : -2 ^ 31 ≤ a.toInt - b.toInt) (h₂ : a.toInt - b.toInt < 2 ^ 31) :
    (IntOp.subi a b).toInt = a.toInt - b.toInt := by
  unfold IntOp.subi
  rw [BitVec.toInt_sub]
  exact Int.bmod_eq_of_le (by omega) (by omega)

theorem select_of_iff {α : Type} {c : BitVec 1} (P : Prop) [Decidable P] (h : c = 1#1 ↔ P) (a b : α) :
    Scalar.select c a b = if P then a else b := by
  unfold Scalar.select
  by_cases hp : P
  · rw [if_pos hp]; exact if_pos (h.2 hp)
  · rw [if_neg hp]; exact if_neg (fun hc => hp (h.1 hc))

theorem range_bit (t lo hi : BitVec 32) (a b : Int) (ha : lo.toInt = a) (hb : hi.toInt = b) :
    IntOp.andi (IntOp.cmpi .sge t lo) (IntOp.cmpi .slt t hi) = 1#1 ↔ a ≤ t.toInt ∧ t.toInt < b := by
  rw [IntOp.andi_eq_one, IntOp.cmpi_sge, IntOp.cmpi_slt, ha, hb]

theorem inb_bit (v hi : BitVec 32) (b : Int) (hb : hi.toInt = b) (h0 : 0 ≤ v.toInt) (h1 : v.toInt ≤ b) :
    IntOp.andi (IntOp.cmpi .sge v 0#32) (IntOp.cmpi .sle v hi) = 1#1 := by
  rw [IntOp.andi_eq_one, IntOp.cmpi_sge, IntOp.cmpi_sle, hb]
  exact ⟨h0, h1⟩

theorem toInt_clip (t lo hi : BitVec 32) (a b : Int) (ha : lo.toInt = a) (hb : hi.toInt = b)
    (h₁ : -2 ^ 31 ≤ t.toInt - a) (h₂ : t.toInt - a < 2 ^ 31) :
    (IntOp.minsi hi (IntOp.maxsi 0#32 (IntOp.subi t lo))).toInt = min b (max 0 (t.toInt - a)) := by
  rw [toInt_minsi, toInt_maxsi, toInt_subi t lo (by rw [ha]; exact h₁) (by rw [ha]; exact h₂), ha, hb]
  rfl

theorem take_word (v n : BitVec 32) (h0 : 0 ≤ v.toInt) :
    Scalar.select (IntOp.cmpi .slt v 0#32) (IntOp.addi v n) v = v := by
  unfold Scalar.select
  refine if_neg fun hc => ?_
  have h := (IntOp.cmpi_slt (x := v) (y := 0#32)).1 hc
  have hz : (0#32 : BitVec 32).toInt = 0 := by decide
  omega

theorem ofBits_4096 : Ideal.ofBits .f32 0x45800000#32 = 4096 := by
  rw [show (4096 : EReal) = ((4096 : ℝ) : EReal) by norm_cast]
  simp [Ideal.ofBits, Ideal.ieee, -EReal.coe_mul]; norm_num

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem ofBits_negInf : (Ideal.ofBits .f32 0xFF800000#32 : EReal) = ⊥ := by simp [Ideal.ofBits, Ideal.ieee]

theorem lift_row {R C : Nat} (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

theorem reduce_max_row {R C : Nat} (x : (⟨2, ![R, C]⟩ : Shape).Idx → EReal)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (p : Fin R) :
    Host.reduce (FloatOps.maximumf (F := Ideal) (φ := .f32)) x (constant (F := Ideal) (⟨0, ![]⟩ : Shape) .f32 0xFF800000#32) h' hu (ix1 p)
      = Finset.univ.fold max ⊥ (fun k : Fin C => x (ix2 p k)) := by
  rw [Host.reduce_eq_fold_single (FloatOps.maximumf (F := Ideal) (φ := .f32)) x _ h' h hu]
  have hf : (x ∘ h.lift (ix1 p)) = fun k : Fin C => x (ix2 p k) := funext fun k => congrArg x (lift_row h p k)
  rw [hf]
  show Finset.fold max (Ideal.ofBits .f32 0xFF800000#32) _ _ = _
  rw [ofBits_negInf]
  rfl

theorem lift_unit {R : Nat} (h : (⟨3, ![R, 1, 1]⟩ : Shape).Reduces [2] (⟨2, ![R, 1]⟩ : Shape)) (p : Fin R) (q : Fin 1)
    (k : Fin ((⟨3, ![R, 1, 1]⟩ : Shape).size 2)) : h.lift (ix2 p q) k = ix3 p q (⟨k.val, k.isLt⟩ : Fin 1) := by
  funext c; apply Fin.ext
  fin_cases c <;> rfl

theorem reduce_and_unit {R : Nat} (x : (⟨3, ![R, 1, 1]⟩ : Shape).Idx → BitVec 1)
    (h' : (⟨3, ![R, 1, 1]⟩ : Shape).ReducesTo [2] (⟨2, ![R, 1]⟩ : Shape)) (h : (⟨3, ![R, 1, 1]⟩ : Shape).Reduces [2] (⟨2, ![R, 1]⟩ : Shape))
    (hu : 0 < (⟨0, ![]⟩ : Shape).numel) (p : Fin R) (q : Fin 1) :
    Host.reduce IntOp.andi x (constantI (⟨0, ![]⟩ : Shape) 1 1#1) h' hu (ix2 p q) = x (ix3 p q 0) := by
  rw [Host.reduce_eq_fold_single IntOp.andi x _ h' h hu]
  have hf : (x ∘ h.lift (ix2 p q)) = fun k : Fin 1 => x (ix3 p q k) := funext fun k => congrArg x (lift_unit h p q k)
  rw [hf]
  show Finset.fold IntOp.andi 1#1 (fun k : Fin 1 => x (ix3 p q k)) (Finset.univ : Finset (Fin 1)) = _
  rw [show (Finset.univ : Finset (Fin 1)) = {0} from rfl, Finset.fold_singleton]
  show (x (ix3 p q 0)) &&& 1#1 = _
  generalize x (ix3 p q 0) = b
  revert b; decide

abbrev rowTakeDims (R N : Nat) (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

theorem gather_row_apply {α : Type} {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (p : Fin R) (q : Fin 1) :
    Host.gather (rowTakeDims R N wf) x idx (ix2 p q)
      = x (ix2 p (⟨min (idx (ix3 p q 0)).toInt.toNat (N - 1), by omega⟩ : Fin N)) := by
  unfold Host.gather
  congr 1
  funext a
  refine Fin.ext ?_
  show (rowTakeDims R N wf).start (ix2 p q) idx a + (rowTakeDims R N wf).batchCoord (ix2 p q) a + (rowTakeDims R N wf).offCoord (ix2 p q) a = _
  have ha : a = (0 : Fin 2) ∨ a = (1 : Fin 2) := by
    rcases a with ⟨v, hv⟩
    change v < 2 at hv
    interval_cases v
    · exact Or.inl rfl
    · exact Or.inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ (rowTakeDims R N wf).operandBatchingDims from List.mem_singleton.mpr rfl),
      Nat.zero_add, Nat.add_zero]
    rfl
  · rw [GatherDims.batchCoord_eq_zero _ _ _ (show (1 : Fin 2) ∉ (rowTakeDims R N wf).operandBatchingDims from
        fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims R N wf).startIndexMap from List.mem_singleton.mpr rfl)]
    have hsi : (rowTakeDims R N wf).siIdx (ix2 p q) ⟨List.idxOf (1 : Fin 2) (rowTakeDims R N wf).startIndexMap,
        List.idxOf_lt_length_iff.2 (List.mem_singleton.mpr rfl)⟩ = ix3 p q 0 := by
      funext b; refine Fin.ext ?_
      match b with
      | ⟨0, _⟩ => rfl
      | ⟨1, _⟩ => rfl
      | ⟨2, _⟩ => rfl
    rw [hsi]
    rfl

theorem gather_row_eq {α : Type} {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (p : Fin R) (q : Fin 1)
    (v : BitVec w) (hv : idx (ix3 p q 0) = v) (c : Fin N) (hc : c.val = min v.toInt.toNat (N - 1)) :
    Host.gather (rowTakeDims R N wf) x idx (ix2 p q) = x (ix2 p c) := by
  rw [gather_row_apply hN wf x idx p q]
  congr 2
  apply Fin.ext
  show min (idx (ix3 p q 0)).toInt.toNat (N - 1) = c.val
  rw [hv, hc]

section Tail0

variable (X : (⟨S4096x1024, .f32⟩ : BufTy).Contents (Elt Ideal)) (T : (⟨S4096, .i32⟩ : BufTy).Contents (Elt Ideal))
  (W01 : (⟨S1024x1024, .f32⟩ : BufTy).Contents (Elt Ideal)) (W02 : (⟨S1024x16000, .f32⟩ : BufTy).Contents (Elt Ideal))

theorem v7_eq (p : Fin 4096) (k : Fin 16000) : val_main_v7 (F := Ideal) X W01 W02 (ix2 p k) = lg0 X W01 W02 p k := by
  rw [val_main_v7_apply]
  unfold lg0 lg2
  refine Finset.sum_congr rfl fun d _ => ?_
  have e1 : lidx_main_v7 (ix2 p k) d = ix2 p d := by
    funext a; match a with | ⟨0, _⟩ => rfl | ⟨1, _⟩ => rfl
  have e2 : ridx_main_v7 (ix2 p k) d = ix2 d k := by
    funext a; match a with | ⟨0, _⟩ => rfl | ⟨1, _⟩ => rfl
  rw [e1, e2, val_main_v6_apply]
  refine congrArg (· * W02 (ix2 d k)) (Finset.sum_congr rfl fun e _ => ?_)
  have e3 : lidx_main_v6 (ix2 p d) e = ix2 p e := by
    funext a; match a with | ⟨0, _⟩ => rfl | ⟨1, _⟩ => rfl
  have e4 : ridx_main_v6 (ix2 p d) e = ix2 e d := by
    funext a; match a with | ⟨0, _⟩ => rfl | ⟨1, _⟩ => rfl
  rw [e3, e4]

theorem call1_v2_eq (p : Fin 4096) : val_main_call1_v2 (F := Ideal) X W01 W02 (ix1 p) = M0 X W01 W02 p := by
  rw [val_main_call1_v2_apply, val_main_call1_v1_apply, val_main_call1_cst_0_apply]
  unfold val_main_call1_v0 val_main_call1_cst
  rw [reduce_max_row _ _ (by decide) _ p]
  unfold M0 rowMax
  show max (Ideal.ofBits .f32 0xFF800000#32) _ = _
  rw [ofBits_negInf]
  exact congrArg (fun f => max ⊥ (Finset.univ.fold max ⊥ f)) (funext fun k => v7_eq X W01 W02 p k)

theorem call1_v5_eq (p : Fin 4096) (k : Fin 16000) :
    val_main_call1_v5 (F := Ideal) X W01 W02 (ix2 p k) = lg0 X W01 W02 p k - M0 X W01 W02 p := by
  rw [val_main_call1_v5_apply, v7_eq, val_main_call1_v4_apply, val_main_call1_v3_apply]
  have e : idx_main_call1_v3 (idx_main_call1_v4 (ix2 p k)) = ix1 p := by
    funext a; match a with | ⟨0, _⟩ => rfl
  rw [e, call1_v2_eq, Ideal.subf_def]

theorem call1_v7_eq (p : Fin 4096) : val_main_call1_v7 (F := Ideal) X W01 W02 (ix1 p) = S0 X W01 W02 p := by
  rw [val_main_call1_v7_apply, val_main_call1_cst_1_apply]
  unfold S0 rowSum
  show Ideal.ofBits .f32 0x00000000#32 + _ = _
  rw [Ideal.ofBits_zero_f32]
  refine congrArg (0 + ·) (Finset.sum_congr rfl fun k _ => ?_)
  have e : idx_main_call1_v7 (ix1 p) k = ix2 p k := by
    funext a; match a with | ⟨0, _⟩ => rfl | ⟨1, _⟩ => rfl
  rw [e, val_main_call1_v6_apply, call1_v5_eq]
  unfold M0
  rw [Ideal.hostUnary_exp_def]

theorem v8_eq (p : Fin 4096) (k : Fin 16000) :
    val_main_v8 (F := Ideal) X W01 W02 (ix2 p k) = logSoftmax (lg0 X W01 W02 p) k := by
  rw [val_main_v8_apply, call1_v5_eq, val_main_call1_v10_apply, val_main_call1_v9_apply, val_main_call1_v8_apply]
  have e : idx_main_call1_v8 (idx_main_call1_v10 (ix2 p k)) = ix1 p := by
    funext a; match a with | ⟨0, _⟩ => rfl
  rw [e, call1_v7_eq]
  unfold logSoftmax M0 S0
  rw [Ideal.subf_def, Ideal.hostUnary_log_def]

theorem v11_eq (p : Fin 4096) : val_main_v11 (F := Ideal) T (ix1 p)
    = IntOp.minsi 15999#32 (IntOp.maxsi 0#32 (IntOp.subi (T (ix1 p)) 4000#32)) := by
  simp only [val_main_v11_apply, val_main_call2_v4_apply, val_main_call2_v3_apply, val_main_c_4_apply,
    val_main_call2_v2_apply, val_main_call2_v1_apply, val_main_call2_v0_apply, val_main_c_3_apply,
    val_main_v10_apply, val_main_v9_apply, val_main_c_2_apply]

theorem v11_toInt (p : Fin 4096) (hT : 0 ≤ tgt T p ∧ tgt T p < 50000) :
    (val_main_v11 (F := Ideal) T (ix1 p)).toInt = min 15999 (max 0 (tgt T p - 4000)) := by
  rw [v11_eq]
  unfold tgt at hT ⊢
  exact toInt_clip (T (ix1 p)) 4000#32 15999#32 4000 15999 (by decide) (by decide) (by omega) (by omega)

theorem call3_v5_eq (p : Fin 4096) (h0 : 0 ≤ (val_main_v11 (F := Ideal) T (ix1 p)).toInt) :
    val_main_call3_v5 (F := Ideal) T (ix3 p 0 0) = val_main_v11 (F := Ideal) T (ix1 p) := by
  rw [val_main_call3_v5_apply]
  have e : idx_main_call3_v5 (ix3 p (0 : Fin 1) (0 : Fin 1)) = ix2 p (0 : Fin 1) := by
    funext a; apply Fin.ext
    match a with
    | ⟨0, _⟩ => show ((p.val * 1 + (0 : Fin 1).val) * 1 + (0 : Fin 1).val) / 1 = p.val; simp
    | ⟨1, _⟩ => rfl
  rw [e, val_main_call3_v4_apply, val_main_call3_v1_apply, val_main_call3_v3_apply, val_main_call3_v0_apply,
    val_main_call3_c_apply, val_main_v12_apply]
  have e2 : idx_main_v12 (ix2 p (0 : Fin 1)) = ix1 p := by
    funext a; match a with | ⟨0, _⟩ => rfl
  rw [e2]
  exact take_word _ _ h0

theorem call3_v12_eq (p : Fin 4096) (h0 : 0 ≤ (val_main_v11 (F := Ideal) T (ix1 p)).toInt)
    (h1 : (val_main_v11 (F := Ideal) T (ix1 p)).toInt ≤ 15999) :
    val_main_call3_v12 (F := Ideal) T (ix2 p 0) = 1#1 := by
  unfold val_main_call3_v12 val_main_call3_c_3
  rw [reduce_and_unit _ _ (by decide) _ p 0, val_main_call3_v11_apply, val_main_call3_v7_apply, val_main_call3_v10_apply,
    val_main_call3_v6_apply, val_main_call3_c_2_apply, val_main_call3_v9_apply, val_main_call3_v8_apply,
    val_main_call3_c_1_apply, call3_v5_eq T p h0]
  exact inb_bit _ _ 15999 (by decide) h0 h1

theorem call3_v13_eq (p : Fin 4096) (h0 : 0 ≤ (val_main_v11 (F := Ideal) T (ix1 p)).toInt)
    (h1 : (val_main_v11 (F := Ideal) T (ix1 p)).toInt ≤ 15999) :
    val_main_call3_v13 (F := Ideal) X T W01 W02 (ix2 p 0)
      = logSoftmax (lg0 X W01 W02 p) (⟨(val_main_v11 (F := Ideal) T (ix1 p)).toInt.toNat, by omega⟩ : Fin 16000) := by
  unfold val_main_call3_v13
  refine (gather_row_eq (by decide) gather_S4096x16000_S4096x1x1_S4096x1_n_1_0_0_1_2_11_wf
    (val_main_v8 (F := Ideal) X W01 W02) (val_main_call3_v5 (F := Ideal) T) p 0 _ (call3_v5_eq T p h0)
    (⟨(val_main_v11 (F := Ideal) T (ix1 p)).toInt.toNat, by omega⟩ : Fin 16000)
    (by show (val_main_v11 (F := Ideal) T (ix1 p)).toInt.toNat = min _ (16000 - 1); omega)).trans ?_
  rw [v8_eq]

theorem v14_eq (p : Fin 4096) (hT : 0 ≤ tgt T p ∧ tgt T p < 50000) :
    val_main_v14 (F := Ideal) X T W01 W02 (ix1 p)
      = logSoftmax (lg0 X W01 W02 p) (clipCol 16000 (by decide) (tgt T p - 4000)) := by
  have hv := v11_toInt T p hT
  have h0 : 0 ≤ (val_main_v11 (F := Ideal) T (ix1 p)).toInt := by omega
  have h1 : (val_main_v11 (F := Ideal) T (ix1 p)).toInt ≤ 15999 := by omega
  rw [val_main_v14_apply]
  have e : idx_main_v14 (ix1 p) = ix2 p (0 : Fin 1) := by
    funext a; apply Fin.ext
    match a with
    | ⟨0, _⟩ => show p.val / 1 = p.val; simp
    | ⟨1, _⟩ => rfl
  rw [e, val_main_v13_apply, call3_v12_eq T p h0 h1, select_one, call3_v13_eq X T W01 W02 p h0 h1]
  congr 1
  apply Fin.ext
  show (val_main_v11 (F := Ideal) T (ix1 p)).toInt.toNat = (min (((16000 : Nat) : Int) - 1) (max 0 (tgt T p - 4000))).toNat
  omega

theorem v16_eq (p : Fin 4096) (hT : 0 ≤ tgt T p ∧ tgt T p < 50000) :
    val_main_v16 (F := Ideal) X T W01 W02 (ix1 p) = nll0 X T W01 W02 p := by
  rw [val_main_v16_apply, val_main_v4_apply, val_main_v1_apply, val_main_v3_apply, val_main_v0_apply, val_main_c_apply,
    val_main_v2_apply, val_main_c_0_apply,
    select_of_iff (4000 ≤ tgt T p ∧ tgt T p < 20000) (range_bit (T (ix1 p)) 4000#32 20000#32 4000 20000 (by decide) (by decide)),
    val_main_v15_apply, v14_eq X T W01 W02 p hT, val_main_call4_v1_apply, val_main_call4_v0_apply, val_main_cst_apply]
  unfold nll0 tailNll
  show (if _ then _ else Ideal.ofBits .f32 0x00000000#32) = _
  rw [Ideal.ofBits_zero_f32]
  rfl

theorem v17_eq (hT : ∀ p : Fin 4096, 0 ≤ tgt T p ∧ tgt T p < 50000) (i : S_.Idx) :
    val_main_v17 (F := Ideal) X T W01 W02 i = 0 + ∑ p : Fin 4096, nll0 X T W01 W02 p := by
  rw [val_main_v17_apply, val_main_cst_5_apply, sum_idx1]
  show Ideal.ofBits .f32 0x00000000#32 + _ = _
  rw [Ideal.ofBits_zero_f32]
  exact congrArg (0 + ·) (Finset.sum_congr rfl fun p _ => v16_eq X T W01 W02 p (hT p))

end Tail0

section Tail1

variable (X : (⟨S4096x1024, .f32⟩ : BufTy).Contents (Elt Ideal)) (T : (⟨S4096, .i32⟩ : BufTy).Contents (Elt Ideal))
  (W11 : (⟨S1024x256, .f32⟩ : BufTy).Contents (Elt Ideal)) (W12 : (⟨S256x30000, .f32⟩ : BufTy).Contents (Elt Ideal))

theorem v26_eq (p : Fin 4096) (k : Fin 30000) : val_main_v26 (F := Ideal) X W11 W12 (ix2 p k) = lg1 X W11 W12 p k := by
  rw [val_main_v26_apply]
  unfold lg1 lg2
  refine Finset.sum_congr rfl fun d _ => ?_
  have e1 : lidx_main_v26 (ix2 p k) d = ix2 p d := by
    funext a; match a with | ⟨0, _⟩ => rfl | ⟨1, _⟩ => rfl
  have e2 : ridx_main_v26 (ix2 p k) d = ix2 d k := by
    funext a; match a with | ⟨0, _⟩ => rfl | ⟨1, _⟩ => rfl
  rw [e1, e2, val_main_v25_apply]
  refine congrArg (· * W12 (ix2 d k)) (Finset.sum_congr rfl fun e _ => ?_)
  have e3 : lidx_main_v25 (ix2 p d) e = ix2 p e := by
    funext a; match a with | ⟨0, _⟩ => rfl | ⟨1, _⟩ => rfl
  have e4 : ridx_main_v25 (ix2 p d) e = ix2 e d := by
    funext a; match a with | ⟨0, _⟩ => rfl | ⟨1, _⟩ => rfl
  rw [e3, e4]

theorem call6_v2_eq (p : Fin 4096) : val_main_call6_v2 (F := Ideal) X W11 W12 (ix1 p) = M1 X W11 W12 p := by
  rw [val_main_call6_v2_apply, val_main_call6_v1_apply, val_main_call6_cst_0_apply]
  unfold val_main_call6_v0 val_main_call6_cst
  rw [reduce_max_row _ _ (by decide) _ p]
  unfold M1 rowMax
  show max (Ideal.ofBits .f32 0xFF800000#32) _ = _
  rw [ofBits_negInf]
  exact congrArg (fun f => max ⊥ (Finset.univ.fold max ⊥ f)) (funext fun k => v26_eq X W11 W12 p k)

theorem call6_v5_eq (p : Fin 4096) (k : Fin 30000) :
    val_main_call6_v5 (F := Ideal) X W11 W12 (ix2 p k) = lg1 X W11 W12 p k - M1 X W11 W12 p := by
  rw [val_main_call6_v5_apply, v26_eq, val_main_call6_v4_apply, val_main_call6_v3_apply]
  have e : idx_main_call6_v3 (idx_main_call6_v4 (ix2 p k)) = ix1 p := by
    funext a; match a with | ⟨0, _⟩ => rfl
  rw [e, call6_v2_eq, Ideal.subf_def]

theorem call6_v7_eq (p : Fin 4096) : val_main_call6_v7 (F := Ideal) X W11 W12 (ix1 p) = S1 X W11 W12 p := by
  rw [val_main_call6_v7_apply, val_main_call6_cst_1_apply]
  unfold S1 rowSum
  show Ideal.ofBits .f32 0x00000000#32 + _ = _
  rw [Ideal.ofBits_zero_f32]
  refine congrArg (0 + ·) (Finset.sum_congr rfl fun k _ => ?_)
  have e : idx_main_call6_v7 (ix1 p) k = ix2 p k := by
    funext a; match a with | ⟨0, _⟩ => rfl | ⟨1, _⟩ => rfl
  rw [e, val_main_call6_v6_apply, call6_v5_eq]
  unfold M1
  rw [Ideal.hostUnary_exp_def]

theorem v27_eq (p : Fin 4096) (k : Fin 30000) :
    val_main_v27 (F := Ideal) X W11 W12 (ix2 p k) = logSoftmax (lg1 X W11 W12 p) k := by
  rw [val_main_v27_apply, call6_v5_eq, val_main_call6_v10_apply, val_main_call6_v9_apply, val_main_call6_v8_apply]
  have e : idx_main_call6_v8 (idx_main_call6_v10 (ix2 p k)) = ix1 p := by
    funext a; match a with | ⟨0, _⟩ => rfl
  rw [e, call6_v7_eq]
  unfold logSoftmax M1 S1
  rw [Ideal.subf_def, Ideal.hostUnary_log_def]

theorem v30_eq (p : Fin 4096) : val_main_v30 (F := Ideal) T (ix1 p)
    = IntOp.minsi 29999#32 (IntOp.maxsi 0#32 (IntOp.subi (T (ix1 p)) 20000#32)) := by
  simp only [val_main_v30_apply, val_main_call7_v4_apply, val_main_call7_v3_apply, val_main_c_12_apply,
    val_main_call7_v2_apply, val_main_call7_v1_apply, val_main_call7_v0_apply, val_main_c_11_apply,
    val_main_v29_apply, val_main_v28_apply, val_main_c_10_apply]

theorem v30_toInt (p : Fin 4096) (hT : 0 ≤ tgt T p ∧ tgt T p < 50000) :
    (val_main_v30 (F := Ideal) T (ix1 p)).toInt = min 29999 (max 0 (tgt T p - 20000)) := by
  rw [v30_eq]
  unfold tgt at hT ⊢
  exact toInt_clip (T (ix1 p)) 20000#32 29999#32 20000 29999 (by decide) (by decide) (by omega) (by omega)

theorem call8_v5_eq (p : Fin 4096) (h0 : 0 ≤ (val_main_v30 (F := Ideal) T (ix1 p)).toInt) :
    val_main_call8_v5 (F := Ideal) T (ix3 p 0 0) = val_main_v30 (F := Ideal) T (ix1 p) := by
  rw [val_main_call8_v5_apply]
  have e : idx_main_call8_v5 (ix3 p (0 : Fin 1) (0 : Fin 1)) = ix2 p (0 : Fin 1) := by
    funext a; apply Fin.ext
    match a with
    | ⟨0, _⟩ => show ((p.val * 1 + (0 : Fin 1).val) * 1 + (0 : Fin 1).val) / 1 = p.val; simp
    | ⟨1, _⟩ => rfl
  rw [e, val_main_call8_v4_apply, val_main_call8_v1_apply, val_main_call8_v3_apply, val_main_call8_v0_apply,
    val_main_call8_c_apply, val_main_v31_apply]
  have e2 : idx_main_v31 (ix2 p (0 : Fin 1)) = ix1 p := by
    funext a; match a with | ⟨0, _⟩ => rfl
  rw [e2]
  exact take_word _ _ h0

theorem call8_v12_eq (p : Fin 4096) (h0 : 0 ≤ (val_main_v30 (F := Ideal) T (ix1 p)).toInt)
    (h1 : (val_main_v30 (F := Ideal) T (ix1 p)).toInt ≤ 29999) :
    val_main_call8_v12 (F := Ideal) T (ix2 p 0) = 1#1 := by
  unfold val_main_call8_v12 val_main_call8_c_3
  rw [reduce_and_unit _ _ (by decide) _ p 0, val_main_call8_v11_apply, val_main_call8_v7_apply, val_main_call8_v10_apply,
    val_main_call8_v6_apply, val_main_call8_c_2_apply, val_main_call8_v9_apply, val_main_call8_v8_apply,
    val_main_call8_c_1_apply, call8_v5_eq T p h0]
  exact inb_bit _ _ 29999 (by decide) h0 h1

theorem call8_v13_eq (p : Fin 4096) (h0 : 0 ≤ (val_main_v30 (F := Ideal) T (ix1 p)).toInt)
    (h1 : (val_main_v30 (F := Ideal) T (ix1 p)).toInt ≤ 29999) :
    val_main_call8_v13 (F := Ideal) X T W11 W12 (ix2 p 0)
      = logSoftmax (lg1 X W11 W12 p) (⟨(val_main_v30 (F := Ideal) T (ix1 p)).toInt.toNat, by omega⟩ : Fin 30000) := by
  unfold val_main_call8_v13
  refine (gather_row_eq (by decide) gather_S4096x30000_S4096x1x1_S4096x1_n_1_0_0_1_2_11_wf
    (val_main_v27 (F := Ideal) X W11 W12) (val_main_call8_v5 (F := Ideal) T) p 0 _ (call8_v5_eq T p h0)
    (⟨(val_main_v30 (F := Ideal) T (ix1 p)).toInt.toNat, by omega⟩ : Fin 30000)
    (by show (val_main_v30 (F := Ideal) T (ix1 p)).toInt.toNat = min _ (30000 - 1); omega)).trans ?_
  rw [v27_eq]

theorem v33_eq (p : Fin 4096) (hT : 0 ≤ tgt T p ∧ tgt T p < 50000) :
    val_main_v33 (F := Ideal) X T W11 W12 (ix1 p)
      = logSoftmax (lg1 X W11 W12 p) (clipCol 30000 (by decide) (tgt T p - 20000)) := by
  have hv := v30_toInt T p hT
  have h0 : 0 ≤ (val_main_v30 (F := Ideal) T (ix1 p)).toInt := by omega
  have h1 : (val_main_v30 (F := Ideal) T (ix1 p)).toInt ≤ 29999 := by omega
  rw [val_main_v33_apply]
  have e : idx_main_v33 (ix1 p) = ix2 p (0 : Fin 1) := by
    funext a; apply Fin.ext
    match a with
    | ⟨0, _⟩ => show p.val / 1 = p.val; simp
    | ⟨1, _⟩ => rfl
  rw [e, val_main_v32_apply, call8_v12_eq T p h0 h1, select_one, call8_v13_eq X T W11 W12 p h0 h1]
  congr 1
  apply Fin.ext
  show (val_main_v30 (F := Ideal) T (ix1 p)).toInt.toNat = (min (((30000 : Nat) : Int) - 1) (max 0 (tgt T p - 20000))).toNat
  omega

theorem v35_eq (p : Fin 4096) (hT : 0 ≤ tgt T p ∧ tgt T p < 50000) :
    val_main_v35 (F := Ideal) X T W11 W12 (ix1 p) = nll1 X T W11 W12 p := by
  rw [val_main_v35_apply, val_main_v23_apply, val_main_v20_apply, val_main_v22_apply, val_main_v19_apply, val_main_c_7_apply,
    val_main_v21_apply, val_main_c_8_apply,
    select_of_iff (20000 ≤ tgt T p ∧ tgt T p < 50000) (range_bit (T (ix1 p)) 20000#32 50000#32 20000 50000 (by decide) (by decide)),
    val_main_v34_apply, v33_eq X T W11 W12 p hT, val_main_call9_v1_apply, val_main_call9_v0_apply, val_main_cst_13_apply]
  unfold nll1 tailNll
  show (if _ then _ else Ideal.ofBits .f32 0x00000000#32) = _
  rw [Ideal.ofBits_zero_f32]
  rfl

theorem v36_eq (hT : ∀ p : Fin 4096, 0 ≤ tgt T p ∧ tgt T p < 50000) (i : S_.Idx) :
    val_main_v36 (F := Ideal) X T W11 W12 i = 0 + ∑ p : Fin 4096, nll1 X T W11 W12 p := by
  rw [val_main_v36_apply, val_main_cst_14_apply, sum_idx1]
  show Ideal.ofBits .f32 0x00000000#32 + _ = _
  rw [Ideal.ofBits_zero_f32]
  exact congrArg (0 + ·) (Finset.sum_congr rfl fun p _ => v35_eq X T W11 W12 p (hT p))

end Tail1

section Head

variable (X : (⟨S4096x1024, .f32⟩ : BufTy).Contents (Elt Ideal)) (T : (⟨S4096, .i32⟩ : BufTy).Contents (Elt Ideal))
  (HW : (⟨S1024x4002, .f32⟩ : BufTy).Contents (Elt Ideal)) (HB : (⟨S4002, .f32⟩ : BufTy).Contents (Elt Ideal))

theorem v41_eq (p : Fin 4096) (k : Fin 4002) : val_main_v41 (F := Ideal) X HW HB (ix2 p k) = lgH X HW HB p k := by
  rw [val_main_v41_apply, val_main_v38_apply, val_main_v40_apply, val_main_v39_apply]
  unfold lgH lgBias
  have e0 : idx_main_v39 (idx_main_v40 (ix2 p k)) = ix1 k := by
    funext a; match a with | ⟨0, _⟩ => rfl
  rw [e0]
  show (∑ e : Fin 1024, _) + HB (ix1 k) = _
  refine congrArg (· + HB (ix1 k)) (Finset.sum_congr rfl fun e _ => ?_)
  have e1 : lidx_main_v38 (ix2 p k) e = ix2 p e := by
    funext a; match a with | ⟨0, _⟩ => rfl | ⟨1, _⟩ => rfl
  have e2 : ridx_main_v38 (ix2 p k) e = ix2 e k := by
    funext a; match a with | ⟨0, _⟩ => rfl | ⟨1, _⟩ => rfl
  rw [e1, e2]

theorem call10_v2_eq (p : Fin 4096) : val_main_call10_v2 (F := Ideal) X HW HB (ix1 p) = MH X HW HB p := by
  rw [val_main_call10_v2_apply, val_main_call10_v1_apply, val_main_call10_cst_0_apply]
  unfold val_main_call10_v0 val_main_call10_cst
  rw [reduce_max_row _ _ (by decide) _ p]
  unfold MH rowMax
  show max (Ideal.ofBits .f32 0xFF800000#32) _ = _
  rw [ofBits_negInf]
  exact congrArg (fun f => max ⊥ (Finset.univ.fold max ⊥ f)) (funext fun k => v41_eq X HW HB p k)

theorem call10_v5_eq (p : Fin 4096) (k : Fin 4002) :
    val_main_call10_v5 (F := Ideal) X HW HB (ix2 p k) = lgH X HW HB p k - MH X HW HB p := by
  rw [val_main_call10_v5_apply, v41_eq, val_main_call10_v4_apply, val_main_call10_v3_apply]
  have e : idx_main_call10_v3 (idx_main_call10_v4 (ix2 p k)) = ix1 p := by
    funext a; match a with | ⟨0, _⟩ => rfl
  rw [e, call10_v2_eq, Ideal.subf_def]

theorem call10_v7_eq (p : Fin 4096) : val_main_call10_v7 (F := Ideal) X HW HB (ix1 p) = SH X HW HB p := by
  rw [val_main_call10_v7_apply, val_main_call10_cst_1_apply]
  unfold SH rowSum
  show Ideal.ofBits .f32 0x00000000#32 + _ = _
  rw [Ideal.ofBits_zero_f32]
  refine congrArg (0 + ·) (Finset.sum_congr rfl fun k _ => ?_)
  have e : idx_main_call10_v7 (ix1 p) k = ix2 p k := by
    funext a; match a with | ⟨0, _⟩ => rfl | ⟨1, _⟩ => rfl
  rw [e, val_main_call10_v6_apply, call10_v5_eq]
  unfold MH
  rw [Ideal.hostUnary_exp_def]

theorem v42_eq (p : Fin 4096) (k : Fin 4002) :
    val_main_v42 (F := Ideal) X HW HB (ix2 p k) = logSoftmax (lgH X HW HB p) k := by
  rw [val_main_v42_apply, call10_v5_eq, val_main_call10_v10_apply, val_main_call10_v9_apply, val_main_call10_v8_apply]
  have e : idx_main_call10_v8 (idx_main_call10_v10 (ix2 p k)) = ix1 p := by
    funext a; match a with | ⟨0, _⟩ => rfl
  rw [e, call10_v7_eq]
  unfold logSoftmax MH SH
  rw [Ideal.subf_def, Ideal.hostUnary_log_def]

theorem v24_eq (p : Fin 4096) : val_main_v24 (F := Ideal) T (ix1 p)
    = (if 20000 ≤ tgt T p ∧ tgt T p < 50000 then 4001#32
        else if 4000 ≤ tgt T p ∧ tgt T p < 20000 then 4000#32 else T (ix1 p)) := by
  rw [val_main_v24_apply, val_main_v23_apply, val_main_v20_apply, val_main_v22_apply, val_main_v19_apply, val_main_c_7_apply,
    val_main_v21_apply, val_main_c_8_apply, val_main_call5_v1_apply, val_main_call5_v0_apply, val_main_c_9_apply,
    val_main_v5_apply, val_main_v4_apply, val_main_v1_apply, val_main_v3_apply, val_main_v0_apply, val_main_c_apply,
    val_main_v2_apply, val_main_c_0_apply, val_main_call0_v1_apply, val_main_call0_v0_apply, val_main_c_1_apply,
    select_of_iff (20000 ≤ tgt T p ∧ tgt T p < 50000) (range_bit (T (ix1 p)) 20000#32 50000#32 20000 50000 (by decide) (by decide)),
    select_of_iff (4000 ≤ tgt T p ∧ tgt T p < 20000) (range_bit (T (ix1 p)) 4000#32 20000#32 4000 20000 (by decide) (by decide))]

theorem v24_toInt (p : Fin 4096) : (val_main_v24 (F := Ideal) T (ix1 p)).toInt = ft T p := by
  rw [v24_eq]
  unfold ft
  split_ifs
  · decide
  · decide
  · rfl

theorem ft_range (p : Fin 4096) (hT : 0 ≤ tgt T p ∧ tgt T p < 50000) : 0 ≤ ft T p ∧ ft T p ≤ 4001 := by
  unfold ft
  split_ifs <;> omega

theorem call11_v5_eq (p : Fin 4096) (h0 : 0 ≤ (val_main_v24 (F := Ideal) T (ix1 p)).toInt) :
    val_main_call11_v5 (F := Ideal) T (ix3 p 0 0) = val_main_v24 (F := Ideal) T (ix1 p) := by
  rw [val_main_call11_v5_apply]
  have e : idx_main_call11_v5 (ix3 p (0 : Fin 1) (0 : Fin 1)) = ix2 p (0 : Fin 1) := by
    funext a; apply Fin.ext
    match a with
    | ⟨0, _⟩ => show ((p.val * 1 + (0 : Fin 1).val) * 1 + (0 : Fin 1).val) / 1 = p.val; simp
    | ⟨1, _⟩ => rfl
  rw [e, val_main_call11_v4_apply, val_main_call11_v1_apply, val_main_call11_v3_apply, val_main_call11_v0_apply,
    val_main_call11_c_apply, val_main_v43_apply]
  have e2 : idx_main_v43 (ix2 p (0 : Fin 1)) = ix1 p := by
    funext a; match a with | ⟨0, _⟩ => rfl
  rw [e2]
  exact take_word _ _ h0

theorem call11_v12_eq (p : Fin 4096) (h0 : 0 ≤ (val_main_v24 (F := Ideal) T (ix1 p)).toInt)
    (h1 : (val_main_v24 (F := Ideal) T (ix1 p)).toInt ≤ 4001) :
    val_main_call11_v12 (F := Ideal) T (ix2 p 0) = 1#1 := by
  unfold val_main_call11_v12 val_main_call11_c_3
  rw [reduce_and_unit _ _ (by decide) _ p 0, val_main_call11_v11_apply, val_main_call11_v7_apply, val_main_call11_v10_apply,
    val_main_call11_v6_apply, val_main_call11_c_2_apply, val_main_call11_v9_apply, val_main_call11_v8_apply,
    val_main_call11_c_1_apply, call11_v5_eq T p h0]
  exact inb_bit _ _ 4001 (by decide) h0 h1

theorem call11_v13_eq (p : Fin 4096) (h0 : 0 ≤ (val_main_v24 (F := Ideal) T (ix1 p)).toInt)
    (h1 : (val_main_v24 (F := Ideal) T (ix1 p)).toInt ≤ 4001) :
    val_main_call11_v13 (F := Ideal) X T HW HB (ix2 p 0)
      = logSoftmax (lgH X HW HB p) (⟨(val_main_v24 (F := Ideal) T (ix1 p)).toInt.toNat, by omega⟩ : Fin 4002) := by
  unfold val_main_call11_v13
  refine (gather_row_eq (by decide) gather_S4096x4002_S4096x1x1_S4096x1_n_1_0_0_1_2_11_wf
    (val_main_v42 (F := Ideal) X HW HB) (val_main_call11_v5 (F := Ideal) T) p 0 _ (call11_v5_eq T p h0)
    (⟨(val_main_v24 (F := Ideal) T (ix1 p)).toInt.toNat, by omega⟩ : Fin 4002)
    (by show (val_main_v24 (F := Ideal) T (ix1 p)).toInt.toNat = min _ (4002 - 1); omega)).trans ?_
  rw [v42_eq]

theorem v45_eq (p : Fin 4096) (hT : 0 ≤ tgt T p ∧ tgt T p < 50000) :
    val_main_v45 (F := Ideal) X T HW HB (ix1 p)
      = logSoftmax (lgH X HW HB p) (clipCol 4002 (by decide) (ft T p)) := by
  have hv := v24_toInt T p
  have hr := ft_range T p hT
  have h0 : 0 ≤ (val_main_v24 (F := Ideal) T (ix1 p)).toInt := by omega
  have h1 : (val_main_v24 (F := Ideal) T (ix1 p)).toInt ≤ 4001 := by omega
  rw [val_main_v45_apply]
  have e : idx_main_v45 (ix1 p) = ix2 p (0 : Fin 1) := by
    funext a; apply Fin.ext
    match a with
    | ⟨0, _⟩ => show p.val / 1 = p.val; simp
    | ⟨1, _⟩ => rfl
  rw [e, val_main_v44_apply, call11_v12_eq T p h0 h1, select_one, call11_v13_eq X T HW HB p h0 h1]
  congr 1
  apply Fin.ext
  show (val_main_v24 (F := Ideal) T (ix1 p)).toInt.toNat = (min (((4002 : Nat) : Int) - 1) (max 0 (ft T p))).toNat
  omega

theorem v46_eq (p : Fin 4096) (hT : 0 ≤ tgt T p ∧ tgt T p < 50000) :
    val_main_v46 (F := Ideal) X T HW HB (ix1 p) = nll2 X T HW HB p := by
  rw [val_main_v46_apply, v45_eq X T HW HB p hT]
  rfl

theorem v47_eq (hT : ∀ p : Fin 4096, 0 ≤ tgt T p ∧ tgt T p < 50000) (i : S_.Idx) :
    val_main_v47 (F := Ideal) X T HW HB i = 0 + ∑ p : Fin 4096, nll2 X T HW HB p := by
  rw [val_main_v47_apply, val_main_cst_15_apply, sum_idx1]
  show Ideal.ofBits .f32 0x00000000#32 + _ = _
  rw [Ideal.ofBits_zero_f32]
  exact congrArg (0 + ·) (Finset.sum_congr rfl fun p _ => v46_eq X T HW HB p (hT p))

end Head

section Result

variable (X : (⟨S4096x1024, .f32⟩ : BufTy).Contents (Elt Ideal)) (T : (⟨S4096, .i32⟩ : BufTy).Contents (Elt Ideal))
  (HW : (⟨S1024x4002, .f32⟩ : BufTy).Contents (Elt Ideal)) (HB : (⟨S4002, .f32⟩ : BufTy).Contents (Elt Ideal))
  (W01 : (⟨S1024x1024, .f32⟩ : BufTy).Contents (Elt Ideal)) (W02 : (⟨S1024x16000, .f32⟩ : BufTy).Contents (Elt Ideal))
  (W11 : (⟨S1024x256, .f32⟩ : BufTy).Contents (Elt Ideal)) (W12 : (⟨S256x30000, .f32⟩ : BufTy).Contents (Elt Ideal))

theorem v49_eq (hT : ∀ p : Fin 4096, 0 ≤ tgt T p ∧ tgt T p < 50000) :
    val_main_v49 (F := Ideal) X T HW HB W01 W02 W11 W12 = fun _ => loss X T HW HB W01 W02 W11 W12 := by
  funext i
  rw [val_main_v49_apply, val_main_v48_apply, val_main_v37_apply, val_main_v18_apply, val_main_cst_6_apply,
    val_main_cst_16_apply, v17_eq X T W01 W02 hT, v36_eq X T W11 W12 hT, v47_eq X T HW HB hT]
  unfold loss
  show Ideal.div (Ideal.ofBits .f32 0x00000000#32 + _ + _ + _) (Ideal.ofBits .f32 0x45800000#32) = _
  rw [Ideal.ofBits_zero_f32, ofBits_4096]

end Result

/-- The reference's result is the same formula of the argument arrays, read operation by operation. -/
theorem ref_value (m : (ℓ : Loc nD τ sig) → Buf (Elt Ideal) ℓ) (c : Dev nD)
    (hT : ∀ p : Fin 4096, 0 ≤ tgt (m ((c.tc : Thread nD τ).loc main_arg1)) p
      ∧ tgt (m ((c.tc : Thread nD τ).loc main_arg1)) p < 50000) :
    Cert.ReferenceIdeal.Value.res_main_v49 (F := Ideal) m c = fun _ =>
      loss (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) :=
  (val_main_v49_eq m c).trans (v49_eq _ _ _ _ _ _ _ _ hT)

end Cert.ReferenceIdeal.RefValue

end
-- ==== Proof.PreFacts.lean ====
import proofs.«422338_j11269994185272_3_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic
open Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem real_of_abs_lt_top (x : EReal) (h : max x (-x) < ⊤) : x = ((x.toReal : ℝ) : EReal) := by
  induction x with
  | bot => simp at h
  | coe r => rfl
  | top => simp at h

theorem real_of_test (x : Ideal .f32)
    (h : FloatOps.cmpf (F := Ideal) (φ := .f32) .olt (FloatOps.hostAbsf (F := Ideal) (φ := .f32) x)
        (FloatOps.ofBits (F := Ideal) .f32 0x7F800000#32) = 1#1) :
    x = ((EReal.toReal x : ℝ) : EReal) := by
  refine real_of_abs_lt_top x ?_
  have h' : Ideal.cmp .olt (max x (-x)) (Ideal.ofBits .f32 0x7F800000#32) = 1#1 := h
  rw [ofBits_inf] at h'
  simpa [Ideal.cmp, StableHlo.Predicate.ofBool_eq_one_iff] using h'

theorem range_of_test (w : BitVec 32)
    (h : IntOp.andi (IntOp.cmpi .sge w 0#32) (IntOp.cmpi .slt w 50000#32) = 1#1) :
    0 ≤ w.toInt ∧ w.toInt < 50000 := by
  obtain ⟨h1, h2⟩ := IntOp.andi_eq_one.1 h
  have e0 : (0#32 : BitVec 32).toInt = 0 := by decide
  have e1 : (50000#32 : BitVec 32).toInt = 50000 := by decide
  simp only [IntOp.cmpi, StableHlo.Predicate.ofBool_eq_one_iff, BitVec.sle, BitVec.slt, decide_eq_true_eq, e0, e1] at h1 h2
  exact ⟨h1, h2⟩

variable [hF : Cert.Pre_finite_inputs.Facts]

structure Decoded (a0 : FVec Ideal S4096x1024 .f32) (a1 : IVec S4096 32) (a2 : FVec Ideal S1024x4002 .f32)
    (a3 : FVec Ideal S4002 .f32) (a4 : FVec Ideal S1024x1024 .f32) (a5 : FVec Ideal S1024x16000 .f32)
    (a6 : FVec Ideal S1024x256 .f32) (a7 : FVec Ideal S256x30000 .f32) : Prop where
  real0 : ∀ i, a0 i = (((a0 i : EReal).toReal : ℝ) : EReal)
  real2 : ∀ i, a2 i = (((a2 i : EReal).toReal : ℝ) : EReal)
  real3 : ∀ i, a3 i = (((a3 i : EReal).toReal : ℝ) : EReal)
  real4 : ∀ i, a4 i = (((a4 i : EReal).toReal : ℝ) : EReal)
  real5 : ∀ i, a5 i = (((a5 i : EReal).toReal : ℝ) : EReal)
  real6 : ∀ i, a6 i = (((a6 i : EReal).toReal : ℝ) : EReal)
  real7 : ∀ i, a7 i = (((a7 i : EReal).toReal : ℝ) : EReal)
  target : ∀ i : S4096.Idx, 0 ≤ (a1 i).toInt ∧ (a1 i).toInt < 50000

/-- The precondition, decoded: every float entry is a real number and every target lies in [0, 50000). -/
theorem decoded (a0 : FVec Ideal S4096x1024 .f32) (a1 : IVec S4096 32) (a2 : FVec Ideal S1024x4002 .f32)
    (a3 : FVec Ideal S4002 .f32) (a4 : FVec Ideal S1024x1024 .f32) (a5 : FVec Ideal S1024x16000 .f32)
    (a6 : FVec Ideal S1024x256 .f32) (a7 : FVec Ideal S256x30000 .f32)
    (h : Cert.Pre_finite_inputs.fn (F := Ideal) a0 a1 a2 a3 a4 a5 a6 a7 = (fun _ => 1#1)) :
    Decoded a0 a1 a2 a3 a4 a5 a6 a7 := by
  have h0 := congrFun h ValueIdx.ix0
  dsimp only [fn, fn_part1, fn_part2, andi] at h0

  obtain ⟨h33, h39⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8

  exact
    { real0 := fun i => real_of_test _ (Host.reduce_andi_all _ _ _ _ _ h3 i)
      real2 := fun i => real_of_test _ (Host.reduce_andi_all _ _ _ _ _ h7 i)
      real3 := fun i => real_of_test _ (Host.reduce_andi_all _ _ _ _ _ h12 i)
      real4 := fun i => real_of_test _ (Host.reduce_andi_all _ _ _ _ _ h17 i)
      real5 := fun i => real_of_test _ (Host.reduce_andi_all _ _ _ _ _ h22 i)
      real6 := fun i => real_of_test _ (Host.reduce_andi_all _ _ _ _ _ h27 i)
      real7 := fun i => real_of_test _ (Host.reduce_andi_all _ _ _ _ _ h32 i)
      target := fun i => range_of_test _ (Host.reduce_andi_all _ _ _ _ _ h39 i) }

theorem eq_coe_toReal {ι : Type} (a : ι → EReal) (h : ∀ i, a i = (((a i).toReal : ℝ) : EReal)) :
    a = fun i => (((a i).toReal : ℝ) : EReal) := funext h

end Cert.PreFacts

end
-- ==== Proof.PreOfDefs.lean ====
import proofs.«422338_j11269994185272_3_alg».proof.Defs
import proofs.«422338_j11269994185272_3_alg».proof.Proof.PreFacts

noncomputable section

namespace Cert.PreFacts

open Idealize.ShloMosaic Idealize.SL.Sem

variable [hPre : Cert.Pre_finite_inputs.Facts]

theorem decoded_of_pre
    (m : (ℓ : Loc Cert.KernelIdeal.nD Cert.KernelIdeal.τ Cert.KernelIdeal.sig) → Buf (Elt Ideal) ℓ)
    (hpre : Cert.Pre_KernelIdeal m) (c : Dev Cert.KernelIdeal.nD) :
    Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  decoded _ _ _ _ _ _ _ _ (hpre c)

end Cert.PreFacts

end
-- ==== Proof.Algebraic.lean ====
import proofs.«422338_j11269994185272_3_alg».proof.Defs
import proofs.«422338_j11269994185272_3_alg».proof.Proof.Gen.Pre_finite_inputs
import proofs.«422338_j11269994185272_3_alg».proof.Proof.KI.Regs
import proofs.«422338_j11269994185272_3_alg».proof.Proof.KI.RunValue
import proofs.«422338_j11269994185272_3_alg».proof.Proof.KI.Host
import proofs.«422338_j11269994185272_3_alg».proof.Proof.KI.Row0
import proofs.«422338_j11269994185272_3_alg».proof.Proof.KI.Row1
import proofs.«422338_j11269994185272_3_alg».proof.Proof.KI.Row2
import proofs.«422338_j11269994185272_3_alg».proof.Proof.Ref.Value
import proofs.«422338_j11269994185272_3_alg».proof.Proof.PreOfDefs

noncomputable section

namespace Cert.Proof.Algebraic

open Idealize.ShloMosaic Idealize.ShloMosaic.TcCoe Idealize.ShloMosaic.ValueIdx Idealize.SL.Sem
open Cert.KernelIdeal Cert.KernelIdeal.Gen
open scoped BigOperators

/-- Under the precondition the kernel program's result is the reference's formula of the argument arrays. -/
theorem kernel_value (m : (ℓ : Loc nD τ sig) → Buf (Elt Ideal) ℓ) (hpre : Cert.Pre_KernelIdeal m) (c : Dev nD) :
    (V13 m (outsKI m) c (Proc.devRef .tc main_v20) : S_.Idx → EReal) = fun _ =>
      Cert.ReferenceIdeal.RefValue.loss (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  have D := Cert.PreFacts.decoded_of_pre m hpre c
  have hT : ∀ p : Fin 4096, 0 ≤ ((m ((c.tc : Thread nD τ).loc main_arg1) : S4096.Idx → BitVec 32) (ix1 p)).toInt
      ∧ ((m ((c.tc : Thread nD τ).loc main_arg1) : S4096.Idx → BitVec 32) (ix1 p)).toInt < 50000 := fun p => D.target (ix1 p)

  have h0 := Cert.KernelIdeal.Row0.region0_value (V := Ve0 m) (c := c)
    (X := m ((c.tc : Thread nD τ).loc main_arg0)) (W1 := m ((c.tc : Thread nD τ).loc main_arg4))
    (W2 := m ((c.tc : Thread nD τ).loc main_arg5)) (T := m ((c.tc : Thread nD τ).loc main_arg1))
    (hX := fun p e => congrFun (HostSide.e0_v0 m c) (ix2 p e)) (hW1 := fun e d => congrFun (HostSide.e0_v2 m c) (ix2 e d))
    (hW2 := HostSide.e0_v4 m c) (hT := HostSide.e0_v1 m c) (hXr := D.real0) (hW1r := D.real4) (hW2r := D.real5) (hrange := hT)
  have h1 := Cert.KernelIdeal.Row1.region1_value (V := Ve1 m) (c := c)
    (X := m ((c.tc : Thread nD τ).loc main_arg0)) (W1 := m ((c.tc : Thread nD τ).loc main_arg6))
    (W2 := m ((c.tc : Thread nD τ).loc main_arg7)) (T := m ((c.tc : Thread nD τ).loc main_arg1))
    (hX := fun p e => congrFun (HostSide.e1_v0 m (outsA m) c) (ix2 p e))
    (hW1 := fun e d => congrFun (HostSide.e1_v6 m (outsA m) c) (ix2 e d))
    (hW2 := HostSide.e1_v8 m (outsA m) c) (hT := HostSide.e1_v1 m (outsA m) c)
    (hXr := D.real0) (hW1r := D.real6) (hW2r := D.real7) (hrange := hT)
  have h2 := Cert.KernelIdeal.Row2.region2_value (V := Ve2 m) (c := c)
    (X := m ((c.tc : Thread nD τ).loc main_arg0)) (HW := m ((c.tc : Thread nD τ).loc main_arg2))
    (HB := m ((c.tc : Thread nD τ).loc main_arg3)) (T := m ((c.tc : Thread nD τ).loc main_arg1))
    (hX := fun p e => congrFun (HostSide.e2_v0 m (outsB m) c) (ix2 p e)) (hW := HostSide.e2_v11 m (outsB m) c)
    (hB := HostSide.e2_v13 m (outsB m) c) (hT := HostSide.e2_v1 m (outsB m) c)
    (hXr := D.real0) (hWr := D.real2) (hBr := D.real3) (hTr := hT)
  funext j
  rw [HostSide.result_value m (outsKI m) c j, outsKI_v5, outsKI_v9, outsKI_v14]
  unfold Cert.ReferenceIdeal.RefValue.loss HostSide.colSum
  simp only [zero_add]
  refine congrArg (fun s => Ideal.div s 4096) ?_
  refine congrArg₂ (· + ·) (congrArg₂ (· + ·) ?_ ?_) ?_
  · exact Finset.sum_congr rfl fun p _ => h0 p
  · exact Finset.sum_congr rfl fun p _ => h1 p
  · exact Finset.sum_congr rfl fun p _ => h2 p

end Cert.Proof.Algebraic

namespace Cert.Proof

open Idealize.ShloMosaic Idealize.ShloMosaic.TcCoe Idealize.ShloMosaic.ValueIdx Idealize.SL.Sem

theorem algebraic : Cert.algebraic_KernelIdeal_ReferenceIdeal := by
  intro m ρ m' ρ' hpre hagree
  refine ⟨fun c => (fun _ =>
      Cert.ReferenceIdeal.RefValue.loss
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) : Cert.KernelIdeal.S_.Idx → EReal),
    ?_, ?_⟩
  · exact (θ_run Cert.KernelIdeal.defs _ _).mono
      (fun _ h c => ⟨(h c).1.trans (Cert.Proof.Algebraic.kernel_value m hpre c), (h c).2⟩)
      (Cert.KernelIdeal.Gen.runKI (F := Ideal) m ρ)
  · refine (θ_run Cert.ReferenceIdeal.defs _ _).mono (fun _ h c => ⟨(h c).1.trans ?_, (h c).2⟩)
      (Cert.ReferenceIdeal.Value.run (F := Ideal) m' ρ')
    have D := Cert.PreFacts.decoded_of_pre m hpre c
    obtain ⟨a0, a1, a2, a3, a4, a5, a6, a7⟩ := hagree c
    refine (Cert.ReferenceIdeal.RefValue.ref_value m' c ?_).trans ?_
    · rw [a1]; exact fun p => D.target (ix1 p)
    · rw [a0, a1, a2, a3, a4, a5, a6, a7] <;> rfl

end Cert.Proof

end
-- ==== Proof.lean ====
/-
  Adaptive softmax, negative log-likelihood: three tiled kernels against log_softmax and a gather.

  The program computes, for 4096 rows x_p with integer targets t_p in [0, 50000), the mean of
  three terms per row: for each of the two tail clusters [4000, 20000) and [20000, 50000) the
  cross-entropy −log softmax(z_p)[t_p − lo] of the cluster's logits z_p = (x_p·W₁)·W₂ if t_p lies
  in the cluster and 0 otherwise, and the cross-entropy of the head's logits x_p·W_h + b_h at the
  target mapped to its cluster's column (4000, 4001) or kept.

  Each kernel walks the columns of a row block tile by tile and keeps, per row, a running maximum
  m, the sum s of exp(z − m) over the columns seen so far, rescaled by exp(m_old − m_new) whenever
  the maximum moves, and the logit at the target column picked out by a one-hot sum; columns that
  pad the last tile are filled with the named constant that denotes −∞ at the ideal instance, so
  that they change neither the maximum nor the sum.  At the last tile it forms (m + log s) − z[t].
  Over the extended reals, on finite inputs, m is the row maximum M, s is Σ exp(z − M), and
  (M + log S) − z[t] = −((z[t] − M) − log S): the reference's −log softmax(z)[t], column by
  column (the module of the online log-sum-exp identity); the three sums over the rows and the
  division by 4096 are the same operations on both sides.

  The frames: each kernel region is run point by point with the kept scratch values named, the
  three regions composed with the host operations between them; the reference is a host program
  whose run is read back operation by operation.
-/
import proofs.«422338_j11269994185272_3_alg».proof.Defs
import proofs.«422338_j11269994185272_3_alg».proof.Proof.Gen.Kernel
import proofs.«422338_j11269994185272_3_alg».proof.Proof.Gen.KernelIdeal
import proofs.«422338_j11269994185272_3_alg».proof.Proof.Gen.ReferenceIdeal
import proofs.«422338_j11269994185272_3_alg».proof.Proof.Gen.Pre_finite_inputs
import proofs.«422338_j11269994185272_3_alg».proof.Proof.K.Regs
import proofs.«422338_j11269994185272_3_alg».proof.Proof.KI.Regs
import proofs.«422338_j11269994185272_3_alg».proof.Proof.Algebraic
import Idealize.ShloMosaic.Adequacy
import Idealize.ShloMosaic.Init

noncomputable section

namespace Cert.Proof

open Idealize.ShloMosaic Idealize.SL.Sem

/-- The word-level program runs to the end from any memory and leaves its arguments as they were. -/
theorem frame_kernel : Cert.frame_Kernel := fun m g _ => Cert.Kernel.Gen.frameKI (F := Bits) m g

/-- So does its idealization. -/
theorem frame_kernelIdeal : Cert.frame_KernelIdeal := fun m g _ => Cert.KernelIdeal.Gen.frameKI (F := Ideal) m g

/-- The reference is a host program: its run, with the result dropped. -/
theorem frame_referenceIdeal : Cert.frame_ReferenceIdeal := fun m g _ =>
  (θ_run Cert.ReferenceIdeal.defs _ _).mono (fun _ h c => (h c).2) (Cert.ReferenceIdeal.Value.run (F := Ideal) m g)

/-- The one rewrite of the idealization, at its three sites: the fill of the padded columns, a finite stand-in in the
    word-level program, is the constant the table names −∞. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Proof.algebraic⟩

end Cert.Proof

end
